-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S512x512 : Shape := ⟨2, ![512, 512]⟩
abbrev S4x128x256 : Shape := ⟨3, ![4, 128, 256]⟩
abbrev S3x128x256 : Shape := ⟨3, ![3, 128, 256]⟩
abbrev S128x256 : Shape := ⟨2, ![128, 256]⟩
abbrev S3 : Shape := ⟨1, ![3]⟩
abbrev S4 : Shape := ⟨1, ![4]⟩
abbrev S512x256 : Shape := ⟨2, ![512, 256]⟩
abbrev S_ : Shape := ⟨0, ![]⟩
abbrev S1 : Shape := ⟨1, ![1]⟩
abbrev S1x128x256 : Shape := ⟨3, ![1, 128, 256]⟩

abbrev nBuf : Space → Nat
  | .hbm => 2
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S4x128x256, .bf16⟩
  | .local _ .vmem, ⟨3, _⟩ => ⟨S3x128x256, .bf16⟩
  | .local _ .vmem, ⟨4, _⟩ => ⟨S128x256, .bf16⟩
  | .local _ .vmem, ⟨5, _⟩ => ⟨S3x128x256, .bf16⟩
  | .local _ .vmem, ⟨6, _⟩ => ⟨S4x128x256, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v10 : BitVec 32 := Scalar.muli v2 c256_i32
  let v12 : Index := Scalar.indexCast v10
  ![0, v12.toNat]
def k0_dev1 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v32 : BitVec 32 := Scalar.muli v2 c16_i32_14
  let v33 : BitVec 32 := Scalar.addi c0_i32_15 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v34 : BitVec 32 := Scalar.muli v5 c4_i32_16
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v21 : BitVec 32 := Scalar.addi v8 c1_i32_7
  let c4_i32_8 : BitVec 32 := 4#32
  let c0_i32 : BitVec 32 := 0#32
  let v22 : BitVec 1 := Scalar.cmpi .eq c4_i32_8 c0_i32
  let c1_i32_9 : BitVec 32 := 1#32
  let v23 : BitVec 32 := Scalar.select v22 c1_i32_9 c4_i32_8
  let v24 : BitVec 32 := Scalar.remsi v21 v23
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let c0_i32_10 : BitVec 32 := 0#32
  let v25 : BitVec 1 := Scalar.cmpi .ne v24 c0_i32_10
  let v29 : BitVec 1 := Scalar.andi v28 v25
  let v30 : BitVec 32 := Scalar.addi v24 v23
  let v31 : BitVec 32 := Scalar.select v29 v30 v24
  let c1_i32_17 : BitVec 32 := 1#32
  let v36 : BitVec 32 := Scalar.muli v31 c1_i32_17
  let v37 : BitVec 32 := Scalar.addi v35 v36
  v37.toNat
def k0_dev2 (d0 : Dev nD) : Nat :=
  let c0_i32_27 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_26 : BitVec 32 := 16#32
  let v49 : BitVec 32 := Scalar.muli v2 c16_i32_26
  let v50 : BitVec 32 := Scalar.addi c0_i32_27 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v51 : BitVec 32 := Scalar.muli v5 c4_i32_28
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_18 : BitVec 32 := 2#32
  let v38 : BitVec 32 := Scalar.addi v8 c2_i32_18
  let c4_i32_19 : BitVec 32 := 4#32
  let c0_i32_20 : BitVec 32 := 0#32
  let v39 : BitVec 1 := Scalar.cmpi .eq c4_i32_19 c0_i32_20
  let c1_i32_21 : BitVec 32 := 1#32
  let v40 : BitVec 32 := Scalar.select v39 c1_i32_21 c4_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_29 : BitVec 32 := 1#32
  let v53 : BitVec 32 := Scalar.muli v48 c1_i32_29
  let v54 : BitVec 32 := Scalar.addi v52 v53
  v54.toNat
def k0_dev3 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_37 : BitVec 32 := 16#32
  let v66 : BitVec 32 := Scalar.muli v2 c16_i32_37
  let v67 : BitVec 32 := Scalar.addi c0_i32_38 v66
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_39 : BitVec 32 := 4#32
  let v68 : BitVec 32 := Scalar.muli v5 c4_i32_39
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v55 : BitVec 32 := Scalar.addi v8 c3_i32
  let c4_i32_30 : BitVec 32 := 4#32
  let c0_i32_31 : BitVec 32 := 0#32
  let v56 : BitVec 1 := Scalar.cmpi .eq c4_i32_30 c0_i32_31
  let c1_i32_32 : BitVec 32 := 1#32
  let v57 : BitVec 32 := Scalar.select v56 c1_i32_32 c4_i32_30
  let v58 : BitVec 32 := Scalar.remsi v55 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c1_i32_40 : BitVec 32 := 1#32
  let v70 : BitVec 32 := Scalar.muli v65 c1_i32_40
  let v71 : BitVec 32 := Scalar.addi v69 v70
  v71.toNat
def k0_dev4 (d0 : Dev nD) : Nat :=
  let c0_i32_50 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_49 : BitVec 32 := 16#32
  let v83 : BitVec 32 := Scalar.muli v9 c16_i32_49
  let v84 : BitVec 32 := Scalar.addi c0_i32_50 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v85 : BitVec 32 := Scalar.muli v5 c4_i32_51
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v72 : BitVec 32 := Scalar.addi v8 c1_i32_41
  let c4_i32_42 : BitVec 32 := 4#32
  let c0_i32_43 : BitVec 32 := 0#32
  let v73 : BitVec 1 := Scalar.cmpi .eq c4_i32_42 c0_i32_43
  let c1_i32_44 : BitVec 32 := 1#32
  let v74 : BitVec 32 := Scalar.select v73 c1_i32_44 c4_i32_42
  let v75 : BitVec 32 := Scalar.remsi v72 v74
  let c0_i32_46 : BitVec 32 := 0#32
  let v77 : BitVec 1 := Scalar.cmpi .slt v75 c0_i32_46
  let c0_i32_47 : BitVec 32 := 0#32
  let v78 : BitVec 1 := Scalar.cmpi .slt v74 c0_i32_47
  let v79 : BitVec 1 := Scalar.xori v77 v78
  let c0_i32_45 : BitVec 32 := 0#32
  let v76 : BitVec 1 := Scalar.cmpi .ne v75 c0_i32_45
  let v80 : BitVec 1 := Scalar.andi v79 v76
  let v81 : BitVec 32 := Scalar.addi v75 v74
  let v82 : BitVec 32 := Scalar.select v80 v81 v75
  let c1_i32_52 : BitVec 32 := 1#32
  let v87 : BitVec 32 := Scalar.muli v82 c1_i32_52
  let v88 : BitVec 32 := Scalar.addi v86 v87
  v88.toNat
def k0_dev5 (d0 : Dev nD) : Nat :=
  let c0_i32_62 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_61 : BitVec 32 := 16#32
  let v100 : BitVec 32 := Scalar.muli v9 c16_i32_61
  let v101 : BitVec 32 := Scalar.addi c0_i32_62 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v102 : BitVec 32 := Scalar.muli v5 c4_i32_63
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_53 : BitVec 32 := 2#32
  let v89 : BitVec 32 := Scalar.addi v8 c2_i32_53
  let c4_i32_54 : BitVec 32 := 4#32
  let c0_i32_55 : BitVec 32 := 0#32
  let v90 : BitVec 1 := Scalar.cmpi .eq c4_i32_54 c0_i32_55
  let c1_i32_56 : BitVec 32 := 1#32
  let v91 : BitVec 32 := Scalar.select v90 c1_i32_56 c4_i32_54
  let v92 : BitVec 32 := Scalar.remsi v89 v91
  let c0_i32_58 : BitVec 32 := 0#32
  let v94 : BitVec 1 := Scalar.cmpi .slt v92 c0_i32_58
  let c0_i32_59 : BitVec 32 := 0#32
  let v95 : BitVec 1 := Scalar.cmpi .slt v91 c0_i32_59
  let v96 : BitVec 1 := Scalar.xori v94 v95
  let c0_i32_57 : BitVec 32 := 0#32
  let v93 : BitVec 1 := Scalar.cmpi .ne v92 c0_i32_57
  let v97 : BitVec 1 := Scalar.andi v96 v93
  let v98 : BitVec 32 := Scalar.addi v92 v91
  let v99 : BitVec 32 := Scalar.select v97 v98 v92
  let c1_i32_64 : BitVec 32 := 1#32
  let v104 : BitVec 32 := Scalar.muli v99 c1_i32_64
  let v105 : BitVec 32 := Scalar.addi v103 v104
  v105.toNat
def k0_dev6 (d0 : Dev nD) : Nat :=
  let c0_i32_74 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_73 : BitVec 32 := 16#32
  let v117 : BitVec 32 := Scalar.muli v9 c16_i32_73
  let v118 : BitVec 32 := Scalar.addi c0_i32_74 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_75 : BitVec 32 := 4#32
  let v119 : BitVec 32 := Scalar.muli v5 c4_i32_75
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_65 : BitVec 32 := 3#32
  let v106 : BitVec 32 := Scalar.addi v8 c3_i32_65
  let c4_i32_66 : BitVec 32 := 4#32
  let c0_i32_67 : BitVec 32 := 0#32
  let v107 : BitVec 1 := Scalar.cmpi .eq c4_i32_66 c0_i32_67
  let c1_i32_68 : BitVec 32 := 1#32
  let v108 : BitVec 32 := Scalar.select v107 c1_i32_68 c4_i32_66
  let v109 : BitVec 32 := Scalar.remsi v106 v108
  let c0_i32_70 : BitVec 32 := 0#32
  let v111 : BitVec 1 := Scalar.cmpi .slt v109 c0_i32_70
  let c0_i32_71 : BitVec 32 := 0#32
  let v112 : BitVec 1 := Scalar.cmpi .slt v108 c0_i32_71
  let v113 : BitVec 1 := Scalar.xori v111 v112
  let c0_i32_69 : BitVec 32 := 0#32
  let v110 : BitVec 1 := Scalar.cmpi .ne v109 c0_i32_69
  let v114 : BitVec 1 := Scalar.andi v113 v110
  let v115 : BitVec 32 := Scalar.addi v109 v108
  let v116 : BitVec 32 := Scalar.select v114 v115 v109
  let c1_i32_76 : BitVec 32 := 1#32
  let v121 : BitVec 32 := Scalar.muli v116 c1_i32_76
  let v122 : BitVec 32 := Scalar.addi v120 v121
  v122.toNat
def k0_dev7 (d0 : Dev nD) : Nat :=
  let c0_i32_79 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_78 : BitVec 32 := 16#32
  let v123 : BitVec 32 := Scalar.muli v9 c16_i32_78
  let v124 : BitVec 32 := Scalar.addi c0_i32_79 v123
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v125 : BitVec 32 := Scalar.muli v5 c4_i32_80
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v127 : BitVec 32 := Scalar.muli v8 c1_i32_81
  let v128 : BitVec 32 := Scalar.addi v126 v127
  v128.toNat
def k0_off2 (d0 : Dev nD) (c1_i32_82 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v129 : BitVec 32 := Scalar.addi v8 c1_i32_82
  let c4_i32_83 : BitVec 32 := 4#32
  let c0_i32_84 : BitVec 32 := 0#32
  let v130 : BitVec 1 := Scalar.cmpi .eq c4_i32_83 c0_i32_84
  let c1_i32_85 : BitVec 32 := 1#32
  let v131 : BitVec 32 := Scalar.select v130 c1_i32_85 c4_i32_83
  let v132 : BitVec 32 := Scalar.remsi v129 v131
  let c0_i32_87 : BitVec 32 := 0#32
  let v134 : BitVec 1 := Scalar.cmpi .slt v132 c0_i32_87
  let c0_i32_88 : BitVec 32 := 0#32
  let v135 : BitVec 1 := Scalar.cmpi .slt v131 c0_i32_88
  let v136 : BitVec 1 := Scalar.xori v134 v135
  let c0_i32_86 : BitVec 32 := 0#32
  let v133 : BitVec 1 := Scalar.cmpi .ne v132 c0_i32_86
  let v137 : BitVec 1 := Scalar.andi v136 v133
  let v138 : BitVec 32 := Scalar.addi v132 v131
  let v139 : BitVec 32 := Scalar.select v137 v138 v132
  let c0_i32_98 : BitVec 32 := 0#32
  let c0_i32_99 : BitVec 32 := 0#32
  ![v139.toNat, 0, 0]
def k0_dev8 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v140 : BitVec 32 := Scalar.muli v2 c16_i32_92
  let v141 : BitVec 32 := Scalar.addi c0_i32_93 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v142 : BitVec 32 := Scalar.muli v5 c4_i32_94
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v129 : BitVec 32 := Scalar.addi v8 c1_i32_82
  let c4_i32_83 : BitVec 32 := 4#32
  let c0_i32_84 : BitVec 32 := 0#32
  let v130 : BitVec 1 := Scalar.cmpi .eq c4_i32_83 c0_i32_84
  let c1_i32_85 : BitVec 32 := 1#32
  let v131 : BitVec 32 := Scalar.select v130 c1_i32_85 c4_i32_83
  let v132 : BitVec 32 := Scalar.remsi v129 v131
  let c0_i32_87 : BitVec 32 := 0#32
  let v134 : BitVec 1 := Scalar.cmpi .slt v132 c0_i32_87
  let c0_i32_88 : BitVec 32 := 0#32
  let v135 : BitVec 1 := Scalar.cmpi .slt v131 c0_i32_88
  let v136 : BitVec 1 := Scalar.xori v134 v135
  let c0_i32_86 : BitVec 32 := 0#32
  let v133 : BitVec 1 := Scalar.cmpi .ne v132 c0_i32_86
  let v137 : BitVec 1 := Scalar.andi v136 v133
  let v138 : BitVec 32 := Scalar.addi v132 v131
  let v139 : BitVec 32 := Scalar.select v137 v138 v132
  let c1_i32_95 : BitVec 32 := 1#32
  let v144 : BitVec 32 := Scalar.muli v139 c1_i32_95
  let v145 : BitVec 32 := Scalar.addi v143 v144
  v145.toNat
def k0_dev9 (d0 : Dev nD) : Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_110 : BitVec 32 := 16#32
  let v165 : BitVec 32 := Scalar.muli v2 c16_i32_110
  let v166 : BitVec 32 := Scalar.addi c0_i32_111 v165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_112 : BitVec 32 := 4#32
  let v167 : BitVec 32 := Scalar.muli v5 c4_i32_112
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_100 : BitVec 32 := 2#32
  let v154 : BitVec 32 := Scalar.addi v8 c2_i32_100
  let c4_i32_101 : BitVec 32 := 4#32
  let c0_i32_102 : BitVec 32 := 0#32
  let v155 : BitVec 1 := Scalar.cmpi .eq c4_i32_101 c0_i32_102
  let c1_i32_103 : BitVec 32 := 1#32
  let v156 : BitVec 32 := Scalar.select v155 c1_i32_103 c4_i32_101
  let v157 : BitVec 32 := Scalar.remsi v154 v156
  let c0_i32_105 : BitVec 32 := 0#32
  let v159 : BitVec 1 := Scalar.cmpi .slt v157 c0_i32_105
  let c0_i32_106 : BitVec 32 := 0#32
  let v160 : BitVec 1 := Scalar.cmpi .slt v156 c0_i32_106
  let v161 : BitVec 1 := Scalar.xori v159 v160
  let c0_i32_104 : BitVec 32 := 0#32
  let v158 : BitVec 1 := Scalar.cmpi .ne v157 c0_i32_104
  let v162 : BitVec 1 := Scalar.andi v161 v158
  let v163 : BitVec 32 := Scalar.addi v157 v156
  let v164 : BitVec 32 := Scalar.select v162 v163 v157
  let c1_i32_113 : BitVec 32 := 1#32
  let v169 : BitVec 32 := Scalar.muli v164 c1_i32_113
  let v170 : BitVec 32 := Scalar.addi v168 v169
  v170.toNat
def k0_dev10 (d0 : Dev nD) : Nat :=
  let c0_i32_129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_128 : BitVec 32 := 16#32
  let v190 : BitVec 32 := Scalar.muli v2 c16_i32_128
  let v191 : BitVec 32 := Scalar.addi c0_i32_129 v190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v192 : BitVec 32 := Scalar.muli v5 c4_i32_130
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_118 : BitVec 32 := 3#32
  let v179 : BitVec 32 := Scalar.addi v8 c3_i32_118
  let c4_i32_119 : BitVec 32 := 4#32
  let c0_i32_120 : BitVec 32 := 0#32
  let v180 : BitVec 1 := Scalar.cmpi .eq c4_i32_119 c0_i32_120
  let c1_i32_121 : BitVec 32 := 1#32
  let v181 : BitVec 32 := Scalar.select v180 c1_i32_121 c4_i32_119
  let v182 : BitVec 32 := Scalar.remsi v179 v181
  let c0_i32_123 : BitVec 32 := 0#32
  let v184 : BitVec 1 := Scalar.cmpi .slt v182 c0_i32_123
  let c0_i32_124 : BitVec 32 := 0#32
  let v185 : BitVec 1 := Scalar.cmpi .slt v181 c0_i32_124
  let v186 : BitVec 1 := Scalar.xori v184 v185
  let c0_i32_122 : BitVec 32 := 0#32
  let v183 : BitVec 1 := Scalar.cmpi .ne v182 c0_i32_122
  let v187 : BitVec 1 := Scalar.andi v186 v183
  let v188 : BitVec 32 := Scalar.addi v182 v181
  let v189 : BitVec 32 := Scalar.select v187 v188 v182
  let c1_i32_131 : BitVec 32 := 1#32
  let v194 : BitVec 32 := Scalar.muli v189 c1_i32_131
  let v195 : BitVec 32 := Scalar.addi v193 v194
  v195.toNat
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v240 : BitVec 32 := Scalar.muli v8 c128_i32
  let v241 : Index := Scalar.indexCast v240
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v10 : BitVec 32 := Scalar.muli v2 c256_i32
  let v242 : Index := Scalar.indexCast v10
  ![v241.toNat, v242.toNat]
def k0_dev11 (d0 : Dev nD) : Nat :=
  let c0_i32_183 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_182 : BitVec 32 := 16#32
  let v265 : BitVec 32 := Scalar.muli v9 c16_i32_182
  let v266 : BitVec 32 := Scalar.addi c0_i32_183 v265
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_184 : BitVec 32 := 4#32
  let v267 : BitVec 32 := Scalar.muli v5 c4_i32_184
  let v268 : BitVec 32 := Scalar.addi v266 v267
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v269 : BitVec 32 := Scalar.muli v8 c1_i32_185
  let v270 : BitVec 32 := Scalar.addi v268 v269
  v270.toNat
def k0_dev12 (d0 : Dev nD) : Nat :=
  let c0_i32_199 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_198 : BitVec 32 := 16#32
  let v288 : BitVec 32 := Scalar.muli v2 c16_i32_198
  let v289 : BitVec 32 := Scalar.addi c0_i32_199 v288
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_200 : BitVec 32 := 4#32
  let v290 : BitVec 32 := Scalar.muli v5 c4_i32_200
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v277 : BitVec 32 := Scalar.addi v8 c1_i32_188
  let c4_i32_189 : BitVec 32 := 4#32
  let c0_i32_190 : BitVec 32 := 0#32
  let v278 : BitVec 1 := Scalar.cmpi .eq c4_i32_189 c0_i32_190
  let c1_i32_191 : BitVec 32 := 1#32
  let v279 : BitVec 32 := Scalar.select v278 c1_i32_191 c4_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_201 : BitVec 32 := 1#32
  let v292 : BitVec 32 := Scalar.muli v287 c1_i32_201
  let v293 : BitVec 32 := Scalar.addi v291 v292
  v293.toNat
def k0_dev13 (d0 : Dev nD) : Nat :=
  let c0_i32_208 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_207 : BitVec 32 := 16#32
  let v300 : BitVec 32 := Scalar.muli v9 c16_i32_207
  let v301 : BitVec 32 := Scalar.addi c0_i32_208 v300
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_209 : BitVec 32 := 4#32
  let v302 : BitVec 32 := Scalar.muli v5 c4_i32_209
  let v303 : BitVec 32 := Scalar.addi v301 v302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v277 : BitVec 32 := Scalar.addi v8 c1_i32_188
  let c4_i32_189 : BitVec 32 := 4#32
  let c0_i32_190 : BitVec 32 := 0#32
  let v278 : BitVec 1 := Scalar.cmpi .eq c4_i32_189 c0_i32_190
  let c1_i32_191 : BitVec 32 := 1#32
  let v279 : BitVec 32 := Scalar.select v278 c1_i32_191 c4_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_210 : BitVec 32 := 1#32
  let v304 : BitVec 32 := Scalar.muli v287 c1_i32_210
  let v305 : BitVec 32 := Scalar.addi v303 v304
  v305.toNat
def k0_dev14 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v323 : BitVec 32 := Scalar.muli v2 c16_i32_223
  let v324 : BitVec 32 := Scalar.addi c0_i32_224 v323
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_225 : BitVec 32 := 4#32
  let v325 : BitVec 32 := Scalar.muli v5 c4_i32_225
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_213 : BitVec 32 := 2#32
  let v312 : BitVec 32 := Scalar.addi v8 c2_i32_213
  let c4_i32_214 : BitVec 32 := 4#32
  let c0_i32_215 : BitVec 32 := 0#32
  let v313 : BitVec 1 := Scalar.cmpi .eq c4_i32_214 c0_i32_215
  let c1_i32_216 : BitVec 32 := 1#32
  let v314 : BitVec 32 := Scalar.select v313 c1_i32_216 c4_i32_214
  let v315 : BitVec 32 := Scalar.remsi v312 v314
  let c0_i32_218 : BitVec 32 := 0#32
  let v317 : BitVec 1 := Scalar.cmpi .slt v315 c0_i32_218
  let c0_i32_219 : BitVec 32 := 0#32
  let v318 : BitVec 1 := Scalar.cmpi .slt v314 c0_i32_219
  let v319 : BitVec 1 := Scalar.xori v317 v318
  let c0_i32_217 : BitVec 32 := 0#32
  let v316 : BitVec 1 := Scalar.cmpi .ne v315 c0_i32_217
  let v320 : BitVec 1 := Scalar.andi v319 v316
  let v321 : BitVec 32 := Scalar.addi v315 v314
  let v322 : BitVec 32 := Scalar.select v320 v321 v315
  let c1_i32_226 : BitVec 32 := 1#32
  let v327 : BitVec 32 := Scalar.muli v322 c1_i32_226
  let v328 : BitVec 32 := Scalar.addi v326 v327
  v328.toNat
def k0_dev15 (d0 : Dev nD) : Nat :=
  let c0_i32_233 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_232 : BitVec 32 := 16#32
  let v335 : BitVec 32 := Scalar.muli v9 c16_i32_232
  let v336 : BitVec 32 := Scalar.addi c0_i32_233 v335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_234 : BitVec 32 := 4#32
  let v337 : BitVec 32 := Scalar.muli v5 c4_i32_234
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_213 : BitVec 32 := 2#32
  let v312 : BitVec 32 := Scalar.addi v8 c2_i32_213
  let c4_i32_214 : BitVec 32 := 4#32
  let c0_i32_215 : BitVec 32 := 0#32
  let v313 : BitVec 1 := Scalar.cmpi .eq c4_i32_214 c0_i32_215
  let c1_i32_216 : BitVec 32 := 1#32
  let v314 : BitVec 32 := Scalar.select v313 c1_i32_216 c4_i32_214
  let v315 : BitVec 32 := Scalar.remsi v312 v314
  let c0_i32_218 : BitVec 32 := 0#32
  let v317 : BitVec 1 := Scalar.cmpi .slt v315 c0_i32_218
  let c0_i32_219 : BitVec 32 := 0#32
  let v318 : BitVec 1 := Scalar.cmpi .slt v314 c0_i32_219
  let v319 : BitVec 1 := Scalar.xori v317 v318
  let c0_i32_217 : BitVec 32 := 0#32
  let v316 : BitVec 1 := Scalar.cmpi .ne v315 c0_i32_217
  let v320 : BitVec 1 := Scalar.andi v319 v316
  let v321 : BitVec 32 := Scalar.addi v315 v314
  let v322 : BitVec 32 := Scalar.select v320 v321 v315
  let c1_i32_235 : BitVec 32 := 1#32
  let v339 : BitVec 32 := Scalar.muli v322 c1_i32_235
  let v340 : BitVec 32 := Scalar.addi v338 v339
  v340.toNat
def k0_dev16 (d0 : Dev nD) : Nat :=
  let c0_i32_249 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_248 : BitVec 32 := 16#32
  let v358 : BitVec 32 := Scalar.muli v2 c16_i32_248
  let v359 : BitVec 32 := Scalar.addi c0_i32_249 v358
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_250 : BitVec 32 := 4#32
  let v360 : BitVec 32 := Scalar.muli v5 c4_i32_250
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_238 : BitVec 32 := 3#32
  let v347 : BitVec 32 := Scalar.addi v8 c3_i32_238
  let c4_i32_239 : BitVec 32 := 4#32
  let c0_i32_240 : BitVec 32 := 0#32
  let v348 : BitVec 1 := Scalar.cmpi .eq c4_i32_239 c0_i32_240
  let c1_i32_241 : BitVec 32 := 1#32
  let v349 : BitVec 32 := Scalar.select v348 c1_i32_241 c4_i32_239
  let v350 : BitVec 32 := Scalar.remsi v347 v349
  let c0_i32_243 : BitVec 32 := 0#32
  let v352 : BitVec 1 := Scalar.cmpi .slt v350 c0_i32_243
  let c0_i32_244 : BitVec 32 := 0#32
  let v353 : BitVec 1 := Scalar.cmpi .slt v349 c0_i32_244
  let v354 : BitVec 1 := Scalar.xori v352 v353
  let c0_i32_242 : BitVec 32 := 0#32
  let v351 : BitVec 1 := Scalar.cmpi .ne v350 c0_i32_242
  let v355 : BitVec 1 := Scalar.andi v354 v351
  let v356 : BitVec 32 := Scalar.addi v350 v349
  let v357 : BitVec 32 := Scalar.select v355 v356 v350
  let c1_i32_251 : BitVec 32 := 1#32
  let v362 : BitVec 32 := Scalar.muli v357 c1_i32_251
  let v363 : BitVec 32 := Scalar.addi v361 v362
  v363.toNat
def k0_dev17 (d0 : Dev nD) : Nat :=
  let c0_i32_258 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_257 : BitVec 32 := 16#32
  let v370 : BitVec 32 := Scalar.muli v9 c16_i32_257
  let v371 : BitVec 32 := Scalar.addi c0_i32_258 v370
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_259 : BitVec 32 := 4#32
  let v372 : BitVec 32 := Scalar.muli v5 c4_i32_259
  let v373 : BitVec 32 := Scalar.addi v371 v372
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_238 : BitVec 32 := 3#32
  let v347 : BitVec 32 := Scalar.addi v8 c3_i32_238
  let c4_i32_239 : BitVec 32 := 4#32
  let c0_i32_240 : BitVec 32 := 0#32
  let v348 : BitVec 1 := Scalar.cmpi .eq c4_i32_239 c0_i32_240
  let c1_i32_241 : BitVec 32 := 1#32
  let v349 : BitVec 32 := Scalar.select v348 c1_i32_241 c4_i32_239
  let v350 : BitVec 32 := Scalar.remsi v347 v349
  let c0_i32_243 : BitVec 32 := 0#32
  let v352 : BitVec 1 := Scalar.cmpi .slt v350 c0_i32_243
  let c0_i32_244 : BitVec 32 := 0#32
  let v353 : BitVec 1 := Scalar.cmpi .slt v349 c0_i32_244
  let v354 : BitVec 1 := Scalar.xori v352 v353
  let c0_i32_242 : BitVec 32 := 0#32
  let v351 : BitVec 1 := Scalar.cmpi .ne v350 c0_i32_242
  let v355 : BitVec 1 := Scalar.andi v354 v351
  let v356 : BitVec 32 := Scalar.addi v350 v349
  let v357 : BitVec 32 := Scalar.select v355 v356 v350
  let c1_i32_260 : BitVec 32 := 1#32
  let v374 : BitVec 32 := Scalar.muli v357 c1_i32_260
  let v375 : BitVec 32 := Scalar.addi v373 v374
  v375.toNat
def k0_off4 (d0 : Dev nD) (c1_i32_272 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v392 : BitVec 32 := Scalar.addi v8 c1_i32_272
  let c4_i32_273 : BitVec 32 := 4#32
  let c0_i32_274 : BitVec 32 := 0#32
  let v393 : BitVec 1 := Scalar.cmpi .eq c4_i32_273 c0_i32_274
  let c1_i32_275 : BitVec 32 := 1#32
  let v394 : BitVec 32 := Scalar.select v393 c1_i32_275 c4_i32_273
  let v395 : BitVec 32 := Scalar.remsi v392 v394
  let c0_i32_277 : BitVec 32 := 0#32
  let v397 : BitVec 1 := Scalar.cmpi .slt v395 c0_i32_277
  let c0_i32_278 : BitVec 32 := 0#32
  let v398 : BitVec 1 := Scalar.cmpi .slt v394 c0_i32_278
  let v399 : BitVec 1 := Scalar.xori v397 v398
  let c0_i32_276 : BitVec 32 := 0#32
  let v396 : BitVec 1 := Scalar.cmpi .ne v395 c0_i32_276
  let v400 : BitVec 1 := Scalar.andi v399 v396
  let v401 : BitVec 32 := Scalar.addi v395 v394
  let v402 : BitVec 32 := Scalar.select v400 v401 v395
  let c128_i32_282 : BitVec 32 := 128#32
  let v406 : BitVec 32 := Scalar.muli v402 c128_i32_282
  let v407 : Index := Scalar.indexCast v406
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v10 : BitVec 32 := Scalar.muli v2 c256_i32
  let v408 : Index := Scalar.indexCast v10
  ![v407.toNat, v408.toNat]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_335 : BitVec 32 := 128#32
  let v479 : BitVec 32 := Scalar.muli v8 c128_i32_335
  let v480 : Index := Scalar.indexCast v479
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_3 : BitVec 32 := 256#32
  let v11 : BitVec 32 := Scalar.muli v9 c256_i32_3
  let v481 : Index := Scalar.indexCast v11
  ![v480.toNat, v481.toNat]
def k0_off6 (d0 : Dev nD) (c0_i32_346 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v493 : BitVec 32 := Scalar.addi v8 c1_i32_345
  let v494 : BitVec 32 := Scalar.addi v493 c0_i32_346
  let c4_i32_347 : BitVec 32 := 4#32
  let c0_i32_348 : BitVec 32 := 0#32
  let v495 : BitVec 1 := Scalar.cmpi .eq c4_i32_347 c0_i32_348
  let c1_i32_349 : BitVec 32 := 1#32
  let v496 : BitVec 32 := Scalar.select v495 c1_i32_349 c4_i32_347
  let v497 : BitVec 32 := Scalar.remsi v494 v496
  let c0_i32_351 : BitVec 32 := 0#32
  let v499 : BitVec 1 := Scalar.cmpi .slt v497 c0_i32_351
  let c0_i32_352 : BitVec 32 := 0#32
  let v500 : BitVec 1 := Scalar.cmpi .slt v496 c0_i32_352
  let v501 : BitVec 1 := Scalar.xori v499 v500
  let c0_i32_350 : BitVec 32 := 0#32
  let v498 : BitVec 1 := Scalar.cmpi .ne v497 c0_i32_350
  let v502 : BitVec 1 := Scalar.andi v501 v498
  let v503 : BitVec 32 := Scalar.addi v497 v496
  let v504 : BitVec 32 := Scalar.select v502 v503 v497
  let c128_i32_356 : BitVec 32 := 128#32
  let v508 : BitVec 32 := Scalar.muli v504 c128_i32_356
  let v509 : Index := Scalar.indexCast v508
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c256_i32_3 : BitVec 32 := 256#32
  let v11 : BitVec 32 := Scalar.muli v9 c256_i32_3
  let v510 : Index := Scalar.indexCast v11
  ![v509.toNat, v510.toNat]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  h_S512x256 : 0 < S512x256.numel
  shapeCasts_S512x256_S512x256 : S512x256.ShapeCasts S512x256
  shapeCasts_S512x256_S4x128x256 : S512x256.ShapeCasts S4x128x256
  bitsLt_bf16_f32 : FTy.bits .bf16 < FTy.bits .f32
  inb_S4x128x256_S4x128x256_0_0_0 : ∀ a, (![0, 0, 0] : Fin 3 → Nat) a + S4x128x256.size a ≤ S4x128x256.size a
  h_S4x128x256 : 0 < S4x128x256.numel
  shapeCasts_S4x128x256_S4x128x256 : S4x128x256.ShapeCasts S4x128x256
  packedbf16_S4x128x256_S4x128x256_0_0_0 : (Rect.unit (s := S4x128x256) ![0, 0, 0] S4x128x256.size inb_S4x128x256_S4x128x256_0_0_0).PackedRows (EltTy.packing .bf16)
  hamt_1 : (1#32 : BitVec 32).msb = false
  hamt_7 : (7#32 : BitVec 32).msb = false
  inb_S3_S1_0 : ∀ a, (![0] : Fin 1 → Nat) a + S1.size a ≤ S3.size a
  squeezes_S1_S_ : S1.Squeezes S_
  inb_S3_S1_2 : ∀ a, (![2] : Fin 1 → Nat) a + S1.size a ≤ S3.size a
  inb_S3x128x256_S1x128x256_2_0_0 : ∀ a, (![2, 0, 0] : Fin 3 → Nat) a + S1x128x256.size a ≤ S3x128x256.size a
  squeezes_S1x128x256_S128x256 : S1x128x256.Squeezes S128x256
  wordsbf16_S3x128x256_S1x128x256_2_0_0 : (Rect.unit (s := S3x128x256) ![2, 0, 0] S1x128x256.size inb_S3x128x256_S1x128x256_2_0_0).WholeWords (EltTy.packing .bf16)
  inb_S3_S1_1 : ∀ a, (![1] : Fin 1 → Nat) a + S1.size a ≤ S3.size a
  inb_S3x128x256_S1x128x256_1_0_0 : ∀ a, (![1, 0, 0] : Fin 3 → Nat) a + S1x128x256.size a ≤ S3x128x256.size a
  wordsbf16_S3x128x256_S1x128x256_1_0_0 : (Rect.unit (s := S3x128x256) ![1, 0, 0] S1x128x256.size inb_S3x128x256_S1x128x256_1_0_0).WholeWords (EltTy.packing .bf16)
  inb_S3x128x256_S1x128x256_0_0_0 : ∀ a, (![0, 0, 0] : Fin 3 → Nat) a + S1x128x256.size a ≤ S3x128x256.size a
  wordsbf16_S3x128x256_S1x128x256_0_0_0 : (Rect.unit (s := S3x128x256) ![0, 0, 0] S1x128x256.size inb_S3x128x256_S1x128x256_0_0_0).WholeWords (EltTy.packing .bf16)
  h_S128x256 : 0 < S128x256.numel
  shapeCasts_S128x256_S128x256 : S128x256.ShapeCasts S128x256
  h_S1x128x256 : 0 < S1x128x256.numel
  shapeCasts_S1x128x256_S128x256 : S1x128x256.ShapeCasts S128x256
  inb_S128x256_S128x256_0_0 : ∀ a, (![0, 0] : Fin 2 → Nat) a + S128x256.size a ≤ S128x256.size a
  packedbf16_S128x256_S128x256_0_0 : (Rect.unit (s := S128x256) ![0, 0] S128x256.size inb_S128x256_S128x256_0_0).PackedRows (EltTy.packing .bf16)
  inb_S4_S1_0 : ∀ a, (![0] : Fin 1 → Nat) a + S1.size a ≤ S4.size a
  inb_S4x128x256_S1x128x256_0_0_0 : ∀ a, (![0, 0, 0] : Fin 3 → Nat) a + S1x128x256.size a ≤ S4x128x256.size a
  wordsbf16_S4x128x256_S1x128x256_0_0_0 : (Rect.unit (s := S4x128x256) ![0, 0, 0] S1x128x256.size inb_S4x128x256_S1x128x256_0_0_0).WholeWords (EltTy.packing .bf16)
  inb_S4_S1_3 : ∀ a, (![3] : Fin 1 → Nat) a + S1.size a ≤ S4.size a
  inb_S4x128x256_S1x128x256_3_0_0 : ∀ a, (![3, 0, 0] : Fin 3 → Nat) a + S1x128x256.size a ≤ S4x128x256.size a
  wordsbf16_S4x128x256_S1x128x256_3_0_0 : (Rect.unit (s := S4x128x256) ![3, 0, 0] S1x128x256.size inb_S4x128x256_S1x128x256_3_0_0).WholeWords (EltTy.packing .bf16)
  inb_S4_S1_2 : ∀ a, (![2] : Fin 1 → Nat) a + S1.size a ≤ S4.size a
  inb_S4x128x256_S1x128x256_2_0_0 : ∀ a, (![2, 0, 0] : Fin 3 → Nat) a + S1x128x256.size a ≤ S4x128x256.size a
  wordsbf16_S4x128x256_S1x128x256_2_0_0 : (Rect.unit (s := S4x128x256) ![2, 0, 0] S1x128x256.size inb_S4x128x256_S1x128x256_2_0_0).WholeWords (EltTy.packing .bf16)
  inb_S4_S1_1 : ∀ a, (![1] : Fin 1 → Nat) a + S1.size a ≤ S4.size a
  inb_S4x128x256_S1x128x256_1_0_0 : ∀ a, (![1, 0, 0] : Fin 3 → Nat) a + S1x128x256.size a ≤ S4x128x256.size a
  wordsbf16_S4x128x256_S1x128x256_1_0_0 : (Rect.unit (s := S4x128x256) ![1, 0, 0] S1x128x256.size inb_S4x128x256_S1x128x256_1_0_0).WholeWords (EltTy.packing .bf16)
  hcc0_scratch5 : 2 + S3.numel ≤ 22
  hcc0_scratch6 : 5 + S3.numel ≤ 22
  hcc0_scratch7 : 8 + S3.numel ≤ 22
  hcc0_scratch8 : 11 + S3.numel ≤ 22
  hcc0_scratch9 : 14 + S4.numel ≤ 22
  hcc0_scratch10 : 18 + S4.numel ≤ 22
  k0_off1_inb : ∀ d0 : Dev nD, ∀ a, (k0_off1 d0) a + S512x256.size a ≤ S512x512.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off2_inb : ∀ d0 : Dev nD, ∀ (r : Fin 3), ∀ a, (k0_off2 d0 (BitVec.ofNat 32 (1 + r.val))) a + S1x128x256.size a ≤ S4x128x256.size a
  k0_off2_wordsbf16 : ∀ d0 : Dev nD, ∀ (r : Fin 3), (Rect.unit (s := S4x128x256) (k0_off2 d0 (BitVec.ofNat 32 (1 + r.val))) S1x128x256.size (k0_off2_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off3_inb : ∀ d0 : Dev nD, ∀ a, (k0_off3 d0) a + S128x256.size a ≤ S512x512.size a
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off4_inb : ∀ d0 : Dev nD, ∀ (r : Fin 3), ∀ a, (k0_off4 d0 (BitVec.ofNat 32 (1 + r.val))) a + S128x256.size a ≤ S512x512.size a
  k0_off5_inb : ∀ d0 : Dev nD, ∀ a, (k0_off5 d0) a + S128x256.size a ≤ S512x512.size a
  k0_off6_inb : ∀ d0 : Dev nD, ∀ (r : Fin 3), ∀ a, (k0_off6 d0 (BitVec.ofNat 32 r.val)) a + S128x256.size a ≤ S512x512.size a
  hstage0_0 : ∀ j, (stage0_0 j).IsWhole
  hstage0_1 : ∀ j, (stage0_1 j).IsWhole

variable [Facts₀]

abbrev cc0_scratch5 : DmaSems sig S3 := SemArray.consecutive 2 S3 hcc0_scratch5
abbrev cc0_scratch6 : DmaSems sig S3 := SemArray.consecutive 5 S3 hcc0_scratch6
abbrev cc0_scratch7 : DmaSems sig S3 := SemArray.consecutive 8 S3 hcc0_scratch7
abbrev cc0_scratch8 : DmaSems sig S3 := SemArray.consecutive 11 S3 hcc0_scratch8
abbrev cc0_scratch9 : DmaSems sig S4 := SemArray.consecutive 14 S4 hcc0_scratch9
abbrev cc0_scratch10 : DmaSems sig S4 := SemArray.consecutive 18 S4 hcc0_scratch10

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512x512, .f32⟩
  | .hbm, ⟨2, _⟩ => ⟨S_, .f32⟩
  | .hbm, ⟨3, _⟩ => ⟨S512x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x512_S4x512x512 : S2048x512.ShapeCasts S4x512x512
  reducesTo_S4x512x512_S512x512_d0 : S4x512x512.ReducesTo [0] S512x512
  h_S_ : 0 < S_.numel

variable [Facts₀]

class Facts : Prop extends Facts₀ where

variable [Facts]
-- ==== Proof.Mesh.lean ====
/- Device c = 16 x + 4 y + z of the 2 × 4 × 4 mesh. Every peer the kernel addresses is a shift of its own y-plane, x by a / 4
   (mod 2) and z by a % 4 (mod 4): a free action of Z/2 × Z/4, each shift a bijection with the opposite shift as inverse. -/
import proofs.«900737_g7700000000000738_dist_ar_v7x_xyz2x4x4_z_m512_n512_bf16_1_alg».proof.Proof.Gen.KernelIdeal

set_option Elab.async false

namespace Cert.KernelIdeal.Hand

open Idealize.ShloMosaic Cert.KernelIdeal Cert.KernelIdeal.Gen

def pr (a : Fin 8) (c : Dev nD) : Dev nD :=
  ⟨16 * ((c.val / 16 + a.val / 4) % 2) + 4 * ((c.val / 4) % 4) + (c.val % 4 + a.val % 4) % 4, by
    have h : c.val < 32 := c.isLt
    show _ < 32
    omega⟩

def inv (a : Fin 8) : Fin 8 := ⟨4 * (a.val / 4) + (4 - a.val % 4) % 4, by have := a.isLt; omega⟩

theorem pr_inv : ∀ (a : Fin 8) (c : Dev nD), pr (inv a) (pr a c) = c := by decide +kernel
theorem inv_pr : ∀ (a : Fin 8) (c : Dev nD), pr a (pr (inv a) c) = c := by decide +kernel

def prEquiv (a : Fin 8) : Dev nD ≃ Dev nD := ⟨pr a, pr (inv a), pr_inv a, inv_pr a⟩

theorem dev1_eq : ∀ c : Dev nD, (⟨k0_dev1 c, k0_dev1_lt c⟩ : Dev nD) = pr 1 c := by decide +kernel
theorem dev2_eq : ∀ c : Dev nD, (⟨k0_dev2 c, k0_dev2_lt c⟩ : Dev nD) = pr 2 c := by decide +kernel
theorem dev3_eq : ∀ c : Dev nD, (⟨k0_dev3 c, k0_dev3_lt c⟩ : Dev nD) = pr 3 c := by decide +kernel
theorem dev4_eq : ∀ c : Dev nD, (⟨k0_dev4 c, k0_dev4_lt c⟩ : Dev nD) = pr 5 c := by decide +kernel
theorem dev5_eq : ∀ c : Dev nD, (⟨k0_dev5 c, k0_dev5_lt c⟩ : Dev nD) = pr 6 c := by decide +kernel
theorem dev6_eq : ∀ c : Dev nD, (⟨k0_dev6 c, k0_dev6_lt c⟩ : Dev nD) = pr 7 c := by decide +kernel
theorem dev7_eq : ∀ c : Dev nD, (⟨k0_dev7 c, k0_dev7_lt c⟩ : Dev nD) = pr 4 c := by decide +kernel
theorem dev8_eq : ∀ c : Dev nD, (⟨k0_dev8 c, k0_dev8_lt c⟩ : Dev nD) = pr 1 c := by decide +kernel
theorem dev9_eq : ∀ c : Dev nD, (⟨k0_dev9 c, k0_dev9_lt c⟩ : Dev nD) = pr 2 c := by decide +kernel
theorem dev10_eq : ∀ c : Dev nD, (⟨k0_dev10 c, k0_dev10_lt c⟩ : Dev nD) = pr 3 c := by decide +kernel
theorem dev11_eq : ∀ c : Dev nD, (⟨k0_dev11 c, k0_dev11_lt c⟩ : Dev nD) = pr 4 c := by decide +kernel
theorem dev12_eq : ∀ c : Dev nD, (⟨k0_dev12 c, k0_dev12_lt c⟩ : Dev nD) = pr 1 c := by decide +kernel
theorem dev13_eq : ∀ c : Dev nD, (⟨k0_dev13 c, k0_dev13_lt c⟩ : Dev nD) = pr 5 c := by decide +kernel
theorem dev14_eq : ∀ c : Dev nD, (⟨k0_dev14 c, k0_dev14_lt c⟩ : Dev nD) = pr 2 c := by decide +kernel
theorem dev15_eq : ∀ c : Dev nD, (⟨k0_dev15 c, k0_dev15_lt c⟩ : Dev nD) = pr 6 c := by decide +kernel
theorem dev16_eq : ∀ c : Dev nD, (⟨k0_dev16 c, k0_dev16_lt c⟩ : Dev nD) = pr 3 c := by decide +kernel
theorem dev17_eq : ∀ c : Dev nD, (⟨k0_dev17 c, k0_dev17_lt c⟩ : Dev nD) = pr 7 c := by decide +kernel

theorem off2_eq1 : ∀ c : Dev nD, k0_off2 c 1#32 = ![(c.val % 4 + 1) % 4, 0, 0] := by decide +kernel
theorem off2_eq2 : ∀ c : Dev nD, k0_off2 c 2#32 = ![(c.val % 4 + 2) % 4, 0, 0] := by decide +kernel
theorem off2_eq3 : ∀ c : Dev nD, k0_off2 c 3#32 = ![(c.val % 4 + 3) % 4, 0, 0] := by decide +kernel
theorem off4_eq1 : ∀ c : Dev nD, k0_off4 c 1#32 = ![128 * ((c.val % 4 + 1) % 4), 256 * (c.val / 16)] := by decide +kernel
theorem off4_eq2 : ∀ c : Dev nD, k0_off4 c 2#32 = ![128 * ((c.val % 4 + 2) % 4), 256 * (c.val / 16)] := by decide +kernel
theorem off4_eq3 : ∀ c : Dev nD, k0_off4 c 3#32 = ![128 * ((c.val % 4 + 3) % 4), 256 * (c.val / 16)] := by decide +kernel
theorem off6_eq0 : ∀ c : Dev nD, k0_off6 c 0#32 = ![128 * ((c.val % 4 + 1) % 4), 256 - 256 * (c.val / 16)] := by decide +kernel
theorem off6_eq1 : ∀ c : Dev nD, k0_off6 c 1#32 = ![128 * ((c.val % 4 + 2) % 4), 256 - 256 * (c.val / 16)] := by decide +kernel
theorem off6_eq2 : ∀ c : Dev nD, k0_off6 c 2#32 = ![128 * ((c.val % 4 + 3) % 4), 256 - 256 * (c.val / 16)] := by decide +kernel

end Cert.KernelIdeal.Hand
-- ==== Proof.Cells.lean ====
/- The five scratch buffers, their 128 × 256 slots, the twenty transfer semaphores and the cells, in the program's spelling. -/
import proofs.«900737_g7700000000000738_dist_ar_v7x_xyz2x4x4_z_m512_n512_bf16_1_alg».proof.Proof.Mesh

noncomputable section

namespace Cert.KernelIdeal.Hand

open Idealize.ShloMosaic Idealize.ShloMosaic.TcCoe Cert.KernelIdeal Cert.KernelIdeal.Gen

abbrev xM : Memref sig .tc .vmem S512x512 .f32 := Memref.whole cc0_stg0_0
abbrev oM : Memref sig .tc .vmem S512x512 .f32 := Memref.whole cc0_stg1_0
abbrev sbM : Memref sig .tc .vmem S4x128x256 .bf16 := Memref.whole cc0_scratch0
abbrev rsM : Memref sig .tc .vmem S3x128x256 .bf16 := Memref.whole cc0_scratch1
abbrev rbM : Memref sig .tc .vmem S128x256 .bf16 := Memref.whole cc0_scratch2
abbrev agM : Memref sig .tc .vmem S3x128x256 .bf16 := Memref.whole cc0_scratch3
abbrev xgM : Memref sig .tc .vmem S4x128x256 .bf16 := Memref.whole cc0_scratch4

abbrev slot3 (M : Memref sig .tc .vmem S3x128x256 .bf16) (off : Fin 3 → Nat) (h : ∀ a, off a + S1x128x256.size a ≤ S3x128x256.size a) :
    Memref sig .tc .vmem S128x256 .bf16 :=
  (M.slice (Rect.unit (s := S3x128x256) off S1x128x256.size h) (fun _ => rfl)).squeeze S128x256 squeezes_S1x128x256_S128x256

abbrev slot4 (M : Memref sig .tc .vmem S4x128x256 .bf16) (off : Fin 3 → Nat) (h : ∀ a, off a + S1x128x256.size a ≤ S4x128x256.size a) :
    Memref sig .tc .vmem S128x256 .bf16 :=
  (M.slice (Rect.unit (s := S4x128x256) off S1x128x256.size h) (fun _ => rfl)).squeeze S128x256 squeezes_S1x128x256_S128x256

abbrev rsSlot0 := slot3 rsM ![0, 0, 0] inb_S3x128x256_S1x128x256_0_0_0
abbrev rsSlot1 := slot3 rsM ![1, 0, 0] inb_S3x128x256_S1x128x256_1_0_0
abbrev rsSlot2 := slot3 rsM ![2, 0, 0] inb_S3x128x256_S1x128x256_2_0_0
abbrev agSlot0 := slot3 agM ![0, 0, 0] inb_S3x128x256_S1x128x256_0_0_0
abbrev agSlot1 := slot3 agM ![1, 0, 0] inb_S3x128x256_S1x128x256_1_0_0
abbrev agSlot2 := slot3 agM ![2, 0, 0] inb_S3x128x256_S1x128x256_2_0_0
abbrev xgSlot0 := slot4 xgM ![0, 0, 0] inb_S4x128x256_S1x128x256_0_0_0
abbrev xgSlot1 := slot4 xgM ![1, 0, 0] inb_S4x128x256_S1x128x256_1_0_0
abbrev xgSlot2 := slot4 xgM ![2, 0, 0] inb_S4x128x256_S1x128x256_2_0_0
abbrev xgSlot3 := slot4 xgM ![3, 0, 0] inb_S4x128x256_S1x128x256_3_0_0

abbrev sbSrc (c : Dev nD) (r : Fin 3) : Memref sig .tc .vmem S128x256 .bf16 :=
  slot4 sbM (k0_off2 c (BitVec.ofNat 32 (1 + r.val))) (k0_off2_inb c r)

abbrev sem3 (A : DmaSems sig S3) (off : Fin 1 → Nat) (h : ∀ a, off a + S1.size a ≤ S3.size a) : DmaSems sig S_ :=
  (A.slice (Rect.unit (s := S3) off S1.size h)).squeeze S_ squeezes_S1_S_
abbrev sem4 (A : DmaSems sig S4) (off : Fin 1 → Nat) (h : ∀ a, off a + S1.size a ≤ S4.size a) : DmaSems sig S_ :=
  (A.slice (Rect.unit (s := S4) off S1.size h)).squeeze S_ squeezes_S1_S_

abbrev rsSend0 := sem3 cc0_scratch5 ![0] inb_S3_S1_0
abbrev rsSend1 := sem3 cc0_scratch5 ![1] inb_S3_S1_1
abbrev rsSend2 := sem3 cc0_scratch5 ![2] inb_S3_S1_2
abbrev rsRecv0 := sem3 cc0_scratch6 ![0] inb_S3_S1_0
abbrev rsRecv1 := sem3 cc0_scratch6 ![1] inb_S3_S1_1
abbrev rsRecv2 := sem3 cc0_scratch6 ![2] inb_S3_S1_2
abbrev agSend0 := sem3 cc0_scratch7 ![0] inb_S3_S1_0
abbrev agSend1 := sem3 cc0_scratch7 ![1] inb_S3_S1_1
abbrev agSend2 := sem3 cc0_scratch7 ![2] inb_S3_S1_2
abbrev agRecv0 := sem3 cc0_scratch8 ![0] inb_S3_S1_0
abbrev agRecv1 := sem3 cc0_scratch8 ![1] inb_S3_S1_1
abbrev agRecv2 := sem3 cc0_scratch8 ![2] inb_S3_S1_2
abbrev xfSend0 := sem4 cc0_scratch9 ![0] inb_S4_S1_0
abbrev xfSend1 := sem4 cc0_scratch9 ![1] inb_S4_S1_1
abbrev xfSend2 := sem4 cc0_scratch9 ![2] inb_S4_S1_2
abbrev xfSend3 := sem4 cc0_scratch9 ![3] inb_S4_S1_3
abbrev xfRecv0 := sem4 cc0_scratch10 ![0] inb_S4_S1_0
abbrev xfRecv1 := sem4 cc0_scratch10 ![1] inb_S4_S1_1
abbrev xfRecv2 := sem4 cc0_scratch10 ![2] inb_S4_S1_2
abbrev xfRecv3 := sem4 cc0_scratch10 ![3] inb_S4_S1_3

abbrev barS : Sem sig := (SemArray.scalar (sig.barrier 0 rfl) : Sems sig S_).sem

abbrev barCell (c : Dev nD) : GSem nD τ sig := ((c : Thread nD τ), .reg barS)

abbrev dcell (c : Dev nD) (n : DmaSem sig) : GSem nD τ sig := ((c : Thread nD τ), .dma n)

abbrev osem : Fin 20 → SemLoc sig := fun k => .dma ⟨k.val + 2, by have := k.isLt; show _ < 22; omega⟩

abbrev N : ℕ := (rbM : Memref sig .tc .vmem S128x256 .bf16).view.dmaCredit
theorem N_pos : 0 < N := View.dmaCredit_pos _ (by decide)

end Cert.KernelIdeal.Hand

end
-- ==== Proof.Data.lean ====
/- What each buffer holds during the run, as a function of the memory at launch: the send buffer is the own column half
   of the device's block; a landing slot holds what its one sender copies into it; the reduced block is the own chunk plus the three
   landed ones; the output is eight 128 × 256 tiles. -/
import proofs.«900737_g7700000000000738_dist_ar_v7x_xyz2x4x4_z_m512_n512_bf16_1_alg».proof.Proof.Cells
import proofs.«900737_g7700000000000738_dist_ar_v7x_xyz2x4x4_z_m512_n512_bf16_1_alg».proof.Proof.Gen.KernelIdeal.Skeleton
import Idealize.ShloMosaic.Lib.Pipeline.Kit

noncomputable section

namespace Cert.KernelIdeal.Hand

open Idealize.ShloMosaic Idealize.ShloMosaic.TcCoe Cert.KernelIdeal Cert.KernelIdeal.Gen

variable {F : FTy → Type} [FloatOps F]
variable (m : (ℓ : Loc nD τ sig) → Buf (Elt F) ℓ)

abbrev boxHalf (c : Dev nD) : Rect S512x512 := Rect.unit (s := S512x512) (k0_off1 c) S512x256.size (k0_off1_inb c)
abbrev boxOwn (c : Dev nD) : Rect S512x512 := Rect.unit (s := S512x512) (k0_off3 c) S128x256.size (k0_off3_inb c)
abbrev boxAg (c : Dev nD) (r : Fin 3) : Rect S512x512 := Rect.unit (s := S512x512) (k0_off4 c (BitVec.ofNat 32 (1 + r.val))) S128x256.size (k0_off4_inb c r)
abbrev boxX0 (c : Dev nD) : Rect S512x512 := Rect.unit (s := S512x512) (k0_off5 c) S128x256.size (k0_off5_inb c)
abbrev boxDg (c : Dev nD) (r : Fin 3) : Rect S512x512 := Rect.unit (s := S512x512) (k0_off6 c (BitVec.ofNat 32 r.val)) S128x256.size (k0_off6_inb c r)
abbrev box3_0 : Rect S3x128x256 := Rect.unit (s := S3x128x256) ![0, 0, 0] S1x128x256.size inb_S3x128x256_S1x128x256_0_0_0
abbrev box3_1 : Rect S3x128x256 := Rect.unit (s := S3x128x256) ![1, 0, 0] S1x128x256.size inb_S3x128x256_S1x128x256_1_0_0
abbrev box3_2 : Rect S3x128x256 := Rect.unit (s := S3x128x256) ![2, 0, 0] S1x128x256.size inb_S3x128x256_S1x128x256_2_0_0
abbrev box4_0 : Rect S4x128x256 := Rect.unit (s := S4x128x256) ![0, 0, 0] S1x128x256.size inb_S4x128x256_S1x128x256_0_0_0
abbrev box4_1 : Rect S4x128x256 := Rect.unit (s := S4x128x256) ![1, 0, 0] S1x128x256.size inb_S4x128x256_S1x128x256_1_0_0
abbrev box4_2 : Rect S4x128x256 := Rect.unit (s := S4x128x256) ![2, 0, 0] S1x128x256.size inb_S4x128x256_S1x128x256_2_0_0
abbrev box4_3 : Rect S4x128x256 := Rect.unit (s := S4x128x256) ![3, 0, 0] S1x128x256.size inb_S4x128x256_S1x128x256_3_0_0

def xstg (c : Dev nD) : (cc0_stg0_0 : Ref sig .tc).ty.Contents (Elt F) :=
  (win0_0.blk (0 : Fin 1)).view.read (Elt F) (m ((c : Thread nD τ).loc main_arg0))

def sbuf (c : Dev nD) : (cc0_scratch0 : Ref sig .tc).ty.Contents (Elt F) :=
  k0_pay1 ((xM : Memref sig .tc .vmem S512x512 .f32).view.readAt (Elt F) (boxHalf c).toLoadRect (xstg m c))

def rsLanded (c : Dev nD) : Fin 3 → Buf (Elt F) ((rsM : Memref sig .tc .vmem S3x128x256 .bf16).view.loc (c : Thread nD τ))
  | 0 => rsSlot0.view.write (Elt F) (m ((c : Thread nD τ).loc cc0_scratch1)) ((sbSrc (pr 1 c) 2).view.read (Elt F) (sbuf m (pr 1 c))) Finset.univ
  | 1 => rsSlot1.view.write (Elt F) (m ((c : Thread nD τ).loc cc0_scratch1)) ((sbSrc (pr 2 c) 1).view.read (Elt F) (sbuf m (pr 2 c))) Finset.univ
  | 2 => rsSlot2.view.write (Elt F) (m ((c : Thread nD τ).loc cc0_scratch1)) ((sbSrc (pr 3 c) 0).view.read (Elt F) (sbuf m (pr 3 c))) Finset.univ

def ownTile (c : Dev nD) : Vec F S128x256 .f32 :=
  (xM : Memref sig .tc .vmem S512x512 .f32).view.readAt (Elt F) (boxOwn c).toLoadRect (xstg m c)
def rsLoad0 (c : Dev nD) : Vec F S1x128x256 .bf16 := (rsM : Memref sig .tc .vmem S3x128x256 .bf16).view.readAt (Elt F) box3_0.toLoadRect (rsLanded m c 0)
def rsLoad1 (c : Dev nD) : Vec F S1x128x256 .bf16 := (rsM : Memref sig .tc .vmem S3x128x256 .bf16).view.readAt (Elt F) box3_1.toLoadRect (rsLanded m c 1)
def rsLoad2 (c : Dev nD) : Vec F S1x128x256 .bf16 := (rsM : Memref sig .tc .vmem S3x128x256 .bf16).view.readAt (Elt F) box3_2.toLoadRect (rsLanded m c 2)

def acc (c : Dev nD) : FVec F S128x256 .f32 := k0_pay2 (ownTile m c) (rsLoad0 m c) (rsLoad1 m c) (rsLoad2 m c)

def rbuf (c : Dev nD) : (cc0_scratch2 : Ref sig .tc).ty.Contents (Elt F) := k0_pay3 (ownTile m c) (rsLoad0 m c) (rsLoad1 m c) (rsLoad2 m c)

def agLanded (c : Dev nD) : Fin 3 → Buf (Elt F) ((agM : Memref sig .tc .vmem S3x128x256 .bf16).view.loc (c : Thread nD τ))
  | 0 => agSlot0.view.write (Elt F) (m ((c : Thread nD τ).loc cc0_scratch3)) ((rbM : Memref sig .tc .vmem S128x256 .bf16).view.read (Elt F) (rbuf m (pr 1 c))) Finset.univ
  | 1 => agSlot1.view.write (Elt F) (m ((c : Thread nD τ).loc cc0_scratch3)) ((rbM : Memref sig .tc .vmem S128x256 .bf16).view.read (Elt F) (rbuf m (pr 2 c))) Finset.univ
  | 2 => agSlot2.view.write (Elt F) (m ((c : Thread nD τ).loc cc0_scratch3)) ((rbM : Memref sig .tc .vmem S128x256 .bf16).view.read (Elt F) (rbuf m (pr 3 c))) Finset.univ

def xgLanded (c : Dev nD) : Fin 4 → Buf (Elt F) ((xgM : Memref sig .tc .vmem S4x128x256 .bf16).view.loc (c : Thread nD τ))
  | 0 => xgSlot0.view.write (Elt F) (m ((c : Thread nD τ).loc cc0_scratch4)) ((rbM : Memref sig .tc .vmem S128x256 .bf16).view.read (Elt F) (rbuf m (pr 4 c))) Finset.univ
  | 1 => xgSlot1.view.write (Elt F) (m ((c : Thread nD τ).loc cc0_scratch4)) ((rbM : Memref sig .tc .vmem S128x256 .bf16).view.read (Elt F) (rbuf m (pr 5 c))) Finset.univ
  | 2 => xgSlot2.view.write (Elt F) (m ((c : Thread nD τ).loc cc0_scratch4)) ((rbM : Memref sig .tc .vmem S128x256 .bf16).view.read (Elt F) (rbuf m (pr 6 c))) Finset.univ
  | 3 => xgSlot3.view.write (Elt F) (m ((c : Thread nD τ).loc cc0_scratch4)) ((rbM : Memref sig .tc .vmem S128x256 .bf16).view.read (Elt F) (rbuf m (pr 7 c))) Finset.univ

def agLoad0 (c : Dev nD) : Vec F S1x128x256 .bf16 := (agM : Memref sig .tc .vmem S3x128x256 .bf16).view.readAt (Elt F) box3_0.toLoadRect (agLanded m c 0)
def agLoad1 (c : Dev nD) : Vec F S1x128x256 .bf16 := (agM : Memref sig .tc .vmem S3x128x256 .bf16).view.readAt (Elt F) box3_1.toLoadRect (agLanded m c 1)
def agLoad2 (c : Dev nD) : Vec F S1x128x256 .bf16 := (agM : Memref sig .tc .vmem S3x128x256 .bf16).view.readAt (Elt F) box3_2.toLoadRect (agLanded m c 2)
def xgLoad0 (c : Dev nD) : Vec F S1x128x256 .bf16 := (xgM : Memref sig .tc .vmem S4x128x256 .bf16).view.readAt (Elt F) box4_0.toLoadRect (xgLanded m c 0)
def xgLoad1 (c : Dev nD) : Vec F S1x128x256 .bf16 := (xgM : Memref sig .tc .vmem S4x128x256 .bf16).view.readAt (Elt F) box4_1.toLoadRect (xgLanded m c 1)
def xgLoad2 (c : Dev nD) : Vec F S1x128x256 .bf16 := (xgM : Memref sig .tc .vmem S4x128x256 .bf16).view.readAt (Elt F) box4_2.toLoadRect (xgLanded m c 2)
def xgLoad3 (c : Dev nD) : Vec F S1x128x256 .bf16 := (xgM : Memref sig .tc .vmem S4x128x256 .bf16).view.readAt (Elt F) box4_3.toLoadRect (xgLanded m c 3)

def outFrom (c : Dev nD) (d : (cc0_stg1_0 : Ref sig .tc).ty.Contents (Elt F)) : (cc0_stg1_0 : Ref sig .tc).ty.Contents (Elt F) :=
  let o1 := ((oM : Memref sig .tc .vmem S512x512 .f32).access (boxOwn c) : View sig .tc _ _ _).write (Elt F) d (acc m c) Finset.univ
  let o2 := ((oM : Memref sig .tc .vmem S512x512 .f32).access (boxAg c 0) : View sig .tc _ _ _).write (Elt F) o1 (k0_pay4 (agLoad0 m c)) Finset.univ
  let o3 := ((oM : Memref sig .tc .vmem S512x512 .f32).access (boxAg c 1) : View sig .tc _ _ _).write (Elt F) o2 (k0_pay5 (agLoad1 m c)) Finset.univ
  let o4 := ((oM : Memref sig .tc .vmem S512x512 .f32).access (boxAg c 2) : View sig .tc _ _ _).write (Elt F) o3 (k0_pay6 (agLoad2 m c)) Finset.univ
  let o5 := ((oM : Memref sig .tc .vmem S512x512 .f32).access (boxX0 c) : View sig .tc _ _ _).write (Elt F) o4 (k0_pay7 (xgLoad0 m c)) Finset.univ
  let o6 := ((oM : Memref sig .tc .vmem S512x512 .f32).access (boxDg c 0) : View sig .tc _ _ _).write (Elt F) o5 (k0_pay8 (xgLoad1 m c)) Finset.univ
  let o7 := ((oM : Memref sig .tc .vmem S512x512 .f32).access (boxDg c 1) : View sig .tc _ _ _).write (Elt F) o6 (k0_pay9 (xgLoad2 m c)) Finset.univ
  ((oM : Memref sig .tc .vmem S512x512 .f32).access (boxDg c 2) : View sig .tc _ _ _).write (Elt F) o7 (k0_pay10 (xgLoad3 m c)) Finset.univ

def outAt (c : Dev nD) : (cc0_stg1_0 : Ref sig .tc).ty.Contents (Elt F) := outFrom m c (m ((c : Thread nD τ).loc cc0_stg1_0))

end Cert.KernelIdeal.Hand

end
-- ==== Proof.Sched.lean ====
/- The protocol as one round per cell. A barrier cell has seven unit duties, one per peer of the y-plane; with its signal a
   peer hands over the landing slots of its own that the signalled device will write. A transfer cell has one duty: a receive
   cell's landing hands its owner the slot at the landed contents, a send cell's hands back the read share of the source. -/
import proofs.«900737_g7700000000000738_dist_ar_v7x_xyz2x4x4_z_m512_n512_bf16_1_alg».proof.Proof.Data
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev pts (c : Dev nD) (M : Memref sig .tc .vmem S128x256 .bf16) (q : PosShare TreeShare)
    (f : Buf (Elt F) (M.view.loc (c : Thread nD τ))) : sProp 𝕄 :=
  M.view.loc (c : Thread nD τ) ↦[M.view.set]{q} f

abbrev anyPts (c : Dev nD) (M : Memref sig .tc .vmem S128x256 .bf16) : sProp 𝕄 :=
  iprop(∃ f : Buf (Elt F) (M.view.loc (c : Thread nD τ)), M.view.loc (c : Thread nD τ) ↦[M.view.set]{fullShare} f)

abbrev shSb (r : Fin 3) : PosShare TreeShare := Transfers.shareTok fullShare 3 r
abbrev shRb (t : Fin 7) : PosShare TreeShare := Transfers.shareTok fullShare 7 t

def sh : Fin 7 → Fin 8 := ![1, 2, 3, 5, 6, 7, 4]
def shInv : Fin 7 → Fin 8 := ![3, 2, 1, 7, 6, 5, 4]
theorem shInv_eq : ∀ j : Fin 7, shInv j = inv (sh j) := by decide

def barGive (p : Dev nD) : Fin 7 → sProp 𝕄
  | 0 => iprop(anyPts p rsSlot0 ∗ anyPts p agSlot0)
  | 1 => iprop(anyPts p rsSlot1 ∗ anyPts p agSlot1)
  | 2 => iprop(anyPts p rsSlot2 ∗ anyPts p agSlot2)
  | 3 => anyPts p xgSlot1
  | 4 => anyPts p xgSlot2
  | 5 => anyPts p xgSlot3
  | 6 => anyPts p xgSlot0

def barPay (c : Dev nD) (j : Fin 7) : sProp 𝕄 := barGive (F := F) (pr (shInv j) c) j

def dmaPay (c : Dev nD) (n : DmaSem sig) : sProp 𝕄 :=
  match n.val with
  | 2 => pts c (sbSrc c 0) (shSb 0) (sbuf m c)
  | 3 => pts c (sbSrc c 1) (shSb 1) (sbuf m c)
  | 4 => pts c (sbSrc c 2) (shSb 2) (sbuf m c)
  | 5 => pts c rsSlot0 fullShare (rsLanded m c 0)
  | 6 => pts c rsSlot1 fullShare (rsLanded m c 1)
  | 7 => pts c rsSlot2 fullShare (rsLanded m c 2)
  | 8 => pts c rbM (shRb 0) (rbuf m c)
  | 9 => pts c rbM (shRb 1) (rbuf m c)
  | 10 => pts c rbM (shRb 2) (rbuf m c)
  | 11 => pts c agSlot0 fullShare (agLanded m c 0)
  | 12 => pts c agSlot1 fullShare (agLanded m c 1)
  | 13 => pts c agSlot2 fullShare (agLanded m c 2)
  | 14 => pts c rbM (shRb 3) (rbuf m c)
  | 15 => pts c rbM (shRb 4) (rbuf m c)
  | 16 => pts c rbM (shRb 5) (rbuf m c)
  | 17 => pts c rbM (shRb 6) (rbuf m c)
  | 18 => pts c xgSlot0 fullShare (xgLanded m c 0)
  | 19 => pts c xgSlot1 fullShare (xgLanded m c 1)
  | 20 => pts c xgSlot2 fullShare (xgLanded m c 2)
  | 21 => pts c xgSlot3 fullShare (xgLanded m c 3)
  | _ => iprop(emp)

def Rd : Rounds.Schedule (GSem nD τ sig) (Fin 7) 𝕄 where
  duties g r :=
    if r = 0 ∧ g.1.2 = .tc then
      (match g.2 with
        | .reg _ => Finset.univ
        | .dma _ => {0})
    else ∅
  unitless _ := False
  amount g _ _ := match g.2 with | .reg _ => 1 | .dma _ => N
  payload g _ d := match g.2 with | .reg _ => barPay g.1.1 d | .dma n => dmaPay m g.1.1 n
  amount_pos g _ _ _ := by
    cases g.2 with
    | reg _ => exact Nat.one_pos
    | dma _ => exact N_pos

instance barGive_storable (p : Dev nD) (j : Fin 7) : BI.Storable (upEmb : UEmb _ 𝕄) (barGive (F := F) p j) := by
  fin_cases j <;> (unfold barGive; infer_instance)

instance dmaPay_storable (c : Dev nD) (n : DmaSem sig) : BI.Storable (upEmb : UEmb _ 𝕄) (dmaPay m c n) := by
  unfold dmaPay; split <;> infer_instance

instance Rd_payload_storable (g : GSem nD τ sig) (r : ℕ) (d : Fin 7) :
    BI.Storable (upEmb : UEmb _ 𝕄) ((Rd (F := F) m).payload g r d) := by
  show BI.Storable upEmb (match g.2 with | .reg _ => barPay g.1.1 d | .dma n => dmaPay m g.1.1 n)
  cases g.2 with
  | reg _ => exact barGive_storable _ _
  | dma n => exact dmaPay_storable m _ n

section Tables
variable (c : Dev nD)

theorem duties_bar : (Rd (F := F) m).duties (barCell c) 0 = Finset.univ := by
  dsimp only [Rd]; rw [if_pos ⟨rfl, rfl⟩]
theorem duties_dma (n : DmaSem sig) : (Rd (F := F) m).duties (dcell c n) 0 = {0} := by
  dsimp only [Rd]; rw [if_pos ⟨rfl, rfl⟩]
theorem duties_later (g : GSem nD τ sig) : ∀ r, 1 ≤ r → (Rd (F := F) m).duties g r = ∅ :=
  fun r hr => by dsimp only [Rd]; exact if_neg fun h => by omega

theorem amount_bar (d : Fin 7) : (Rd (F := F) m).amount (barCell c) 0 d = 1 := rfl
theorem amount_dma (n : DmaSem sig) (d : Fin 7) : (Rd (F := F) m).amount (dcell c n) 0 d = N := rfl

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_dma (n : DmaSem sig) : (Rd (F := F) m).expect (dcell c n) 0 = N := by
  unfold Schedule.expect Schedule.amountOf; rw [duties_dma m c n, Finset.sum_singleton, amount_dma]

theorem payload_bar_from (p : Dev nD) (j : Fin 7) : (Rd (F := F) m).payload (barCell (pr (sh j) p)) 0 j = barGive p j := by
  show barGive (pr (shInv j) (pr (sh j) p)) j = barGive p j
  rw [shInv_eq, pr_inv]
end Tables

/-- A separating conjunction over a small index type, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

end Cert.KernelIdeal.Hand

end
-- ==== Proof.Owed.lean ====
/- What a device still owes at each point of its program, as the tail of the list of its signals and landings in program
   order, and the levels: barrier cells below reduce-scatter receive cells below gather and cross receive cells, so every
   wait is on a cell strictly below everything the waiter still owes. -/
import proofs.«900737_g7700000000000738_dist_ar_v7x_xyz2x4x4_z_m512_n512_bf16_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def sites (c : Dev nD) : List (GSem nD τ sig × ℕ) :=
  [ (barCell (pr 1 c), 1), (barCell (pr 2 c), 1), (barCell (pr 3 c), 1), (barCell (pr 5 c), 1), (barCell (pr 6 c), 1),
    (barCell (pr 7 c), 1), (barCell (pr 4 c), 1),
    (dcell (pr 1 c) 7, N), (dcell (pr 2 c) 6, N), (dcell (pr 3 c) 5, N),
    (dcell (pr 4 c) 18, N),
    (dcell (pr 1 c) 13, N), (dcell (pr 5 c) 21, N),
    (dcell (pr 2 c) 12, N), (dcell (pr 6 c) 20, N),
    (dcell (pr 3 c) 11, N), (dcell (pr 7 c) 19, N) ]

def owedFrom : List (GSem nD τ sig × ℕ) → CellTallies nD τ sig Unit
  | [] => 0
  | s :: rest => owedFrom rest + tallyAt s.1 () s.2

def Oafter (c : Dev nD) (k : ℕ) : CellTallies nD τ sig Unit := owedFrom ((sites c).drop k)
def O₀ (c : Dev nD) : CellTallies nD τ sig Unit := Oafter c 0

theorem owedFrom_pos {l : List (GSem nD τ sig × ℕ)} {g : GSem nD τ sig} {u : Unit} (h : 0 < owedFrom l g u) : ∃ s ∈ l, g = s.1 := by
  induction l with
  | nil => exact absurd h (by simp [owedFrom])
  | cons s rest ih =>
    rcases Pipeline.add_pos_cases (D₁ := owedFrom rest) (D₂ := tallyAt s.1 () s.2) h with h1 | h2
    · obtain ⟨s', hs', rfl⟩ := ih h1
      exact ⟨s', List.mem_cons_of_mem _ hs', rfl⟩
    · exact ⟨s, List.mem_cons_self, (Pipeline.tallyAt_pos h2).1⟩

def L (g : GSem nD τ sig) : Finset Unit := if g.1.2 = .tc then {()} else ∅
def lv (g : GSem nD τ sig) (_ : Unit) : ℕ :=
  match g.2 with
  | .reg _ => 1
  | .dma n => if 5 ≤ n.val ∧ n.val ≤ 7 then 2 else if (11 ≤ n.val ∧ n.val ≤ 13) ∨ 18 ≤ n.val then 3 else 0

theorem L_of_ne (g : GSem nD τ sig) (h : g.1.2 ≠ .tc) : L g = ∅ := if_neg h
theorem L_tc (c : Dev nD) (sm : SemLoc sig) : L ((c : Thread nD τ), sm) = {()} := if_pos rfl

/-- Along the list the levels only rise: from the seventh debt on at least 2, from the tenth on 3. -/
theorem sites_lv (c : Dev nD) (k : ℕ) (s : GSem nD τ sig × ℕ) (hs : s ∈ (sites c).drop k) :
    s.1.1.2 = .tc ∧ 1 ≤ lv s.1 () ∧ (7 ≤ k → 2 ≤ lv s.1 ()) ∧ (10 ≤ k → 3 ≤ lv s.1 ()) := by
  obtain ⟨j, hm, rfl⟩ := List.mem_drop_iff_getElem.mp hs
  have key : ∀ (p : ℕ) (hp : p < (sites c).length),
      ((sites c)[p]).1.1.2 = .tc ∧ 1 ≤ lv ((sites c)[p]).1 () ∧ (7 ≤ p → 2 ≤ lv ((sites c)[p]).1 ())
        ∧ (10 ≤ p → 3 ≤ lv ((sites c)[p]).1 ()) := by
    intro p hp
    have hp' : p < 17 := hp
    have hcases : p = 0 ∨ p = 1 ∨ p = 2 ∨ p = 3 ∨ p = 4 ∨ p = 5 ∨ p = 6 ∨ p = 7 ∨ p = 8 ∨ p = 9 ∨ p = 10 ∨ p = 11 ∨ p = 12 ∨ p = 13 ∨ p = 14 ∨ p = 15 ∨ p = 16 := by omega
    rcases hcases with rfl | rfl | rfl | rfl | rfl | rfl | rfl | rfl | rfl | rfl | rfl | rfl | rfl | rfl | rfl | rfl | rfl
    all_goals first
      | exact ⟨rfl, Nat.le_refl 1, fun h => absurd h (by omega), fun h => absurd h (by omega)⟩
      | exact ⟨rfl, (by omega : 1 ≤ 2), fun _ => Nat.le_refl 2, fun h => absurd h (by omega)⟩
      | exact ⟨rfl, (by omega : 1 ≤ 3), fun _ => (by omega : 2 ≤ 3), fun _ => Nat.le_refl 3⟩
  obtain ⟨h1, h2, h3, h4⟩ := key (k + j) (by omega)
  exact ⟨h1, h2, fun h => h3 (by omega), fun h => h4 (by omega)⟩

/-- A wait is allowed on a cell whose level is below that of every cell still owed. -/
theorem mayWait_tail (c : Dev nD) (sm : SemLoc sig) (k : ℕ) (h : ∀ s ∈ (sites c).drop k, lv ((c : Thread nD τ), sm) () < lv s.1 ()) :
    (levAts L lv : sProp 𝕄) ⊢ MayWait (c : Thread nD τ) sm () (Oafter c k) := by
  refine Pipeline.mayWait_of_levAts (hι := ?_) ?_
  · rw [L_tc]; exact Finset.mem_singleton_self _
  · intro g i hpos
    obtain ⟨s, hs, rfl⟩ := owedFrom_pos hpos
    refine ⟨?_, h s hs⟩
    unfold L
    rw [if_pos (sites_lv c k s hs).1]
    exact Finset.mem_singleton_self _

theorem mayWait_bar (c : Dev nD) : (levAts L lv : sProp 𝕄) ⊢ MayWait (c : Thread nD τ) (.reg barS) () (Oafter c 7) := by
  refine mayWait_tail c (.reg barS) 7 fun s hs => ?_
  have h2 : 2 ≤ lv s.1 () := (sites_lv c 7 s hs).2.2.1 (Nat.le_refl 7)
  show 1 < lv s.1 ()
  exact h2

theorem mayWait_rs (c : Dev nD) (n : DmaSem sig) (hn : 5 ≤ n.val ∧ n.val ≤ 7) :
    (levAts L lv : sProp 𝕄) ⊢ MayWait (c : Thread nD τ) (.dma n) () (Oafter c 10) := by
  refine mayWait_tail c (.dma n) 10 fun s hs => ?_
  have h3 : 3 ≤ lv s.1 () := (sites_lv c 10 s hs).2.2.2 (Nat.le_refl 10)
  have h0 : lv ((c : Thread nD τ), SemLoc.dma n) () = 2 := by
    show (if 5 ≤ n.val ∧ n.val ≤ 7 then 2 else if (11 ≤ n.val ∧ n.val ≤ 13) ∨ 18 ≤ n.val then 3 else 0) = 2
    rw [if_pos hn]
  rw [h0]
  exact h3

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  have h0 : lv ((c : Thread nD τ), SemLoc.dma q) () = 0 := by
    show (if 5 ≤ q.val ∧ q.val ≤ 7 then 2 else if (11 ≤ q.val ∧ q.val ≤ 13) ∨ 18 ≤ q.val then 3 else 0) = 0
    rw [if_neg (by omega), if_neg (by omega)]
  rcases hO with rfl | rfl
  · refine mayWait_tail c (.dma q) 0 fun s hs => ?_
    have h1 : 1 ≤ lv s.1 () := (sites_lv c 0 s hs).2.1
    rw [h0]
    exact h1
  · refine Pipeline.mayWait_of_levAts (hι := ?_) ?_
    · rw [L_tc]; exact Finset.mem_singleton_self _
    · intro g i hpos
      exact absurd hpos (Nat.lt_irrefl 0)

/-- info: 'Cert.KernelIdeal.Hand.mayWait_bar' depends on axioms: [propext, Classical.choice, Quot.sound] -/
#guard_msgs in #print axioms mayWait_bar

end Cert.KernelIdeal.Hand

end
-- ==== Proof.Ghost.lean ====
/- The protocol's ghost state of one device — the cells' invariants and reached rounds, its positions, the duty tokens it
   pays with, its credits — and the proof data of the one grid point: entry and exit assertions and the arrays named. -/
import proofs.«900737_g7700000000000738_dist_ar_v7x_xyz2x4x4_z_m512_n512_bf16_1_alg».proof.Proof.Owed
import proofs.«900737_g7700000000000738_dist_ar_v7x_xyz2x4x4_z_m512_n512_bf16_1_alg».proof.Proof.Gen.KernelIdeal.Launch
import proofs.«900737_g7700000000000738_dist_ar_v7x_xyz2x4x4_z_m512_n512_bf16_1_alg».proof.Proof.Gen.KernelIdeal.Points

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev csem : Fin 21 → SemLoc sig
  | ⟨0, _⟩ => .reg barS
  | ⟨k + 1, h⟩ => .dma ⟨k + 2, by show k + 2 < 22; omega⟩
abbrev kcell (ck : Dev nD × Fin 21) : GSem nD τ sig := ((ck.1 : Thread nD τ), csem ck.2)

def records (K : Dev nD × Fin 21 → ℕ) : sProp 𝕄 :=
  iprop((bigSep Finset.univ fun ck : Dev nD × Fin 21 => cellInv ER (Rd m) (K ck) (kcell ck))
    ∗ bigSep Finset.univ fun ck : Dev nD × Fin 21 => reached ER (kcell ck) 0)

instance records_persistent (K : Dev nD × Fin 21 → ℕ) : BI.Persistent (records m K) := by unfold records; infer_instance

/-- A cell's invariant and its reached round out of the records, the cell named as the program names it. -/
theorem inv_at (K : Dev nD × Fin 21 → ℕ) (ck : Dev nD × Fin 21) (g : GSem nD τ sig) (h : kcell ck = g) :
    (bigSep Finset.univ fun ck : Dev nD × Fin 21 => (cellInv ER (Rd m) (K ck) (kcell ck) : sProp 𝕄)) ⊢ cellInv ER (Rd m) (K ck) g := by
  subst h; exact bigSep_elim (Finset.mem_univ ck)
theorem reached_at (ck : Dev nD × Fin 21) (g : GSem nD τ sig) (h : kcell ck = g) :
    (bigSep Finset.univ fun ck : Dev nD × Fin 21 => (reached ER (kcell ck) 0 : sProp 𝕄)) ⊢ reached ER g 0 := by
  subst h; exact bigSep_elim (Finset.mem_univ ck)

def positions (c : Dev nD) : sProp 𝕄 := bigSep Finset.univ fun k : Fin 21 => atPos ER (kcell (c, k)) 0 ∅ 0

def payToks (c : Dev nD) : sProp 𝕄 :=
  iprop(dutyTok ER (barCell (pr 1 c)) 0 (0 : Fin 7) ∗ dutyTok ER (barCell (pr 2 c)) 0 (1 : Fin 7) ∗ dutyTok ER (barCell (pr 3 c)) 0 (2 : Fin 7)
    ∗ dutyTok ER (barCell (pr 5 c)) 0 (3 : Fin 7) ∗ dutyTok ER (barCell (pr 6 c)) 0 (4 : Fin 7) ∗ dutyTok ER (barCell (pr 7 c)) 0 (5 : Fin 7)
    ∗ dutyTok ER (barCell (pr 4 c)) 0 (6 : Fin 7)
    ∗ dutyTok ER (dcell (pr 1 c) 7) 0 (0 : Fin 7) ∗ dutyTok ER (dcell (pr 2 c) 6) 0 (0 : Fin 7) ∗ dutyTok ER (dcell (pr 3 c) 5) 0 (0 : Fin 7)
    ∗ dutyTok ER (dcell (pr 4 c) 18) 0 (0 : Fin 7)
    ∗ dutyTok ER (dcell (pr 1 c) 13) 0 (0 : Fin 7) ∗ dutyTok ER (dcell (pr 5 c) 21) 0 (0 : Fin 7)
    ∗ dutyTok ER (dcell (pr 2 c) 12) 0 (0 : Fin 7) ∗ dutyTok ER (dcell (pr 6 c) 20) 0 (0 : Fin 7)
    ∗ dutyTok ER (dcell (pr 3 c) 11) 0 (0 : Fin 7) ∗ dutyTok ER (dcell (pr 7 c) 19) 0 (0 : Fin 7)
    ∗ dutyTok ER (dcell c 2) 0 (0 : Fin 7) ∗ dutyTok ER (dcell c 3) 0 (0 : Fin 7) ∗ dutyTok ER (dcell c 4) 0 (0 : Fin 7)
    ∗ dutyTok ER (dcell c 8) 0 (0 : Fin 7) ∗ dutyTok ER (dcell c 9) 0 (0 : Fin 7) ∗ dutyTok ER (dcell c 10) 0 (0 : Fin 7)
    ∗ dutyTok ER (dcell c 14) 0 (0 : Fin 7) ∗ dutyTok ER (dcell c 15) 0 (0 : Fin 7) ∗ dutyTok ER (dcell c 16) 0 (0 : Fin 7)
    ∗ dutyTok ER (dcell c 17) 0 (0 : Fin 7))

def ghost (K : Dev nD × Fin 21 → ℕ) (c : Dev nD) : sProp 𝕄 := iprop(records m K ∗ positions (F := F) c ∗ payToks (F := F) c)

def creds (c : Dev nD) : sProp 𝕄 :=
  iprop(cred (tallyAt (barCell c) () 7)
    ∗ cred (tallyAt (dcell c 5) () N) ∗ cred (tallyAt (dcell c 6) () N) ∗ cred (tallyAt (dcell c 7) () N)
    ∗ cred (tallyAt (dcell c 11) () N) ∗ cred (tallyAt (dcell c 12) () N) ∗ cred (tallyAt (dcell c 13) () N)
    ∗ cred (tallyAt (dcell c 18) () N) ∗ cred (tallyAt (dcell c 19) () N) ∗ cred (tallyAt (dcell c 20) () N) ∗ cred (tallyAt (dcell c 21) () N))

def start (c : Dev nD) : sProp 𝕄 := iprop((∃ K, ghost m K c) ∗ creds (F := F) c ∗ levAts L lv)

abbrev someBuf (c : Dev nD) (b : Ref sig .tc) : sProp 𝕄 :=
  iprop(∃ f : Buf (Elt F) ((c : Thread nD τ).loc b), ((c : Thread nD τ).loc b) ↦{fullShare} f)
def scratch (c : Dev nD) : sProp 𝕄 :=
  iprop(someBuf (F := F) c cc0_scratch0 ∗ someBuf c cc0_scratch1 ∗ someBuf c cc0_scratch2 ∗ someBuf c cc0_scratch3 ∗ someBuf c cc0_scratch4)

def ownZero (c : Dev nD) : sProp 𝕄 := bigSep Finset.univ fun k : Fin 20 => semVal (((c : Thread nD τ), osem k) : GSem nD τ sig) 0

def Φ₀ (c : Dev nD) : sProp 𝕄 := iprop(start m c ∗ scratch (F := F) c)
def Φ₁ (c : Dev nD) : sProp 𝕄 := iprop(scratch (F := F) c ∗ ownZero (F := F) c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outAt m c))

end Cert.KernelIdeal.Hand

end
-- ==== Proof.Tiles.lean ====
/- The 512 × 512 output buffer is written by eight stores of 128 × 256 tiles, one at each place of its 4 × 2 grid of such
   tiles: an element reads the payload of the one tile that holds it, so what the buffer held before the
   stores does not matter. Row 128 q + i, column 256 h + j lies in tile (q, h); z = c mod 4, x = c div 16. -/
import proofs.«900737_g7700000000000738_dist_ar_v7x_xyz2x4x4_z_m512_n512_bf16_1_alg».proof.Proof.Data
import Idealize.ShloMosaic.Lib.ValueIdx
import Idealize.ShloMosaic.Lib.Pipeline.Value
import Idealize.ShloMosaic.Lib.WritesUnit

noncomputable section

namespace Cert.KernelIdeal.Hand

open Cert.KernelIdeal Cert.KernelIdeal.Gen
open Idealize.ShloMosaic
open Idealize.ShloMosaic.TcCoe
open Idealize.ShloMosaic.ValueIdx

section Tiles
variable {F : FTy → Type} [FloatOps F]
variable (m : (ℓ : Loc nD τ sig) → Buf (Elt F) ℓ)

theorem oM_read (f : (cc0_stg1_0 : Ref sig .tc).ty.Contents (Elt F)) (y : S512x512.Idx) :
    (oM : Memref sig .tc .vmem S512x512 .f32).view.read (Elt F) f y = f y :=
  rfl

/-- An element outside a tile, by its row or by its column, reads what the buffer held before the tile's store. -/
theorem tile_miss (off : Fin 2 → Nat) (inb : ∀ a, off a + S128x256.size a ≤ S512x512.size a)
    (w : (Rect.unit (s := S512x512) off S128x256.size inb).shape.Idx → Elt F .f32)
    (g : (cc0_stg1_0 : Ref sig .tc).ty.Contents (Elt F))
    (o0 o1 : Nat) (hoff : off = ![o0, o1]) (r l : Fin 512)
    (hmiss : r.val < o0 ∨ o0 + 128 ≤ r.val ∨ l.val < o1 ∨ o1 + 256 ≤ l.val) :
    ((oM : Memref sig .tc .vmem S512x512 .f32).access (Rect.unit (s := S512x512) off S128x256.size inb) : View sig .tc _ _ _).write
        (Elt F) g w Finset.univ (ix2 r l) = g (ix2 r l) := by
  have key : ∀ (a : Fin 2), ((ix2 r l : S512x512.Idx) a).val < (![o0, o1] : Fin 2 → Nat) a
        ∨ (![o0, o1] : Fin 2 → Nat) a + S128x256.size a ≤ ((ix2 r l : S512x512.Idx) a).val →
      ((oM : Memref sig .tc .vmem S512x512 .f32).access (Rect.unit (s := S512x512) off S128x256.size inb) : View sig .tc _ _ _).write
        (Elt F) g w Finset.univ (ix2 r l) = g (ix2 r l) := by
    intro a ha
    have h := View.read_writes_cons_unit_of_not_mem (oM : Memref sig .tc .vmem S512x512 .f32).view g inb w [] (ix2 r l) hoff a ha
    rw [View.writes_singleton, View.writes_nil, oM_read, oM_read] at h
    exact h
  rcases hmiss with h | h | h | h
  · exact key (0 : Fin 2) (Or.inl h)
  · exact key (0 : Fin 2) (Or.inr h)
  · exact key (1 : Fin 2) (Or.inl h)
  · exact key (1 : Fin 2) (Or.inr h)

/-- An element at position (i, j) of a tile reads the tile's payload there. -/
theorem tile_hit (off : Fin 2 → Nat) (inb : ∀ a, off a + S128x256.size a ≤ S512x512.size a)
    (w : (Rect.unit (s := S512x512) off S128x256.size inb).shape.Idx → Elt F .f32)
    (g : (cc0_stg1_0 : Ref sig .tc).ty.Contents (Elt F))
    (o0 o1 : Nat) (hoff : off = ![o0, o1]) (r l : Fin 512) (i : Fin 128) (j : Fin 256)
    (hr : r.val = o0 + i.val) (hl : l.val = o1 + j.val) :
    ((oM : Memref sig .tc .vmem S512x512 .f32).access (Rect.unit (s := S512x512) off S128x256.size inb) : View sig .tc _ _ _).write
        (Elt F) g w Finset.univ (ix2 r l) = w (ix2 i j) := by
  have h := View.read_writes_cons_unit_of_mem (oM : Memref sig .tc .vmem S512x512 .f32).view g inb w [] (ix2 r l) (ix2 i j) hoff
    (Fin.forall_fin_two.mpr ⟨hr, hl⟩)
  rw [View.writes_singleton, oM_read] at h
  exact h

variable (c : Dev nD) (d : (cc0_stg1_0 : Ref sig .tc).ty.Contents (Elt F)) (r l : Fin 512) (i : Fin 128) (j : Fin 256)

theorem out_tile1 (hr : r.val = 128 * (c.val % 4) + i.val) (hl : l.val = 256 * (c.val / 16) + j.val) :
    outFrom m c d (ix2 r l) = acc m c (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  refine (tile_miss _ _ _ _ _ _ (off4_eq3 c) r l (by omega)).trans ?_
  refine (tile_miss _ _ _ _ _ _ (off4_eq2 c) r l (by omega)).trans ?_
  refine (tile_miss _ _ _ _ _ _ (off4_eq1 c) r l (by omega)).trans ?_
  exact tile_hit _ _ _ _ _ _ (k0_off3_eq c) r l i j hr hl

theorem out_tile2 (hr : r.val = 128 * ((c.val % 4 + 1) % 4) + i.val) (hl : l.val = 256 * (c.val / 16) + j.val) :
    outFrom m c d (ix2 r l) = k0_pay4 (agLoad0 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  refine (tile_miss _ _ _ _ _ _ (off4_eq3 c) r l (by omega)).trans ?_
  refine (tile_miss _ _ _ _ _ _ (off4_eq2 c) r l (by omega)).trans ?_
  exact tile_hit _ _ _ _ _ _ (off4_eq1 c) r l i j hr hl

theorem out_tile3 (hr : r.val = 128 * ((c.val % 4 + 2) % 4) + i.val) (hl : l.val = 256 * (c.val / 16) + j.val) :
    outFrom m c d (ix2 r l) = k0_pay5 (agLoad1 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  refine (tile_miss _ _ _ _ _ _ (off4_eq3 c) r l (by omega)).trans ?_
  exact tile_hit _ _ _ _ _ _ (off4_eq2 c) r l i j hr hl

theorem out_tile4 (hr : r.val = 128 * ((c.val % 4 + 3) % 4) + i.val) (hl : l.val = 256 * (c.val / 16) + j.val) :
    outFrom m c d (ix2 r l) = k0_pay6 (agLoad2 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  exact tile_hit _ _ _ _ _ _ (off4_eq3 c) r l i j hr hl

theorem out_tile5 (hr : r.val = 128 * (c.val % 4) + i.val) (hl : l.val = 256 - 256 * (c.val / 16) + j.val) :
    outFrom m c d (ix2 r l) = k0_pay7 (xgLoad0 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  exact tile_hit _ _ _ _ _ _ (k0_off5_eq c) r l i j hr hl

theorem out_tile6 (hr : r.val = 128 * ((c.val % 4 + 1) % 4) + i.val) (hl : l.val = 256 - 256 * (c.val / 16) + j.val) :
    outFrom m c d (ix2 r l) = k0_pay8 (xgLoad1 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  exact tile_hit _ _ _ _ _ _ (off6_eq0 c) r l i j hr hl

theorem out_tile7 (hr : r.val = 128 * ((c.val % 4 + 2) % 4) + i.val) (hl : l.val = 256 - 256 * (c.val / 16) + j.val) :
    outFrom m c d (ix2 r l) = k0_pay9 (xgLoad2 m c) (ix2 i j) := by
  have hc : c.val < 32 := c.isLt
  unfold outFrom
  refine (tile_miss _ _ _ _ _ _ (off6_eq2 c) r l (by omega)).trans ?_
  exact tile_hit _ _ _ _ _ _ (off6_eq1 c) r l i j hr hl

theorem out_tile8 (hr : r.val = 128 * ((c.val % 4 + 3) % 4) + i.val) (hl : l.val = 256 - 256 * (c.val / 16) + j.val) :
    outFrom m c d (ix2 r l) = k0_pay10 (xgLoad3 m c) (ix2 i j) := by
  have hc : c.val < 32 := c.isLt
  unfold outFrom
  exact tile_hit _ _ _ _ _ _ (off6_eq2 c) r l i j hr hl

end Tiles

/-- Every row and column lies at some position (i, j) of the tile its row block and column half name. -/
theorem cover8 (c : Dev nD) (r l : Fin 512) :
    (∃ (i : Fin 128) (j : Fin 256), r.val = 128 * (c.val % 4) + i.val ∧ l.val = 256 * (c.val / 16) + j.val)
    ∨ (∃ (i : Fin 128) (j : Fin 256), r.val = 128 * ((c.val % 4 + 1) % 4) + i.val ∧ l.val = 256 * (c.val / 16) + j.val)
    ∨ (∃ (i : Fin 128) (j : Fin 256), r.val = 128 * ((c.val % 4 + 2) % 4) + i.val ∧ l.val = 256 * (c.val / 16) + j.val)
    ∨ (∃ (i : Fin 128) (j : Fin 256), r.val = 128 * ((c.val % 4 + 3) % 4) + i.val ∧ l.val = 256 * (c.val / 16) + j.val)
    ∨ (∃ (i : Fin 128) (j : Fin 256), r.val = 128 * (c.val % 4) + i.val ∧ l.val = 256 - 256 * (c.val / 16) + j.val)
    ∨ (∃ (i : Fin 128) (j : Fin 256), r.val = 128 * ((c.val % 4 + 1) % 4) + i.val ∧ l.val = 256 - 256 * (c.val / 16) + j.val)
    ∨ (∃ (i : Fin 128) (j : Fin 256), r.val = 128 * ((c.val % 4 + 2) % 4) + i.val ∧ l.val = 256 - 256 * (c.val / 16) + j.val)
    ∨ (∃ (i : Fin 128) (j : Fin 256), r.val = 128 * ((c.val % 4 + 3) % 4) + i.val ∧ l.val = 256 - 256 * (c.val / 16) + j.val) := by
  have hc : c.val < 32 := c.isLt
  have hr : r.val < 512 := r.isLt
  have hl : l.val < 512 := l.isLt
  obtain ⟨i, hi⟩ : ∃ i : Fin 128, i.val = r.val % 128 := ⟨⟨r.val % 128, Nat.mod_lt _ (by decide)⟩, rfl⟩
  obtain ⟨j, hj⟩ : ∃ j : Fin 256, j.val = l.val % 256 := ⟨⟨l.val % 256, Nat.mod_lt _ (by decide)⟩, rfl⟩
  have hq : r.val / 128 = c.val % 4 ∨ r.val / 128 = (c.val % 4 + 1) % 4 ∨ r.val / 128 = (c.val % 4 + 2) % 4
      ∨ r.val / 128 = (c.val % 4 + 3) % 4 := by omega
  have hh : l.val / 256 = c.val / 16 ∨ l.val / 256 = 1 - c.val / 16 := by omega
  rcases hh with hh | hh <;> rcases hq with hq | hq | hq | hq
  · exact Or.inl ⟨i, j, by omega, by omega⟩
  · exact Or.inr (Or.inl ⟨i, j, by omega, by omega⟩)
  · exact Or.inr (Or.inr (Or.inl ⟨i, j, by omega, by omega⟩))
  · exact Or.inr (Or.inr (Or.inr (Or.inl ⟨i, j, by omega, by omega⟩)))
  · exact Or.inr (Or.inr (Or.inr (Or.inr (Or.inl ⟨i, j, by omega, by omega⟩))))
  · exact Or.inr (Or.inr (Or.inr (Or.inr (Or.inr (Or.inl ⟨i, j, by omega, by omega⟩)))))
  · exact Or.inr (Or.inr (Or.inr (Or.inr (Or.inr (Or.inr (Or.inl ⟨i, j, by omega, by omega⟩))))))
  · exact Or.inr (Or.inr (Or.inr (Or.inr (Or.inr (Or.inr (Or.inr ⟨i, j, by omega, by omega⟩))))))

/-- The eight tiles cover the buffer, so its contents before the stores do not matter. -/
theorem outFrom_indep {F : FTy → Type} [FloatOps F] (m : (ℓ : Loc nD τ sig) → Buf (Elt F) ℓ) (c : Dev nD)
    (d d' : (cc0_stg1_0 : Ref sig .tc).ty.Contents (Elt F)) : outFrom m c d = outFrom m c d' := by
  funext y
  obtain ⟨r, l, rfl⟩ : ∃ (r : Fin 512) (l : Fin 512), y = ix2 r l := ⟨y 0, y 1, eq_ix2 (n0 := 512) (n1 := 512) y⟩
  rcases cover8 c r l with ⟨i, j, hr, hl⟩ | ⟨i, j, hr, hl⟩ | ⟨i, j, hr, hl⟩ | ⟨i, j, hr, hl⟩ | ⟨i, j, hr, hl⟩
    | ⟨i, j, hr, hl⟩ | ⟨i, j, hr, hl⟩ | ⟨i, j, hr, hl⟩
  · exact (out_tile1 m c d r l i j hr hl).trans (out_tile1 m c d' r l i j hr hl).symm
  · exact (out_tile2 m c d r l i j hr hl).trans (out_tile2 m c d' r l i j hr hl).symm
  · exact (out_tile3 m c d r l i j hr hl).trans (out_tile3 m c d' r l i j hr hl).symm
  · exact (out_tile4 m c d r l i j hr hl).trans (out_tile4 m c d' r l i j hr hl).symm
  · exact (out_tile5 m c d r l i j hr hl).trans (out_tile5 m c d' r l i j hr hl).symm
  · exact (out_tile6 m c d r l i j hr hl).trans (out_tile6 m c d' r l i j hr hl).symm
  · exact (out_tile7 m c d r l i j hr hl).trans (out_tile7 m c d' r l i j hr hl).symm
  · exact (out_tile8 m c d r l i j hr hl).trans (out_tile8 m c d' r l i j hr hl).symm

end Cert.KernelIdeal.Hand

end
-- ==== Proof.Slots.lean ====
/- A landing buffer of n slots is an n × 128 × 256 array whose slot k is the slab of leading coordinate k. The slabs are
   pairwise disjoint and cover the array, so the buffer at the full share is the separating conjunction of its slots. Two
   writes of one payload through one view agree on the view's elements. -/
import proofs.«900737_g7700000000000738_dist_ar_v7x_xyz2x4x4_z_m512_n512_bf16_1_alg».proof.Proof.Sched
import Idealize.ShloMosaic.Rules.PointsTo
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An index lies in the unit-thick slab at leading offset k exactly when its leading coordinate is k. -/
theorem mem_slab {n : Nat} (k : Nat)
    (hk : ∀ a, (![k, 0, 0] : Fin 3 → Nat) a + S1x128x256.size a ≤ (⟨3, ![n, 128, 256]⟩ : Shape).size a)
    (i : (⟨3, ![n, 128, 256]⟩ : Shape).Idx) :
    i ∈ (Rect.unit (s := ⟨3, ![n, 128, 256]⟩) ![k, 0, 0] S1x128x256.size hk).set ↔ (i 0 : Nat) = k := by
  rw [Rect.mem_set_unit]
  constructor
  · intro h
    have h0 : k ≤ (i 0 : Nat) ∧ (i 0 : Nat) < k + 1 := h 0
    omega
  · intro h
    have h1 : (i 1 : Nat) < 128 := (i 1).isLt
    have h2 : (i 2 : Nat) < 256 := (i 2).isLt
    show ∀ a : Fin 3, _
    intro a
    fin_cases a
    · show k ≤ (i 0 : Nat) ∧ (i 0 : Nat) < k + 1
      omega
    · show 0 ≤ (i 1 : Nat) ∧ (i 1 : Nat) < 0 + 128
      omega
    · show 0 ≤ (i 2 : Nat) ∧ (i 2 : Nat) < 0 + 256
      omega

theorem box3_cover : (Finset.univ : Finset S3x128x256.Idx) = box3_0.set ∪ (box3_1.set ∪ box3_2.set) := by
  ext i
  have h0 : (i 0 : Nat) < 3 := (i 0).isLt
  simp only [Finset.mem_univ, Finset.mem_union, true_iff]
  rw [mem_slab (n := 3) 0, mem_slab (n := 3) 1, mem_slab (n := 3) 2]
  omega

theorem box3_disj0 : Disjoint box3_0.set (box3_1.set ∪ box3_2.set) := by
  rw [Finset.disjoint_left]
  intro i hi
  rw [mem_slab (n := 3) 0] at hi
  rw [Finset.mem_union, mem_slab (n := 3) 1, mem_slab (n := 3) 2]
  omega
theorem box3_disj12 : Disjoint box3_1.set box3_2.set := by
  rw [Finset.disjoint_left]
  intro i hi
  rw [mem_slab (n := 3) 1] at hi
  rw [mem_slab (n := 3) 2]
  omega

theorem box4_cover : (Finset.univ : Finset S4x128x256.Idx) = box4_0.set ∪ (box4_1.set ∪ (box4_2.set ∪ box4_3.set)) := by
  ext i
  have h0 : (i 0 : Nat) < 4 := (i 0).isLt
  simp only [Finset.mem_univ, Finset.mem_union, true_iff]
  rw [mem_slab (n := 4) 0, mem_slab (n := 4) 1, mem_slab (n := 4) 2, mem_slab (n := 4) 3]
  omega

theorem box4_disj0 : Disjoint box4_0.set (box4_1.set ∪ (box4_2.set ∪ box4_3.set)) := by
  rw [Finset.disjoint_left]
  intro i hi
  rw [mem_slab (n := 4) 0] at hi
  rw [Finset.mem_union, Finset.mem_union, mem_slab (n := 4) 1, mem_slab (n := 4) 2, mem_slab (n := 4) 3]
  omega
theorem box4_disj1 : Disjoint box4_1.set (box4_2.set ∪ box4_3.set) := by
  rw [Finset.disjoint_left]
  intro i hi
  rw [mem_slab (n := 4) 1] at hi
  rw [Finset.mem_union, mem_slab (n := 4) 2, mem_slab (n := 4) 3]
  omega
theorem box4_disj23 : Disjoint box4_2.set box4_3.set := by
  rw [Finset.disjoint_left]
  intro i hi
  rw [mem_slab (n := 4) 2] at hi
  rw [mem_slab (n := 4) 3]
  omega

theorem rs_slot_set (off : Fin 3 → Nat) (h : ∀ a, off a + S1x128x256.size a ≤ S3x128x256.size a) :
    (slot3 rsM off h).view.set = (Rect.unit (s := S3x128x256) off S1x128x256.size h).set := by
  show (((View.whole cc0_scratch1 : View sig .tc _ _ _).slice (Rect.unit (s := S3x128x256) off S1x128x256.size h)).reshape S128x256 _).set = _
  rw [View.set_reshape, View.set_slice_whole]
theorem ag_slot_set (off : Fin 3 → Nat) (h : ∀ a, off a + S1x128x256.size a ≤ S3x128x256.size a) :
    (slot3 agM off h).view.set = (Rect.unit (s := S3x128x256) off S1x128x256.size h).set := by
  show (((View.whole cc0_scratch3 : View sig .tc _ _ _).slice (Rect.unit (s := S3x128x256) off S1x128x256.size h)).reshape S128x256 _).set = _
  rw [View.set_reshape, View.set_slice_whole]
theorem xg_slot_set (off : Fin 3 → Nat) (h : ∀ a, off a + S1x128x256.size a ≤ S4x128x256.size a) :
    (slot4 xgM off h).view.set = (Rect.unit (s := S4x128x256) off S1x128x256.size h).set := by
  show (((View.whole cc0_scratch4 : View sig .tc _ _ _).slice (Rect.unit (s := S4x128x256) off S1x128x256.size h)).reshape S128x256 _).set = _
  rw [View.set_reshape, View.set_slice_whole]

section Cover
variable {ℓ : Loc nD τ sig} {s0 s1 s2 s3 : Finset (Idx ℓ)}

/-- Over a cover by pairwise disjoint sets, the buffer at a share is the separating conjunction of the sets at that share, -/
theorem split3 (hc : (Finset.univ : Finset (Idx ℓ)) = s0 ∪ (s1 ∪ s2)) (hd0 : Disjoint s0 (s1 ∪ s2)) (hd12 : Disjoint s1 s2)
    (q : PosShare TreeShare) (f : Buf (Elt F) ℓ) :
    (ℓ ↦{q} f : sProp 𝕄) ⊢ iprop((ℓ ↦[s0]{q} f) ∗ (ℓ ↦[s1]{q} f) ∗ ℓ ↦[s2]{q} f) := by
  rw [hc]
  exact (pointsTo_union hd0).1.trans (sep_mono_right (pointsTo_union hd12).1)

/-- and sets held at whatever contents join into the buffer at the contents that agree with each on its set. -/
theorem join3 (hc : (Finset.univ : Finset (Idx ℓ)) = s0 ∪ (s1 ∪ s2)) (hd0 : Disjoint s0 (s1 ∪ s2)) (hd12 : Disjoint s1 s2)
    (q : PosShare TreeShare) :
    iprop((∃ f : Buf (Elt F) ℓ, ℓ ↦[s0]{q} f) ∗ (∃ f : Buf (Elt F) ℓ, ℓ ↦[s1]{q} f) ∗ (∃ f : Buf (Elt F) ℓ, ℓ ↦[s2]{q} f))
      ⊢ (iprop(∃ f : Buf (Elt F) ℓ, ℓ ↦{q} f) : sProp 𝕄) := by
  have key : ∀ f0 f1 f2 : Buf (Elt F) ℓ,
      iprop((ℓ ↦[s0]{q} f0) ∗ (ℓ ↦[s1]{q} f1) ∗ ℓ ↦[s2]{q} f2)
        ⊢ (ℓ ↦{q} ((s1 ∪ s2).piecewise (s2.piecewise f2 f1) f0) : sProp 𝕄) := fun f0 f1 f2 => by
    rw [hc]
    exact (sep_mono_right (pointsTo_join hd12)).trans (pointsTo_join hd0)
  iintro ⟨⟨%f0, H0⟩, ⟨%f1, H1⟩, ⟨%f2, H2⟩⟩
  iexists ((s1 ∪ s2).piecewise (s2.piecewise f2 f1) f0)
  iapply (key f0 f1 f2)
  isplitl [H0]
  · iexact H0
  isplitl [H1]
  · iexact H1
  iexact H2

theorem split4 (hc : (Finset.univ : Finset (Idx ℓ)) = s0 ∪ (s1 ∪ (s2 ∪ s3))) (hd0 : Disjoint s0 (s1 ∪ (s2 ∪ s3)))
    (hd1 : Disjoint s1 (s2 ∪ s3)) (hd23 : Disjoint s2 s3) (q : PosShare TreeShare) (f : Buf (Elt F) ℓ) :
    (ℓ ↦{q} f : sProp 𝕄) ⊢ iprop((ℓ ↦[s0]{q} f) ∗ (ℓ ↦[s1]{q} f) ∗ (ℓ ↦[s2]{q} f) ∗ ℓ ↦[s3]{q} f) := by
  rw [hc]
  exact (pointsTo_union hd0).1.trans (sep_mono_right ((pointsTo_union hd1).1.trans (sep_mono_right (pointsTo_union hd23).1)))

theorem join4 (hc : (Finset.univ : Finset (Idx ℓ)) = s0 ∪ (s1 ∪ (s2 ∪ s3))) (hd0 : Disjoint s0 (s1 ∪ (s2 ∪ s3)))
    (hd1 : Disjoint s1 (s2 ∪ s3)) (hd23 : Disjoint s2 s3) (q : PosShare TreeShare) :
    iprop((∃ f : Buf (Elt F) ℓ, ℓ ↦[s0]{q} f) ∗ (∃ f : Buf (Elt F) ℓ, ℓ ↦[s1]{q} f) ∗ (∃ f : Buf (Elt F) ℓ, ℓ ↦[s2]{q} f)
        ∗ (∃ f : Buf (Elt F) ℓ, ℓ ↦[s3]{q} f))
      ⊢ (iprop(∃ f : Buf (Elt F) ℓ, ℓ ↦{q} f) : sProp 𝕄) := by
  have key : ∀ f0 f1 f2 f3 : Buf (Elt F) ℓ,
      iprop((ℓ ↦[s0]{q} f0) ∗ (ℓ ↦[s1]{q} f1) ∗ (ℓ ↦[s2]{q} f2) ∗ ℓ ↦[s3]{q} f3)
        ⊢ (ℓ ↦{q} ((s1 ∪ (s2 ∪ s3)).piecewise ((s2 ∪ s3).piecewise (s3.piecewise f3 f2) f1) f0) : sProp 𝕄) :=
    fun f0 f1 f2 f3 => by
    rw [hc]
    exact (sep_mono_right ((sep_mono_right (pointsTo_join hd23)).trans (pointsTo_join hd1))).trans (pointsTo_join hd0)
  iintro ⟨⟨%f0, H0⟩, ⟨%f1, H1⟩, ⟨%f2, H2⟩, ⟨%f3, H3⟩⟩
  iexists ((s1 ∪ (s2 ∪ s3)).piecewise ((s2 ∪ s3).piecewise (s3.piecewise f3 f2) f1) f0)
  iapply (key f0 f1 f2 f3)
  isplitl [H0]
  · iexact H0
  isplitl [H1]
  · iexact H1
  isplitl [H2]
  · iexact H2
  iexact H3

end Cover

section Buffers
variable (c : Dev nD)

theorem rs_cover : (Finset.univ : Finset (Idx ((c : Thread nD τ).loc cc0_scratch1)))
    = rsSlot0.view.set ∪ (rsSlot1.view.set ∪ rsSlot2.view.set) := by
  rw [rs_slot_set, rs_slot_set, rs_slot_set]; exact box3_cover
theorem rs_disj0 : Disjoint rsSlot0.view.set (rsSlot1.view.set ∪ rsSlot2.view.set) := by
  rw [rs_slot_set, rs_slot_set, rs_slot_set]; exact box3_disj0
theorem rs_disj12 : Disjoint rsSlot1.view.set rsSlot2.view.set := by
  rw [rs_slot_set, rs_slot_set]; exact box3_disj12

theorem rs_split (f : Buf (Elt F) ((c : Thread nD τ).loc cc0_scratch1)) :
    ((((c : Thread nD τ).loc cc0_scratch1) ↦{fullShare} f : sProp 𝕄))
      ⊢ iprop(pts c rsSlot0 fullShare f ∗ pts c rsSlot1 fullShare f ∗ pts c rsSlot2 fullShare f) :=
  split3 (ℓ := (c : Thread nD τ).loc cc0_scratch1) (rs_cover c) rs_disj0 rs_disj12 fullShare f

theorem rs_join : iprop(anyPts (F := F) c rsSlot0 ∗ anyPts c rsSlot1 ∗ anyPts c rsSlot2)
    ⊢ (iprop(∃ f : Buf (Elt F) ((c : Thread nD τ).loc cc0_scratch1), ((c : Thread nD τ).loc cc0_scratch1) ↦{fullShare} f) : sProp 𝕄) :=
  join3 (ℓ := (c : Thread nD τ).loc cc0_scratch1) (rs_cover c) rs_disj0 rs_disj12 fullShare

theorem ag_cover : (Finset.univ : Finset (Idx ((c : Thread nD τ).loc cc0_scratch3)))
    = agSlot0.view.set ∪ (agSlot1.view.set ∪ agSlot2.view.set) := by
  rw [ag_slot_set, ag_slot_set, ag_slot_set]; exact box3_cover
theorem ag_disj0 : Disjoint agSlot0.view.set (agSlot1.view.set ∪ agSlot2.view.set) := by
  rw [ag_slot_set, ag_slot_set, ag_slot_set]; exact box3_disj0
theorem ag_disj12 : Disjoint agSlot1.view.set agSlot2.view.set := by
  rw [ag_slot_set, ag_slot_set]; exact box3_disj12

theorem ag_split (f : Buf (Elt F) ((c : Thread nD τ).loc cc0_scratch3)) :
    ((((c : Thread nD τ).loc cc0_scratch3) ↦{fullShare} f : sProp 𝕄))
      ⊢ iprop(pts c agSlot0 fullShare f ∗ pts c agSlot1 fullShare f ∗ pts c agSlot2 fullShare f) :=
  split3 (ℓ := (c : Thread nD τ).loc cc0_scratch3) (ag_cover c) ag_disj0 ag_disj12 fullShare f

theorem ag_join : iprop(anyPts (F := F) c agSlot0 ∗ anyPts c agSlot1 ∗ anyPts c agSlot2)
    ⊢ (iprop(∃ f : Buf (Elt F) ((c : Thread nD τ).loc cc0_scratch3), ((c : Thread nD τ).loc cc0_scratch3) ↦{fullShare} f) : sProp 𝕄) :=
  join3 (ℓ := (c : Thread nD τ).loc cc0_scratch3) (ag_cover c) ag_disj0 ag_disj12 fullShare

theorem xg_cover : (Finset.univ : Finset (Idx ((c : Thread nD τ).loc cc0_scratch4)))
    = xgSlot0.view.set ∪ (xgSlot1.view.set ∪ (xgSlot2.view.set ∪ xgSlot3.view.set)) := by
  rw [xg_slot_set, xg_slot_set, xg_slot_set, xg_slot_set]; exact box4_cover
theorem xg_disj0 : Disjoint xgSlot0.view.set (xgSlot1.view.set ∪ (xgSlot2.view.set ∪ xgSlot3.view.set)) := by
  rw [xg_slot_set, xg_slot_set, xg_slot_set, xg_slot_set]; exact box4_disj0
theorem xg_disj1 : Disjoint xgSlot1.view.set (xgSlot2.view.set ∪ xgSlot3.view.set) := by
  rw [xg_slot_set, xg_slot_set, xg_slot_set]; exact box4_disj1
theorem xg_disj23 : Disjoint xgSlot2.view.set xgSlot3.view.set := by
  rw [xg_slot_set, xg_slot_set]; exact box4_disj23

theorem xg_split (f : Buf (Elt F) ((c : Thread nD τ).loc cc0_scratch4)) :
    ((((c : Thread nD τ).loc cc0_scratch4) ↦{fullShare} f : sProp 𝕄))
      ⊢ iprop(pts c xgSlot0 fullShare f ∗ pts c xgSlot1 fullShare f ∗ pts c xgSlot2 fullShare f ∗ pts c xgSlot3 fullShare f) :=
  split4 (ℓ := (c : Thread nD τ).loc cc0_scratch4) (xg_cover c) xg_disj0 xg_disj1 xg_disj23 fullShare f

theorem xg_join : iprop(anyPts (F := F) c xgSlot0 ∗ anyPts c xgSlot1 ∗ anyPts c xgSlot2 ∗ anyPts c xgSlot3)
    ⊢ (iprop(∃ f : Buf (Elt F) ((c : Thread nD τ).loc cc0_scratch4), ((c : Thread nD τ).loc cc0_scratch4) ↦{fullShare} f) : sProp 𝕄) :=
  join4 (ℓ := (c : Thread nD τ).loc cc0_scratch4) (xg_cover c) xg_disj0 xg_disj1 xg_disj23 fullShare

theorem sb_take (r : Fin 3) (q : PosShare TreeShare) (f : Buf (Elt F) ((c : Thread nD τ).loc cc0_scratch0)) :
    ((((c : Thread nD τ).loc cc0_scratch0) ↦{q} f : sProp 𝕄))
      ⊣⊢ iprop(pts c (sbSrc c r) q f ∗ (((c : Thread nD τ).loc cc0_scratch0) ↦[Finset.univ \ (sbSrc c r).view.set]{q} f)) :=
  pointsTo_split_subset (ℓ := (c : Thread nD τ).loc cc0_scratch0) (Finset.subset_univ _)

/-- Two writes of one payload through one view agree on the view's elements. -/
theorem landed_restate (S : Memref sig .tc .vmem S128x256 .bf16) (fd g : Buf (Elt F) (S.view.loc (c : Thread nD τ)))
    (w : S128x256.Idx → Elt F .bf16) :
    (pts c S fullShare (S.view.write (Elt F) fd w Finset.univ) : sProp 𝕄)
      = pts c S fullShare (S.view.write (Elt F) g w Finset.univ) := by
  refine pointsTo_congr ?_
  intro i hi
  obtain ⟨y, rfl⟩ := View.exists_emb_of_mem_set S.view hi
  rw [View.write_emb_of_mem _ _ (Finset.mem_univ y), View.write_emb_of_mem _ _ (Finset.mem_univ y)]

end Buffers

theorem rb_set : (rbM : Memref sig .tc .vmem S128x256 .bf16).view.set = Finset.univ := View.set_whole _
theorem sb_set : (sbM : Memref sig .tc .vmem S4x128x256 .bf16).view.set = Finset.univ := View.set_whole _
theorem x_set : (xM : Memref sig .tc .vmem S512x512 .f32).view.set = Finset.univ := View.set_whole _
theorem o_set : (oM : Memref sig .tc .vmem S512x512 .f32).view.set = Finset.univ := View.set_whole _

end Cert.KernelIdeal.Hand

end
-- ==== Proof.Body.lean ====
/- One device's body. It stores its own column half as four chunks in the send buffer; pays its seven barrier duties, handing
   each peer the landing slots that peer will write, and waits for its own seven, after which it owns the ten slots it copies
   into; sends three chunks down its z ring, each on its own read share; adds the three it receives to its own chunk; sends the
   reduced block seven times to the z ring and to the other x half; stores each of the seven landed tiles; and waits for its ten
   departures, which hand the source shares back. Its twenty cells then close and its buffers are whole again. -/
import proofs.«900737_g7700000000000738_dist_ar_v7x_xyz2x4x4_z_m512_n512_bf16_1_alg».proof.Proof.Ghost
import proofs.«900737_g7700000000000738_dist_ar_v7x_xyz2x4x4_z_m512_n512_bf16_1_alg».proof.Proof.Tiles
import proofs.«900737_g7700000000000738_dist_ar_v7x_xyz2x4x4_z_m512_n512_bf16_1_alg».proof.Proof.Gen.KernelIdeal.Skeleton
import proofs.«900737_g7700000000000738_dist_ar_v7x_xyz2x4x4_z_m512_n512_bf16_1_alg».proof.Proof.Slots
import Idealize.ShloMosaic.Lib.Tactic

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_canon] dev1_eq dev2_eq dev3_eq dev4_eq dev5_eq dev6_eq dev7_eq dev8_eq dev9_eq dev10_eq dev11_eq dev12_eq dev13_eq dev14_eq dev15_eq dev16_eq dev17_eq

theorem x_view (c : Dev nD) (q : PosShare TreeShare) (f : Buf (Elt F) ((c : Thread nD τ).loc cc0_stg0_0)) :
    ((((c : Thread nD τ).loc cc0_stg0_0) ↦{q} f : sProp 𝕄)) = ((xM : Memref sig .tc .vmem S512x512 .f32).view.loc (c : Thread nD τ) ↦[(xM : Memref sig .tc .vmem S512x512 .f32).view.set]{q} f) := by
  rw [x_set]
theorem o_view (c : Dev nD) (q : PosShare TreeShare) (f : Buf (Elt F) ((c : Thread nD τ).loc cc0_stg1_0)) :
    ((((c : Thread nD τ).loc cc0_stg1_0) ↦{q} f : sProp 𝕄)) = ((oM : Memref sig .tc .vmem S512x512 .f32).view.loc (c : Thread nD τ) ↦[(oM : Memref sig .tc .vmem S512x512 .f32).view.set]{q} f) := by
  rw [o_set]
theorem sb_view (c : Dev nD) (q : PosShare TreeShare) (f : Buf (Elt F) ((c : Thread nD τ).loc cc0_scratch0)) :
    ((((c : Thread nD τ).loc cc0_scratch0) ↦{q} f : sProp 𝕄)) = ((sbM : Memref sig .tc .vmem S4x128x256 .bf16).view.loc (c : Thread nD τ) ↦[(sbM : Memref sig .tc .vmem S4x128x256 .bf16).view.set]{q} f) := by
  rw [sb_set]
theorem rb_view (c : Dev nD) (q : PosShare TreeShare) (f : Buf (Elt F) ((c : Thread nD τ).loc cc0_scratch2)) :
    ((((c : Thread nD τ).loc cc0_scratch2) ↦{q} f : sProp 𝕄)) = ((rbM : Memref sig .tc .vmem S128x256 .bf16).view.loc (c : Thread nD τ) ↦[(rbM : Memref sig .tc .vmem S128x256 .bf16).view.set]{q} f) := by
  rw [rb_set]

section TablesX
variable (c p : Dev nD)
theorem xpay_dma2 (d : Fin 7) : (Rd (F := F) m).payload (dcell c rsSend0.sem) 0 d = (((sbSrc c 0).view.loc (c : Thread nD τ) ↦[(sbSrc c 0).view.set]{shSb 0} sbuf m c) : sProp 𝕄) := rfl
theorem xpay_dma3 (d : Fin 7) : (Rd (F := F) m).payload (dcell c rsSend1.sem) 0 d = (((sbSrc c 1).view.loc (c : Thread nD τ) ↦[(sbSrc c 1).view.set]{shSb 1} sbuf m c) : sProp 𝕄) := rfl
theorem xpay_dma4 (d : Fin 7) : (Rd (F := F) m).payload (dcell c rsSend2.sem) 0 d = (((sbSrc c 2).view.loc (c : Thread nD τ) ↦[(sbSrc c 2).view.set]{shSb 2} sbuf m c) : sProp 𝕄) := rfl
theorem xpay_dma5 (d : Fin 7) : (Rd (F := F) m).payload (dcell c rsRecv0.sem) 0 d = ((rsSlot0.view.loc (c : Thread nD τ) ↦[rsSlot0.view.set]{fullShare} rsLanded m c 0) : sProp 𝕄) := rfl
theorem xpay_dma6 (d : Fin 7) : (Rd (F := F) m).payload (dcell c rsRecv1.sem) 0 d = ((rsSlot1.view.loc (c : Thread nD τ) ↦[rsSlot1.view.set]{fullShare} rsLanded m c 1) : sProp 𝕄) := rfl
theorem xpay_dma7 (d : Fin 7) : (Rd (F := F) m).payload (dcell c rsRecv2.sem) 0 d = ((rsSlot2.view.loc (c : Thread nD τ) ↦[rsSlot2.view.set]{fullShare} rsLanded m c 2) : sProp 𝕄) := rfl
theorem xpay_dma8 (d : Fin 7) : (Rd (F := F) m).payload (dcell c agSend0.sem) 0 d = (((rbM : Memref sig .tc .vmem S128x256 .bf16).view.loc (c : Thread nD τ) ↦[(rbM : Memref sig .tc .vmem S128x256 .bf16).view.set]{shRb 0} rbuf m c) : sProp 𝕄) := rfl
theorem xpay_dma9 (d : Fin 7) : (Rd (F := F) m).payload (dcell c agSend1.sem) 0 d = (((rbM : Memref sig .tc .vmem S128x256 .bf16).view.loc (c : Thread nD τ) ↦[(rbM : Memref sig .tc .vmem S128x256 .bf16).view.set]{shRb 1} rbuf m c) : sProp 𝕄) := rfl
theorem xpay_dma10 (d : Fin 7) : (Rd (F := F) m).payload (dcell c agSend2.sem) 0 d = (((rbM : Memref sig .tc .vmem S128x256 .bf16).view.loc (c : Thread nD τ) ↦[(rbM : Memref sig .tc .vmem S128x256 .bf16).view.set]{shRb 2} rbuf m c) : sProp 𝕄) := rfl
theorem xpay_dma11 (d : Fin 7) : (Rd (F := F) m).payload (dcell c agRecv0.sem) 0 d = ((agSlot0.view.loc (c : Thread nD τ) ↦[agSlot0.view.set]{fullShare} agLanded m c 0) : sProp 𝕄) := rfl
theorem xpay_dma12 (d : Fin 7) : (Rd (F := F) m).payload (dcell c agRecv1.sem) 0 d = ((agSlot1.view.loc (c : Thread nD τ) ↦[agSlot1.view.set]{fullShare} agLanded m c 1) : sProp 𝕄) := rfl
theorem xpay_dma13 (d : Fin 7) : (Rd (F := F) m).payload (dcell c agRecv2.sem) 0 d = ((agSlot2.view.loc (c : Thread nD τ) ↦[agSlot2.view.set]{fullShare} agLanded m c 2) : sProp 𝕄) := rfl
theorem xpay_dma14 (d : Fin 7) : (Rd (F := F) m).payload (dcell c xfSend0.sem) 0 d = (((rbM : Memref sig .tc .vmem S128x256 .bf16).view.loc (c : Thread nD τ) ↦[(rbM : Memref sig .tc .vmem S128x256 .bf16).view.set]{shRb 3} rbuf m c) : sProp 𝕄) := rfl
theorem xpay_dma15 (d : Fin 7) : (Rd (F := F) m).payload (dcell c xfSend1.sem) 0 d = (((rbM : Memref sig .tc .vmem S128x256 .bf16).view.loc (c : Thread nD τ) ↦[(rbM : Memref sig .tc .vmem S128x256 .bf16).view.set]{shRb 4} rbuf m c) : sProp 𝕄) := rfl
theorem xpay_dma16 (d : Fin 7) : (Rd (F := F) m).payload (dcell c xfSend2.sem) 0 d = (((rbM : Memref sig .tc .vmem S128x256 .bf16).view.loc (c : Thread nD τ) ↦[(rbM : Memref sig .tc .vmem S128x256 .bf16).view.set]{shRb 5} rbuf m c) : sProp 𝕄) := rfl
theorem xpay_dma17 (d : Fin 7) : (Rd (F := F) m).payload (dcell c xfSend3.sem) 0 d = (((rbM : Memref sig .tc .vmem S128x256 .bf16).view.loc (c : Thread nD τ) ↦[(rbM : Memref sig .tc .vmem S128x256 .bf16).view.set]{shRb 6} rbuf m c) : sProp 𝕄) := rfl
theorem xpay_dma18 (d : Fin 7) : (Rd (F := F) m).payload (dcell c xfRecv0.sem) 0 d = ((xgSlot0.view.loc (c : Thread nD τ) ↦[xgSlot0.view.set]{fullShare} xgLanded m c 0) : sProp 𝕄) := rfl
theorem xpay_dma19 (d : Fin 7) : (Rd (F := F) m).payload (dcell c xfRecv1.sem) 0 d = ((xgSlot1.view.loc (c : Thread nD τ) ↦[xgSlot1.view.set]{fullShare} xgLanded m c 1) : sProp 𝕄) := rfl
theorem xpay_dma20 (d : Fin 7) : (Rd (F := F) m).payload (dcell c xfRecv2.sem) 0 d = ((xgSlot2.view.loc (c : Thread nD τ) ↦[xgSlot2.view.set]{fullShare} xgLanded m c 2) : sProp 𝕄) := rfl
theorem xpay_dma21 (d : Fin 7) : (Rd (F := F) m).payload (dcell c xfRecv3.sem) 0 d = ((xgSlot3.view.loc (c : Thread nD τ) ↦[xgSlot3.view.set]{fullShare} xgLanded m c 3) : sProp 𝕄) := rfl
theorem xpay_bar0 : (Rd (F := F) m).payload (barCell (pr 1 p)) 0 (0 : Fin 7) = (iprop((∃ f : Buf (Elt F) (rsSlot0.view.loc (p : Thread nD τ)), rsSlot0.view.loc (p : Thread nD τ) ↦[rsSlot0.view.set]{fullShare} f) ∗ (∃ f : Buf (Elt F) (agSlot0.view.loc (p : Thread nD τ)), agSlot0.view.loc (p : Thread nD τ) ↦[agSlot0.view.set]{fullShare} f)) : sProp 𝕄) := payload_bar_from m p 0
theorem xpay_bar1 : (Rd (F := F) m).payload (barCell (pr 2 p)) 0 (1 : Fin 7) = (iprop((∃ f : Buf (Elt F) (rsSlot1.view.loc (p : Thread nD τ)), rsSlot1.view.loc (p : Thread nD τ) ↦[rsSlot1.view.set]{fullShare} f) ∗ (∃ f : Buf (Elt F) (agSlot1.view.loc (p : Thread nD τ)), agSlot1.view.loc (p : Thread nD τ) ↦[agSlot1.view.set]{fullShare} f)) : sProp 𝕄) := payload_bar_from m p 1
theorem xpay_bar2 : (Rd (F := F) m).payload (barCell (pr 3 p)) 0 (2 : Fin 7) = (iprop((∃ f : Buf (Elt F) (rsSlot2.view.loc (p : Thread nD τ)), rsSlot2.view.loc (p : Thread nD τ) ↦[rsSlot2.view.set]{fullShare} f) ∗ (∃ f : Buf (Elt F) (agSlot2.view.loc (p : Thread nD τ)), agSlot2.view.loc (p : Thread nD τ) ↦[agSlot2.view.set]{fullShare} f)) : sProp 𝕄) := payload_bar_from m p 2
theorem xpay_bar3 : (Rd (F := F) m).payload (barCell (pr 5 p)) 0 (3 : Fin 7) = (iprop(∃ f : Buf (Elt F) (xgSlot1.view.loc (p : Thread nD τ)), xgSlot1.view.loc (p : Thread nD τ) ↦[xgSlot1.view.set]{fullShare} f) : sProp 𝕄) := payload_bar_from m p 3
theorem xpay_bar4 : (Rd (F := F) m).payload (barCell (pr 6 p)) 0 (4 : Fin 7) = (iprop(∃ f : Buf (Elt F) (xgSlot2.view.loc (p : Thread nD τ)), xgSlot2.view.loc (p : Thread nD τ) ↦[xgSlot2.view.set]{fullShare} f) : sProp 𝕄) := payload_bar_from m p 4
theorem xpay_bar5 : (Rd (F := F) m).payload (barCell (pr 7 p)) 0 (5 : Fin 7) = (iprop(∃ f : Buf (Elt F) (xgSlot3.view.loc (p : Thread nD τ)), xgSlot3.view.loc (p : Thread nD τ) ↦[xgSlot3.view.set]{fullShare} f) : sProp 𝕄) := payload_bar_from m p 5
theorem xpay_bar6 : (Rd (F := F) m).payload (barCell (pr 4 p)) 0 (6 : Fin 7) = (iprop(∃ f : Buf (Elt F) (xgSlot0.view.loc (p : Thread nD τ)), xgSlot0.view.loc (p : Thread nD τ) ↦[xgSlot0.view.set]{fullShare} f) : sProp 𝕄) := payload_bar_from m p 6
end TablesX

theorem rs_splitX (c : Dev nD) (f : Buf (Elt F) ((c : Thread nD τ).loc cc0_scratch1)) :
    ((((c : Thread nD τ).loc cc0_scratch1) ↦{fullShare} f : sProp 𝕄)) ⊢ iprop((rsSlot0.view.loc (c : Thread nD τ) ↦[rsSlot0.view.set]{fullShare} f) ∗ (rsSlot1.view.loc (c : Thread nD τ) ↦[rsSlot1.view.set]{fullShare} f) ∗ (rsSlot2.view.loc (c : Thread nD τ) ↦[rsSlot2.view.set]{fullShare} f)) := rs_split c f
theorem ag_splitX (c : Dev nD) (f : Buf (Elt F) ((c : Thread nD τ).loc cc0_scratch3)) :
    ((((c : Thread nD τ).loc cc0_scratch3) ↦{fullShare} f : sProp 𝕄)) ⊢ iprop((agSlot0.view.loc (c : Thread nD τ) ↦[agSlot0.view.set]{fullShare} f) ∗ (agSlot1.view.loc (c : Thread nD τ) ↦[agSlot1.view.set]{fullShare} f) ∗ (agSlot2.view.loc (c : Thread nD τ) ↦[agSlot2.view.set]{fullShare} f)) := ag_split c f
theorem xg_splitX (c : Dev nD) (f : Buf (Elt F) ((c : Thread nD τ).loc cc0_scratch4)) :
    ((((c : Thread nD τ).loc cc0_scratch4) ↦{fullShare} f : sProp 𝕄)) ⊢ iprop((xgSlot1.view.loc (c : Thread nD τ) ↦[xgSlot1.view.set]{fullShare} f) ∗ (xgSlot2.view.loc (c : Thread nD τ) ↦[xgSlot2.view.set]{fullShare} f) ∗ (xgSlot3.view.loc (c : Thread nD τ) ↦[xgSlot3.view.set]{fullShare} f) ∗ (xgSlot0.view.loc (c : Thread nD τ) ↦[xgSlot0.view.set]{fullShare} f)) := by
  refine (xg_split c f).trans ?_
  iintro ⟨H0, H1, H2, H3⟩
  isplitl [H1]; · iexact H1
  isplitl [H2]; · iexact H2
  isplitl [H3]; · iexact H3
  iexact H0

theorem hz3 : (![0, 0, 0] : Fin 3 → Nat) = fun _ => 0 := funext fun a => by fin_cases a <;> rfl
theorem hz2 : (![0, 0] : Fin 2 → Nat) = fun _ => 0 := funext fun a => by fin_cases a <;> rfl

theorem sb_after (c : Dev nD) (f0 : Buf (Elt F) ((c : Thread nD τ).loc cc0_scratch0)) (w : S4x128x256.Idx → Elt F .bf16) :
    (sbM : Memref sig .tc .vmem S4x128x256 .bf16).view.writes (Elt F) f0
      [⟨Rect.unit (s := S4x128x256) ![0, 0, 0] S4x128x256.size inb_S4x128x256_S4x128x256_0_0_0, w⟩] = w := by
  rw [View.writes_singleton]
  exact Memref.write_access_unit_zero_univ (Elt F) cc0_scratch0 hz3 _ f0 w

theorem rb_after (c : Dev nD) (f0 : Buf (Elt F) ((c : Thread nD τ).loc cc0_scratch2)) (w : S128x256.Idx → Elt F .bf16) :
    (rbM : Memref sig .tc .vmem S128x256 .bf16).view.writes (Elt F) f0
      [⟨Rect.unit (s := S128x256) ![0, 0] S128x256.size inb_S128x256_S128x256_0_0, w⟩] = w := by
  rw [View.writes_singleton]
  exact Memref.write_access_unit_zero_univ (Elt F) cc0_scratch2 hz2 _ f0 w

/-- The reduced block goes out on seven read shares, listed in the order its seven copies are issued. -/
theorem rb_cut (c : Dev nD) (f : Buf (Elt F) ((c : Thread nD τ).loc cc0_scratch2)) :
    (pts c rbM (fullShare) f : sProp 𝕄)
      ⊢ iprop(pts c rbM (Transfers.shareDrop fullShare 7) f ∗ pts c rbM (shRb 3) f ∗ pts c rbM (shRb 0) f ∗ pts c rbM (shRb 6) f ∗ pts c rbM (shRb 1) f ∗ pts c rbM (shRb 5) f ∗ pts c rbM (shRb 2) f ∗ pts c rbM (shRb 4) f) := by
  refine (Transfers.pointsTo_toks_split (ℓ := (rbM : Memref sig .tc .vmem S128x256 .bf16).view.loc (c : Thread nD τ)) (S := (rbM : Memref sig .tc .vmem S128x256 .bf16).view.set) (f := f) fullShare 7).trans ?_
  rw [bigSep_fin7]
  iintro ⟨Hd, H0, H1, H2, H3, H4, H5, H6⟩
  isplitl [Hd]; · iexact Hd
  isplitl [H3]; · iexact H3
  isplitl [H0]; · iexact H0
  isplitl [H6]; · iexact H6
  isplitl [H1]; · iexact H1
  isplitl [H5]; · iexact H5
  isplitl [H2]; · iexact H2
  iexact H4

/-- What the seven peers hand over with their signals: the ten slots this device copies into. -/
theorem bar_gifts (c : Dev nD) :
    (bigSep Finset.univ fun d : Fin 7 => (Rd (F := F) m).payload (barCell c) 0 d)
      = (iprop(((∃ f : Buf (Elt F) (rsSlot0.view.loc (pr 3 c : Thread nD τ)), rsSlot0.view.loc (pr 3 c : Thread nD τ) ↦[rsSlot0.view.set]{fullShare} f) ∗ (∃ f : Buf (Elt F) (agSlot0.view.loc (pr 3 c : Thread nD τ)), agSlot0.view.loc (pr 3 c : Thread nD τ) ↦[agSlot0.view.set]{fullShare} f))
          ∗ ((∃ f : Buf (Elt F) (rsSlot1.view.loc (pr 2 c : Thread nD τ)), rsSlot1.view.loc (pr 2 c : Thread nD τ) ↦[rsSlot1.view.set]{fullShare} f) ∗ (∃ f : Buf (Elt F) (agSlot1.view.loc (pr 2 c : Thread nD τ)), agSlot1.view.loc (pr 2 c : Thread nD τ) ↦[agSlot1.view.set]{fullShare} f))
          ∗ ((∃ f : Buf (Elt F) (rsSlot2.view.loc (pr 1 c : Thread nD τ)), rsSlot2.view.loc (pr 1 c : Thread nD τ) ↦[rsSlot2.view.set]{fullShare} f) ∗ (∃ f : Buf (Elt F) (agSlot2.view.loc (pr 1 c : Thread nD τ)), agSlot2.view.loc (pr 1 c : Thread nD τ) ↦[agSlot2.view.set]{fullShare} f))
          ∗ (∃ f : Buf (Elt F) (xgSlot1.view.loc (pr 7 c : Thread nD τ)), xgSlot1.view.loc (pr 7 c : Thread nD τ) ↦[xgSlot1.view.set]{fullShare} f) ∗ (∃ f : Buf (Elt F) (xgSlot2.view.loc (pr 6 c : Thread nD τ)), xgSlot2.view.loc (pr 6 c : Thread nD τ) ↦[xgSlot2.view.set]{fullShare} f) ∗ (∃ f : Buf (Elt F) (xgSlot3.view.loc (pr 5 c : Thread nD τ)), xgSlot3.view.loc (pr 5 c : Thread nD τ) ↦[xgSlot3.view.set]{fullShare} f) ∗ (∃ f : Buf (Elt F) (xgSlot0.view.loc (pr 4 c : Thread nD τ)), xgSlot0.view.loc (pr 4 c : Thread nD τ) ↦[xgSlot0.view.set]{fullShare} f)) : sProp 𝕄) := by
  rw [bigSep_fin7]
  rfl

/-- For each of the three copies, its read share of the chunk it sends beside that share of the rest of the send buffer. -/
theorem sb_cut (c : Dev nD) (f : Buf (Elt F) ((c : Thread nD τ).loc cc0_scratch0)) :
    ((sbM : Memref sig .tc .vmem S4x128x256 .bf16).view.loc (c : Thread nD τ) ↦[(sbM : Memref sig .tc .vmem S4x128x256 .bf16).view.set]{fullShare} f : sProp 𝕄)
      ⊢ iprop((((c : Thread nD τ).loc cc0_scratch0) ↦{Transfers.shareDrop fullShare 3} f)
          ∗ (pts c (slot4 sbM (k0_off2 c 1#32) (k0_off2_inb c 0)) (shSb 0) f ∗ (((c : Thread nD τ).loc cc0_scratch0) ↦[Finset.univ \ (slot4 sbM (k0_off2 c 1#32) (k0_off2_inb c 0)).view.set]{shSb 0} f))
          ∗ (pts c (slot4 sbM (k0_off2 c 2#32) (k0_off2_inb c 1)) (shSb 1) f ∗ (((c : Thread nD τ).loc cc0_scratch0) ↦[Finset.univ \ (slot4 sbM (k0_off2 c 2#32) (k0_off2_inb c 1)).view.set]{shSb 1} f))
          ∗ (pts c (slot4 sbM (k0_off2 c 3#32) (k0_off2_inb c 2)) (shSb 2) f ∗ (((c : Thread nD τ).loc cc0_scratch0) ↦[Finset.univ \ (slot4 sbM (k0_off2 c 3#32) (k0_off2_inb c 2)).view.set]{shSb 2} f))) := by
  refine (Entails.of_eq (sb_view (F := F) c fullShare f).symm).trans ?_
  refine (Transfers.pointsTo_toks_split (ℓ := ((c : Thread nD τ).loc cc0_scratch0)) (S := Finset.univ) (f := f) fullShare 3).trans ?_
  rw [bigSep_fin3]
  iintro ⟨Hd, H0, H1, H2⟩
  isplitl [Hd]; · iexact Hd
  isplitl [H0]; · iapply (sb_take (F := F) c 0 (shSb 0) f).1; iexact H0
  isplitl [H1]; · iapply (sb_take (F := F) c 1 (shSb 1) f).1; iexact H1
  iapply (sb_take (F := F) c 2 (shSb 2) f).1; iexact H2

theorem sbuf_fold (c : Dev nD) : k0_pay1 ((xM : Memref sig .tc .vmem S512x512 .f32).view.readAt (Elt F) (boxHalf c).toLoadRect (xstg m c)) = sbuf m c := rfl
theorem rbuf_fold (c : Dev nD) :
    k0_pay3 ((xM : Memref sig .tc .vmem S512x512 .f32).view.readAt (Elt F) (boxOwn c).toLoadRect (xstg m c))
      ((rsM : Memref sig .tc .vmem S3x128x256 .bf16).view.readAt (Elt F) box3_0.toLoadRect (rsLanded m c 0))
      ((rsM : Memref sig .tc .vmem S3x128x256 .bf16).view.readAt (Elt F) box3_1.toLoadRect (rsLanded m c 1))
      ((rsM : Memref sig .tc .vmem S3x128x256 .bf16).view.readAt (Elt F) box3_2.toLoadRect (rsLanded m c 2)) = rbuf m c := rfl

/-- A resource held but not looked at until it is taken out again. -/
def aside (P : sProp 𝕄) : sProp 𝕄 := P
theorem aside_in (P : sProp 𝕄) : P ⊢ aside P := BI.Entails.refl _
theorem aside_out (P : sProp 𝕄) : aside P ⊢ P := BI.Entails.refl _

/-- What the device still owes once its barrier signals are out and all but k of its ten landings are paid, in the order it pays them. -/
abbrev owe1 (c : Dev nD) : CellTallies nD τ sig Unit := (0 : CellTallies nD τ sig Unit) + tallyAt (dcell (pr 7 c) xfRecv1.sem) () N
abbrev owe2 (c : Dev nD) : CellTallies nD τ sig Unit := owe1 c + tallyAt (dcell (pr 3 c) agRecv0.sem) () N
abbrev owe3 (c : Dev nD) : CellTallies nD τ sig Unit := owe2 c + tallyAt (dcell (pr 6 c) xfRecv2.sem) () N
abbrev owe4 (c : Dev nD) : CellTallies nD τ sig Unit := owe3 c + tallyAt (dcell (pr 2 c) agRecv1.sem) () N
abbrev owe5 (c : Dev nD) : CellTallies nD τ sig Unit := owe4 c + tallyAt (dcell (pr 5 c) xfRecv3.sem) () N
abbrev owe6 (c : Dev nD) : CellTallies nD τ sig Unit := owe5 c + tallyAt (dcell (pr 1 c) agRecv2.sem) () N
abbrev owe7 (c : Dev nD) : CellTallies nD τ sig Unit := owe6 c + tallyAt (dcell (pr 4 c) xfRecv0.sem) () N
abbrev owe8 (c : Dev nD) : CellTallies nD τ sig Unit := owe7 c + tallyAt (dcell (pr 3 c) rsRecv0.sem) () N
abbrev owe9 (c : Dev nD) : CellTallies nD τ sig Unit := owe8 c + tallyAt (dcell (pr 2 c) rsRecv1.sem) () N
abbrev owe10 (c : Dev nD) : CellTallies nD τ sig Unit := owe9 c + tallyAt (dcell (pr 1 c) rsRecv2.sem) () N

/-- One remote copy. The schedule states a landing from the receiver's side, the sender being the receiver shifted by b: going to
    the peer and back returns to c, and what the slot held before never matters. -/
theorem wp_send_to (c n : Dev nD) (a b : Fin 8) (hn : n = pr a c) (hb : pr b (pr a c) = c)
    (src : Dev nD → Memref sig .tc .vmem S128x256 .bf16) (dst : Memref sig .tc .vmem S128x256 .bf16)
    (sS rS : DmaSem sig) (q : PosShare TreeShare)
    (fs : (e : Dev nD) → Buf (Elt F) ((src e).view.loc (e : Thread nD τ)))
    (g : (p : Dev nD) → Buf (Elt F) (dst.view.loc (p : Thread nD τ)))
    {hsc : (dst : Memref sig (Dev.tc n : Thread nD τ).2.kind .vmem S128x256 .bf16).view.ref.isScScratch = false}
    {hsrc : (src c).view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (fd : Buf (Elt F) (dst.view.loc ((pr a c : Dev nD) : Thread nD τ)))
    (K : Dev nD × Fin 21 → ℕ) (k₁ k₂ : Fin 21) (O : CellTallies nD τ sig Unit) {W : Waits sig Unit}
    (hk₁ : kcell (c, k₁) = dcell c sS) (hk₂ : kcell (pr a c, k₂) = dcell (pr a c) rS)
    (hN : dst.view.amount (.dma rS) = N)
    (hpay₁ : (Rd (F := F) m).payload (dcell c sS) 0 (0 : Fin 7) = pts c (src c) q (fs c))
    (hpay₂ : ∀ p : Dev nD, (Rd (F := F) m).payload (dcell p rS) 0 (0 : Fin 7)
      = pts p dst fullShare (dst.view.write (Elt F) (g p) ((src (pr b p)).view.read (Elt F) (fs (pr b p))) Finset.univ)) :
    iprop((bigSep Finset.univ fun ck : Dev nD × Fin 21 => cellInv ER (Rd m) (K ck) (kcell ck))
        ∗ (bigSep Finset.univ fun ck : Dev nD × Fin 21 => reached ER (kcell ck) 0)
        ∗ ((src c).view.loc (c : Thread nD τ) ↦[(src c).view.set]{q} fs c) ∗ (dst.view.loc ((pr a c : Dev nD) : Thread nD τ) ↦[dst.view.set]{fullShare} fd)
        ∗ owes (c : Thread nD τ) (O + tallyAt (dcell (pr a c) rS) () N) W
        ∗ dutyTok ER (dcell c sS) 0 (0 : Fin 7) ∗ dutyTok ER (dcell (pr a c) rS) 0 (0 : Fin 7))
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src c) (.remote (Dev.tc n : Thread nD τ) dst (.dma sS) hsc) (.dma rS) hsrc hdst hsem) k) Q) := by
  subst hn
  have h₂ : (pts (pr a c) dst fullShare (dst.view.write (Elt F) fd ((src c).view.read (Elt F) (fs c)) Finset.univ) : sProp 𝕄)
      ⊢ (Rd (F := F) m).payload (dcell (pr a c) rS) 0 (0 : Fin 7) := by
    rw [hpay₂ (pr a c), hb]
    exact Entails.of_eq (landed_restate (pr a c) dst fd (g (pr a c)) _)
  have i₁ := inv_at m K (c, k₁) _ hk₁
  have i₂ := inv_at m K (pr a c, k₂) _ hk₂
  have r₁ := reached_at (F := F) (c, k₁) _ hk₁
  have r₂ := reached_at (F := F) (pr a c, k₂) _ hk₂
  refine BIBase.Entails.trans ?_ (Rounds.wp_send_pointsTo 𝒱₀ ER (Rd m) (c : Thread nD τ) none (κ₁ := K (c, k₁)) (κ₂ := K (pr a c, k₂))
    (r₁ := 0) (r₂ := 0) (d₁ := (0 : Fin 7)) (d₂ := (0 : Fin 7)) (fd := fd)
    (by rw [duties_dma]; exact Finset.mem_singleton_self _) (by rw [duties_dma]; exact Finset.mem_singleton_self _)
    () () N hN (amount_dma m c sS 0) (amount_dma m (pr a c) rS 0) O rfl (W := W) (Entails.of_eq hpay₁.symm) h₂)
  iintro ⟨#HI, #HR, Hs, Hd, HO, Ta, Tb⟩
  isplitr; · iapply i₁; iexact HI
  isplitr; · iapply i₂; iexact HI
  isplitl [Hs]; · iexact Hs
  isplitl [Hd]; · iexact Hd
  isplitl [HO]; · iexact HO
  isplitl [Ta]; · iexact Ta
  isplitr; · iapply r₁; iexact HR
  isplitl [Tb]; · iexact Tb
  iapply r₂; iexact HR

/-- A cell whose rounds are over gives back its counter at zero. -/
theorem close_cell (κ : ℕ) (g : GSem nD τ sig) :
    iprop(cellInv ER (Rd (F := F) m) κ g ∗ atPos ER g 1 ∅ 0) ⊢ (iprop(|={Set.univ}=> semVal g 0) : sProp 𝕄) :=
  Rounds.cell_close ER (Rd m) (Set.mem_univ κ) (fun h => h) (R := 1) (duties_later m g)

theorem sb_uncut (c : Dev nD) (f : Buf (Elt F) ((c : Thread nD τ).loc cc0_scratch0)) :
    iprop((((c : Thread nD τ).loc cc0_scratch0) ↦{Transfers.shareDrop fullShare 3} f)
          ∗ (pts c (slot4 sbM (k0_off2 c 1#32) (k0_off2_inb c 0)) (shSb 0) f ∗ (((c : Thread nD τ).loc cc0_scratch0) ↦[Finset.univ \ (slot4 sbM (k0_off2 c 1#32) (k0_off2_inb c 0)).view.set]{shSb 0} f))
          ∗ (pts c (slot4 sbM (k0_off2 c 2#32) (k0_off2_inb c 1)) (shSb 1) f ∗ (((c : Thread nD τ).loc cc0_scratch0) ↦[Finset.univ \ (slot4 sbM (k0_off2 c 2#32) (k0_off2_inb c 1)).view.set]{shSb 1} f))
          ∗ (pts c (slot4 sbM (k0_off2 c 3#32) (k0_off2_inb c 2)) (shSb 2) f ∗ (((c : Thread nD τ).loc cc0_scratch0) ↦[Finset.univ \ (slot4 sbM (k0_off2 c 3#32) (k0_off2_inb c 2)).view.set]{shSb 2} f)))
      ⊢ (someBuf (F := F) c cc0_scratch0 : sProp 𝕄) := by
  iintro ⟨Hd, H0, H1, H2⟩
  ihave H0' := (sb_take (F := F) c 0 (shSb 0) f).2 $$ H0
  ihave H1' := (sb_take (F := F) c 1 (shSb 1) f).2 $$ H1
  ihave H2' := (sb_take (F := F) c 2 (shSb 2) f).2 $$ H2
  iexists f
  iapply (Transfers.pointsTo_toks_join (ℓ := ((c : Thread nD τ).loc cc0_scratch0)) (S := Finset.univ) (f := f) fullShare 3)
  rw [bigSep_fin3]
  isplitl [Hd]; · iexact Hd
  isplitl [H0']; · iexact H0'
  isplitl [H1']; · iexact H1'
  iexact H2'

theorem rb_uncut (c : Dev nD) (f : Buf (Elt F) ((c : Thread nD τ).loc cc0_scratch2)) :
    iprop(pts c rbM (Transfers.shareDrop fullShare 7) f ∗ pts c rbM (shRb 0) f ∗ pts c rbM (shRb 1) f ∗ pts c rbM (shRb 2) f ∗ pts c rbM (shRb 3) f ∗ pts c rbM (shRb 4) f ∗ pts c rbM (shRb 5) f ∗ pts c rbM (shRb 6) f)
      ⊢ (someBuf (F := F) c cc0_scratch2 : sProp 𝕄) := by
  iintro ⟨Hd, H0, H1, H2, H3, H4, H5, H6⟩
  iexists f
  iapply (Entails.of_eq (rb_view (F := F) c fullShare f).symm)
  iapply (Transfers.pointsTo_toks_join (ℓ := (rbM : Memref sig .tc .vmem S128x256 .bf16).view.loc (c : Thread nD τ)) (S := (rbM : Memref sig .tc .vmem S128x256 .bf16).view.set) (f := f) fullShare 7)
  rw [bigSep_fin7]
  isplitl [Hd]; · iexact Hd
  isplitl [H0]; · iexact H0
  isplitl [H1]; · iexact H1
  isplitl [H2]; · iexact H2
  isplitl [H3]; · iexact H3
  isplitl [H4]; · iexact H4
  isplitl [H5]; · iexact H5
  iexact H6

theorem ownZero_intro (c : Dev nD) :
    iprop(semVal (dcell c rsSend0.sem) 0 ∗ semVal (dcell c rsSend1.sem) 0 ∗ semVal (dcell c rsSend2.sem) 0 ∗ semVal (dcell c rsRecv0.sem) 0 ∗ semVal (dcell c rsRecv1.sem) 0 ∗ semVal (dcell c rsRecv2.sem) 0 ∗ semVal (dcell c agSend0.sem) 0 ∗ semVal (dcell c agSend1.sem) 0 ∗ semVal (dcell c agSend2.sem) 0 ∗ semVal (dcell c agRecv0.sem) 0 ∗ semVal (dcell c agRecv1.sem) 0 ∗ semVal (dcell c agRecv2.sem) 0 ∗ semVal (dcell c xfSend0.sem) 0 ∗ semVal (dcell c xfSend1.sem) 0 ∗ semVal (dcell c xfSend2.sem) 0 ∗ semVal (dcell c xfSend3.sem) 0 ∗ semVal (dcell c xfRecv0.sem) 0 ∗ semVal (dcell c xfRecv1.sem) 0 ∗ semVal (dcell c xfRecv2.sem) 0 ∗ semVal (dcell c xfRecv3.sem) 0) ⊢ (ownZero (F := F) c : sProp 𝕄) := by
  unfold ownZero
  rw [bigSep_fin20]
  exact BI.Entails.refl _

theorem fetch_0 (t : Fin cfg0.N) : (cfg0.win (0 : Fin 2)).fetch t = true := fetch0_0 t

/-- The device's positions, the tokens it pays with and its credits, each cell named as the program names its semaphore. -/
theorem positions_named (c : Dev nD) : (positions c : sProp 𝕄) = iprop(atPos ER (barCell c) 0 ∅ 0 ∗ atPos ER (dcell c rsSend0.sem) 0 ∅ 0 ∗ atPos ER (dcell c rsSend1.sem) 0 ∅ 0 ∗ atPos ER (dcell c rsSend2.sem) 0 ∅ 0 ∗ atPos ER (dcell c rsRecv0.sem) 0 ∅ 0 ∗ atPos ER (dcell c rsRecv1.sem) 0 ∅ 0 ∗ atPos ER (dcell c rsRecv2.sem) 0 ∅ 0 ∗ atPos ER (dcell c agSend0.sem) 0 ∅ 0 ∗ atPos ER (dcell c agSend1.sem) 0 ∅ 0 ∗ atPos ER (dcell c agSend2.sem) 0 ∅ 0 ∗ atPos ER (dcell c agRecv0.sem) 0 ∅ 0 ∗ atPos ER (dcell c agRecv1.sem) 0 ∅ 0 ∗ atPos ER (dcell c agRecv2.sem) 0 ∅ 0 ∗ atPos ER (dcell c xfSend0.sem) 0 ∅ 0 ∗ atPos ER (dcell c xfSend1.sem) 0 ∅ 0 ∗ atPos ER (dcell c xfSend2.sem) 0 ∅ 0 ∗ atPos ER (dcell c xfSend3.sem) 0 ∅ 0 ∗ atPos ER (dcell c xfRecv0.sem) 0 ∅ 0 ∗ atPos ER (dcell c xfRecv1.sem) 0 ∅ 0 ∗ atPos ER (dcell c xfRecv2.sem) 0 ∅ 0 ∗ atPos ER (dcell c xfRecv3.sem) 0 ∅ 0) := by
  unfold positions; rw [bigSep_fin21]; rfl
theorem payToks_named (c : Dev nD) : (payToks c : sProp 𝕄) = iprop(dutyTok ER (barCell (pr 1 c)) 0 (0 : Fin 7) ∗ dutyTok ER (barCell (pr 2 c)) 0 (1 : Fin 7) ∗ dutyTok ER (barCell (pr 3 c)) 0 (2 : Fin 7) ∗ dutyTok ER (barCell (pr 5 c)) 0 (3 : Fin 7) ∗ dutyTok ER (barCell (pr 6 c)) 0 (4 : Fin 7) ∗ dutyTok ER (barCell (pr 7 c)) 0 (5 : Fin 7) ∗ dutyTok ER (barCell (pr 4 c)) 0 (6 : Fin 7) ∗ dutyTok ER (dcell (pr 1 c) rsRecv2.sem) 0 (0 : Fin 7) ∗ dutyTok ER (dcell (pr 2 c) rsRecv1.sem) 0 (0 : Fin 7) ∗ dutyTok ER (dcell (pr 3 c) rsRecv0.sem) 0 (0 : Fin 7) ∗ dutyTok ER (dcell (pr 4 c) xfRecv0.sem) 0 (0 : Fin 7) ∗ dutyTok ER (dcell (pr 1 c) agRecv2.sem) 0 (0 : Fin 7) ∗ dutyTok ER (dcell (pr 5 c) xfRecv3.sem) 0 (0 : Fin 7) ∗ dutyTok ER (dcell (pr 2 c) agRecv1.sem) 0 (0 : Fin 7) ∗ dutyTok ER (dcell (pr 6 c) xfRecv2.sem) 0 (0 : Fin 7) ∗ dutyTok ER (dcell (pr 3 c) agRecv0.sem) 0 (0 : Fin 7) ∗ dutyTok ER (dcell (pr 7 c) xfRecv1.sem) 0 (0 : Fin 7) ∗ dutyTok ER (dcell c rsSend0.sem) 0 (0 : Fin 7) ∗ dutyTok ER (dcell c rsSend1.sem) 0 (0 : Fin 7) ∗ dutyTok ER (dcell c rsSend2.sem) 0 (0 : Fin 7) ∗ dutyTok ER (dcell c agSend0.sem) 0 (0 : Fin 7) ∗ dutyTok ER (dcell c agSend1.sem) 0 (0 : Fin 7) ∗ dutyTok ER (dcell c agSend2.sem) 0 (0 : Fin 7) ∗ dutyTok ER (dcell c xfSend0.sem) 0 (0 : Fin 7) ∗ dutyTok ER (dcell c xfSend1.sem) 0 (0 : Fin 7) ∗ dutyTok ER (dcell c xfSend2.sem) 0 (0 : Fin 7) ∗ dutyTok ER (dcell c xfSend3.sem) 0 (0 : Fin 7)) := rfl
theorem creds_named (c : Dev nD) : (creds c : sProp 𝕄) = iprop(cred (tallyAt (barCell c) () 7) ∗ cred (tallyAt (dcell c rsRecv0.sem) () N) ∗ cred (tallyAt (dcell c rsRecv1.sem) () N) ∗ cred (tallyAt (dcell c rsRecv2.sem) () N) ∗ cred (tallyAt (dcell c agRecv0.sem) () N) ∗ cred (tallyAt (dcell c agRecv1.sem) () N) ∗ cred (tallyAt (dcell c agRecv2.sem) () N) ∗ cred (tallyAt (dcell c xfRecv0.sem) () N) ∗ cred (tallyAt (dcell c xfRecv1.sem) () N) ∗ cred (tallyAt (dcell c xfRecv2.sem) () N) ∗ cred (tallyAt (dcell c xfRecv3.sem) () N)) := rfl

attribute [local sl_rounds] duties_bar duties_dma amount_bar amount_dma expect_bar expect_dma
  xpay_dma2 xpay_dma3 xpay_dma4 xpay_dma5 xpay_dma6 xpay_dma7 xpay_dma8 xpay_dma9 xpay_dma10 xpay_dma11 xpay_dma12 xpay_dma13 xpay_dma14 xpay_dma15 xpay_dma16 xpay_dma17 xpay_dma18 xpay_dma19 xpay_dma20 xpay_dma21
  xpay_bar0 xpay_bar1 xpay_bar2 xpay_bar3 xpay_bar4 xpay_bar5 xpay_bar6

set_option maxHeartbeats 4000000 in
set_option maxRecDepth 65536 in
theorem sound_body (c : Dev nD) :
    bodyPre m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10)
          (fun _ => bodyPost m ρ c) := by
  unfold bodyPre Φ₀ start ghost scratch records
  rw [positions_named, payToks_named, creds_named]
  iintro ⟨⟨⟨⟨%K, ⟨#HI, #HR⟩, ⟨PB, P2, P3, P4, P5, P6, P7, P8, P9, P10, P11, P12, P13, P14, P15, P16, P17, P18, P19, P20, P21⟩, ⟨Tb0, Tb1, Tb2, Tb3, Tb4, Tb5, Tb6, Tr0, Tr1, Tr2, Tx0, Ta1, Td1, Ta2, Td2, Ta3, Td3, Ts2, Ts3, Ts4, Ts8, Ts9, Ts10, Ts14, Ts15, Ts16, Ts17⟩⟩, ⟨CB, C5, C6, C7, C11, C12, C13, C18, C19, C20, C21⟩, #Hlev⟩,
    ⟨⟨%f0, Hsb⟩, ⟨%f1, Hrs⟩, ⟨%f2, Hrb⟩, ⟨%f3, Hag⟩, ⟨%f4, Hxg⟩⟩⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [O₀, Oafter, sites, List.drop, owedFrom]
  ihave #HIB := (inv_at m K (c, 0) (barCell c) rfl) $$ HI
  ihave #HRB := (reached_at (F := F) (c, 0) (barCell c) rfl) $$ HR
  ihave #HID2 := (inv_at m K (c, 1) (dcell c rsSend0.sem) rfl) $$ HI
  ihave #HRD2 := (reached_at (F := F) (c, 1) (dcell c rsSend0.sem) rfl) $$ HR
  ihave #HID3 := (inv_at m K (c, 2) (dcell c rsSend1.sem) rfl) $$ HI
  ihave #HRD3 := (reached_at (F := F) (c, 2) (dcell c rsSend1.sem) rfl) $$ HR
  ihave #HID4 := (inv_at m K (c, 3) (dcell c rsSend2.sem) rfl) $$ HI
  ihave #HRD4 := (reached_at (F := F) (c, 3) (dcell c rsSend2.sem) rfl) $$ HR
  ihave #HID5 := (inv_at m K (c, 4) (dcell c rsRecv0.sem) rfl) $$ HI
  ihave #HRD5 := (reached_at (F := F) (c, 4) (dcell c rsRecv0.sem) rfl) $$ HR
  ihave #HID6 := (inv_at m K (c, 5) (dcell c rsRecv1.sem) rfl) $$ HI
  ihave #HRD6 := (reached_at (F := F) (c, 5) (dcell c rsRecv1.sem) rfl) $$ HR
  ihave #HID7 := (inv_at m K (c, 6) (dcell c rsRecv2.sem) rfl) $$ HI
  ihave #HRD7 := (reached_at (F := F) (c, 6) (dcell c rsRecv2.sem) rfl) $$ HR
  ihave #HID8 := (inv_at m K (c, 7) (dcell c agSend0.sem) rfl) $$ HI
  ihave #HRD8 := (reached_at (F := F) (c, 7) (dcell c agSend0.sem) rfl) $$ HR
  ihave #HID9 := (inv_at m K (c, 8) (dcell c agSend1.sem) rfl) $$ HI
  ihave #HRD9 := (reached_at (F := F) (c, 8) (dcell c agSend1.sem) rfl) $$ HR
  ihave #HID10 := (inv_at m K (c, 9) (dcell c agSend2.sem) rfl) $$ HI
  ihave #HRD10 := (reached_at (F := F) (c, 9) (dcell c agSend2.sem) rfl) $$ HR
  ihave #HID11 := (inv_at m K (c, 10) (dcell c agRecv0.sem) rfl) $$ HI
  ihave #HRD11 := (reached_at (F := F) (c, 10) (dcell c agRecv0.sem) rfl) $$ HR
  ihave #HID12 := (inv_at m K (c, 11) (dcell c agRecv1.sem) rfl) $$ HI
  ihave #HRD12 := (reached_at (F := F) (c, 11) (dcell c agRecv1.sem) rfl) $$ HR
  ihave #HID13 := (inv_at m K (c, 12) (dcell c agRecv2.sem) rfl) $$ HI
  ihave #HRD13 := (reached_at (F := F) (c, 12) (dcell c agRecv2.sem) rfl) $$ HR
  ihave #HID14 := (inv_at m K (c, 13) (dcell c xfSend0.sem) rfl) $$ HI
  ihave #HRD14 := (reached_at (F := F) (c, 13) (dcell c xfSend0.sem) rfl) $$ HR
  ihave #HID15 := (inv_at m K (c, 14) (dcell c xfSend1.sem) rfl) $$ HI
  ihave #HRD15 := (reached_at (F := F) (c, 14) (dcell c xfSend1.sem) rfl) $$ HR
  ihave #HID16 := (inv_at m K (c, 15) (dcell c xfSend2.sem) rfl) $$ HI
  ihave #HRD16 := (reached_at (F := F) (c, 15) (dcell c xfSend2.sem) rfl) $$ HR
  ihave #HID17 := (inv_at m K (c, 16) (dcell c xfSend3.sem) rfl) $$ HI
  ihave #HRD17 := (reached_at (F := F) (c, 16) (dcell c xfSend3.sem) rfl) $$ HR
  ihave #HID18 := (inv_at m K (c, 17) (dcell c xfRecv0.sem) rfl) $$ HI
  ihave #HRD18 := (reached_at (F := F) (c, 17) (dcell c xfRecv0.sem) rfl) $$ HR
  ihave #HID19 := (inv_at m K (c, 18) (dcell c xfRecv1.sem) rfl) $$ HI
  ihave #HRD19 := (reached_at (F := F) (c, 18) (dcell c xfRecv1.sem) rfl) $$ HR
  ihave #HID20 := (inv_at m K (c, 19) (dcell c xfRecv2.sem) rfl) $$ HI
  ihave #HRD20 := (reached_at (F := F) (c, 19) (dcell c xfRecv2.sem) rfl) $$ HR
  ihave #HID21 := (inv_at m K (c, 20) (dcell c xfRecv3.sem) rfl) $$ HI
  ihave #HRD21 := (reached_at (F := F) (c, 20) (dcell c xfRecv3.sem) rfl) $$ HR
  ihave #HIB_1 := (inv_at m K (pr 1 c, 0) (barCell (pr 1 c)) rfl) $$ HI
  ihave #HRB_1 := (reached_at (F := F) (pr 1 c, 0) (barCell (pr 1 c)) rfl) $$ HR
  ihave #HIB_2 := (inv_at m K (pr 2 c, 0) (barCell (pr 2 c)) rfl) $$ HI
  ihave #HRB_2 := (reached_at (F := F) (pr 2 c, 0) (barCell (pr 2 c)) rfl) $$ HR
  ihave #HIB_3 := (inv_at m K (pr 3 c, 0) (barCell (pr 3 c)) rfl) $$ HI
  ihave #HRB_3 := (reached_at (F := F) (pr 3 c, 0) (barCell (pr 3 c)) rfl) $$ HR
  ihave #HIB_5 := (inv_at m K (pr 5 c, 0) (barCell (pr 5 c)) rfl) $$ HI
  ihave #HRB_5 := (reached_at (F := F) (pr 5 c, 0) (barCell (pr 5 c)) rfl) $$ HR
  ihave #HIB_6 := (inv_at m K (pr 6 c, 0) (barCell (pr 6 c)) rfl) $$ HI
  ihave #HRB_6 := (reached_at (F := F) (pr 6 c, 0) (barCell (pr 6 c)) rfl) $$ HR
  ihave #HIB_7 := (inv_at m K (pr 7 c, 0) (barCell (pr 7 c)) rfl) $$ HI
  ihave #HRB_7 := (reached_at (F := F) (pr 7 c, 0) (barCell (pr 7 c)) rfl) $$ HR
  ihave #HIB_4 := (inv_at m K (pr 4 c, 0) (barCell (pr 4 c)) rfl) $$ HI
  ihave #HRB_4 := (reached_at (F := F) (pr 4 c, 0) (barCell (pr 4 c)) rfl) $$ HR
  ihave HO := (show (owes (c : Thread nD τ) ((((((((((((((((((0 : CellTallies nD τ sig Unit) + tallyAt (dcell (pr 7 c) 19) () N) + tallyAt (dcell (pr 3 c) 11) () N) + tallyAt (dcell (pr 6 c) 20) () N) + tallyAt (dcell (pr 2 c) 12) () N) + tallyAt (dcell (pr 5 c) 21) () N) + tallyAt (dcell (pr 1 c) 13) () N) + tallyAt (dcell (pr 4 c) 18) () N) + tallyAt (dcell (pr 3 c) 5) () N) + tallyAt (dcell (pr 2 c) 6) () N) + tallyAt (dcell (pr 1 c) 7) () N) + tallyAt (barCell (pr 4 c)) () 1) + tallyAt (barCell (pr 7 c)) () 1) + tallyAt (barCell (pr 6 c)) () 1) + tallyAt (barCell (pr 5 c)) () 1) + tallyAt (barCell (pr 3 c)) () 1) + tallyAt (barCell (pr 2 c)) () 1) + tallyAt (barCell (pr 1 c)) () 1) W : sProp 𝕄) ⊢ owes (c : Thread nD τ) ((((((((owe10 c) + tallyAt (barCell (pr 4 c)) () 1) + tallyAt (barCell (pr 7 c)) () 1) + tallyAt (barCell (pr 6 c)) () 1) + tallyAt (barCell (pr 5 c)) () 1) + tallyAt (barCell (pr 3 c)) () 1) + tallyAt (barCell (pr 2 c)) () 1) + tallyAt (barCell (pr 1 c)) () 1) W from BI.Entails.refl _) $$ HO
  ihave Hrs3 := (rs_splitX (F := F) c f1) $$ Hrs
  icases Hrs3 with ⟨Hrs0, Hrs1, Hrs2⟩
  ihave Hag3 := (ag_splitX (F := F) c f3) $$ Hag
  icases Hag3 with ⟨Hag0, Hag1, Hag2⟩
  ihave Hxg4 := (xg_splitX (F := F) c f4) $$ Hxg
  icases Hxg4 with ⟨Hxg1, Hxg2, Hxg3, Hxg0⟩
  ihave Hx := (Entails.of_eq (x_view (F := F) c fullShare (xstg m c))) $$ Hx
  ihave Hout := (Entails.of_eq (o_view (F := F) c fullShare g1)) $$ Hout
  ihave Hsb := (Entails.of_eq (sb_view (F := F) c fullShare f0)) $$ Hsb
  ihave Hrb := (Entails.of_eq (rb_view (F := F) c fullShare f2)) $$ Hrb
  have hmw_bar : (levAts L lv : sProp 𝕄) ⊢ MayWait (c : Thread nD τ) (.reg barS) () (owe10 c) := mayWait_bar (F := F) c
  have hmw_rs5 : (levAts L lv : sProp 𝕄) ⊢ MayWait (c : Thread nD τ) (.dma rsRecv0.sem) () (owe7 c) := mayWait_rs (F := F) c 5 (by decide)
  have hmw_rs6 : (levAts L lv : sProp 𝕄) ⊢ MayWait (c : Thread nD τ) (.dma rsRecv1.sem) () (owe7 c) := mayWait_rs (F := F) c 6 (by decide)
  have hmw_rs7 : (levAts L lv : sProp 𝕄) ⊢ MayWait (c : Thread nD τ) (.dma rsRecv2.sem) () (owe7 c) := mayWait_rs (F := F) c 7 (by decide)
  sl_unfold [cc0_body]
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  ihave Hg := (Entails.of_eq (bar_gifts (F := F) m c)) $$ PB_pay1
  icases Hg with ⟨⟨⟨%gr0, Grs0⟩, ⟨%ga0, Gag0⟩⟩, ⟨⟨%gr1, Grs1⟩, ⟨%ga1, Gag1⟩⟩, ⟨⟨%gr2, Grs2⟩, ⟨%ga2, Gag2⟩⟩, ⟨%gx1, Gxg1⟩, ⟨%gx2, Gxg2⟩, ⟨%gx3, Gxg3⟩, ⟨%gx0, Gxg0⟩⟩

  rw [sb_after (F := F) c, sbuf_fold (F := F) m c]
  ihave Hcut := (sb_cut (F := F) c (sbuf m c)) $$ Hsb
  icases Hcut with ⟨Hsbd, ⟨Hsb0, Hsbr0⟩, ⟨Hsb1, Hsbr1⟩, ⟨Hsb2, Hsbr2⟩⟩
  ihave Hsbd := (aside_in (F := F) _) $$ Hsbd
  ihave Hsbr0 := (aside_in (F := F) _) $$ Hsbr0
  ihave Hsbr1 := (aside_in (F := F) _) $$ Hsbr1
  ihave Hsbr2 := (aside_in (F := F) _) $$ Hsbr2
  ihave Hsb0 := (aside_in (F := F) _) $$ Hsb0
  ihave Hsb1 := (aside_in (F := F) _) $$ Hsb1
  ihave Hsb2 := (aside_in (F := F) _) $$ Hsb2

  ihave Hsb0 := (aside_out (F := F) _) $$ Hsb0
  iapply (wp_send_to (F := F) m c _ 1 3 (dev8_eq c) (pr_inv 1 c) (fun e => slot4 sbM (k0_off2 e 1#32) (k0_off2_inb e 0)) rsSlot2 rsSend0.sem rsRecv2.sem (shSb 0) (sbuf m) (fun p => m ((p : Thread nD τ).loc cc0_scratch1)) gr2
      K 1 6 (owe9 c) rfl rfl rfl rfl (fun _ => rfl))
    $$ [Hsb0 Grs2 HO Ts2 Tr0]
  · isplitr; · iexact HI
    isplitr; · iexact HR
    isplitl [Hsb0]; · iexact Hsb0
    isplitl [Grs2]; · iexact Grs2
    isplitl [HO]; · iexact HO
    isplitl [Ts2]; · iexact Ts2
    iexact Tr0
  iintro ⟨Cs2, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  ihave Hsb1 := (aside_out (F := F) _) $$ Hsb1
  iapply (wp_send_to (F := F) m c _ 2 2 (dev9_eq c) (pr_inv 2 c) (fun e => slot4 sbM (k0_off2 e 2#32) (k0_off2_inb e 1)) rsSlot1 rsSend1.sem rsRecv1.sem (shSb 1) (sbuf m) (fun p => m ((p : Thread nD τ).loc cc0_scratch1)) gr1
      K 2 5 (owe8 c) rfl rfl rfl rfl (fun _ => rfl))
    $$ [Hsb1 Grs1 HO Ts3 Tr1]
  · isplitr; · iexact HI
    isplitr; · iexact HR
    isplitl [Hsb1]; · iexact Hsb1
    isplitl [Grs1]; · iexact Grs1
    isplitl [HO]; · iexact HO
    isplitl [Ts3]; · iexact Ts3
    iexact Tr1
  iintro ⟨Cs3, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  ihave Hsb2 := (aside_out (F := F) _) $$ Hsb2
  iapply (wp_send_to (F := F) m c _ 3 1 (dev10_eq c) (pr_inv 3 c) (fun e => slot4 sbM (k0_off2 e 3#32) (k0_off2_inb e 2)) rsSlot0 rsSend2.sem rsRecv0.sem (shSb 2) (sbuf m) (fun p => m ((p : Thread nD τ).loc cc0_scratch1)) gr0
      K 3 4 (owe7 c) rfl rfl rfl rfl (fun _ => rfl))
    $$ [Hsb2 Grs0 HO Ts4 Tr2]
  · isplitr; · iexact HI
    isplitr; · iexact HR
    isplitl [Hsb2]; · iexact Hsb2
    isplitl [Grs0]; · iexact Grs0
    isplitl [HO]; · iexact HO
    isplitl [Ts4]; · iexact Ts4
    iexact Tr2
  iintro ⟨Cs4, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  rw [rb_after (F := F) c, rbuf_fold (F := F) m c]
  ihave Hrbc := (rb_cut (F := F) c (rbuf m c)) $$ Hrb
  icases Hrbc with ⟨Hrbd, Hrb3, Hrb0, Hrb6, Hrb1, Hrb5, Hrb2, Hrb4⟩

  iapply (wp_send_to (F := F) m c _ 4 4 (dev11_eq c) (pr_inv 4 c) (fun _ => (rbM : Memref sig .tc .vmem S128x256 .bf16)) xgSlot0 xfSend0.sem xfRecv0.sem (shRb 3) (rbuf m) (fun p => m ((p : Thread nD τ).loc cc0_scratch4)) gx0
      K 13 17 (owe6 c) rfl rfl rfl rfl (fun _ => rfl))
    $$ [Hrb3 Gxg0 HO Ts14 Tx0]
  · isplitr; · iexact HI
    isplitr; · iexact HR
    isplitl [Hrb3]; · iexact Hrb3
    isplitl [Gxg0]; · iexact Gxg0
    isplitl [HO]; · iexact HO
    isplitl [Ts14]; · iexact Ts14
    iexact Tx0
  iintro ⟨Cs14, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 1 3 (dev12_eq c) (pr_inv 1 c) (fun _ => (rbM : Memref sig .tc .vmem S128x256 .bf16)) agSlot2 agSend0.sem agRecv2.sem (shRb 0) (rbuf m) (fun p => m ((p : Thread nD τ).loc cc0_scratch3)) ga2
      K 7 12 (owe5 c) rfl rfl rfl rfl (fun _ => rfl))
    $$ [Hrb0 Gag2 HO Ts8 Ta1]
  · isplitr; · iexact HI
    isplitr; · iexact HR
    isplitl [Hrb0]; · iexact Hrb0
    isplitl [Gag2]; · iexact Gag2
    isplitl [HO]; · iexact HO
    isplitl [Ts8]; · iexact Ts8
    iexact Ta1
  iintro ⟨Cs8, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 5 7 (dev13_eq c) (pr_inv 5 c) (fun _ => (rbM : Memref sig .tc .vmem S128x256 .bf16)) xgSlot3 xfSend3.sem xfRecv3.sem (shRb 6) (rbuf m) (fun p => m ((p : Thread nD τ).loc cc0_scratch4)) gx3
      K 16 20 (owe4 c) rfl rfl rfl rfl (fun _ => rfl))
    $$ [Hrb6 Gxg3 HO Ts17 Td1]
  · isplitr; · iexact HI
    isplitr; · iexact HR
    isplitl [Hrb6]; · iexact Hrb6
    isplitl [Gxg3]; · iexact Gxg3
    isplitl [HO]; · iexact HO
    isplitl [Ts17]; · iexact Ts17
    iexact Td1
  iintro ⟨Cs17, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 2 2 (dev14_eq c) (pr_inv 2 c) (fun _ => (rbM : Memref sig .tc .vmem S128x256 .bf16)) agSlot1 agSend1.sem agRecv1.sem (shRb 1) (rbuf m) (fun p => m ((p : Thread nD τ).loc cc0_scratch3)) ga1
      K 8 11 (owe3 c) rfl rfl rfl rfl (fun _ => rfl))
    $$ [Hrb1 Gag1 HO Ts9 Ta2]
  · isplitr; · iexact HI
    isplitr; · iexact HR
    isplitl [Hrb1]; · iexact Hrb1
    isplitl [Gag1]; · iexact Gag1
    isplitl [HO]; · iexact HO
    isplitl [Ts9]; · iexact Ts9
    iexact Ta2
  iintro ⟨Cs9, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 6 6 (dev15_eq c) (pr_inv 6 c) (fun _ => (rbM : Memref sig .tc .vmem S128x256 .bf16)) xgSlot2 xfSend2.sem xfRecv2.sem (shRb 5) (rbuf m) (fun p => m ((p : Thread nD τ).loc cc0_scratch4)) gx2
      K 15 19 (owe2 c) rfl rfl rfl rfl (fun _ => rfl))
    $$ [Hrb5 Gxg2 HO Ts16 Td2]
  · isplitr; · iexact HI
    isplitr; · iexact HR
    isplitl [Hrb5]; · iexact Hrb5
    isplitl [Gxg2]; · iexact Gxg2
    isplitl [HO]; · iexact HO
    isplitl [Ts16]; · iexact Ts16
    iexact Td2
  iintro ⟨Cs16, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 3 1 (dev16_eq c) (pr_inv 3 c) (fun _ => (rbM : Memref sig .tc .vmem S128x256 .bf16)) agSlot0 agSend2.sem agRecv0.sem (shRb 2) (rbuf m) (fun p => m ((p : Thread nD τ).loc cc0_scratch3)) ga0
      K 9 10 (owe1 c) rfl rfl rfl rfl (fun _ => rfl))
    $$ [Hrb2 Gag0 HO Ts10 Ta3]
  · isplitr; · iexact HI
    isplitr; · iexact HR
    isplitl [Hrb2]; · iexact Hrb2
    isplitl [Gag0]; · iexact Gag0
    isplitl [HO]; · iexact HO
    isplitl [Ts10]; · iexact Ts10
    iexact Ta3
  iintro ⟨Cs10, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 7 5 (dev17_eq c) (pr_inv 7 c) (fun _ => (rbM : Memref sig .tc .vmem S128x256 .bf16)) xgSlot1 xfSend1.sem xfRecv1.sem (shRb 4) (rbuf m) (fun p => m ((p : Thread nD τ).loc cc0_scratch4)) gx1
      K 14 18 (0 : CellTallies nD τ sig Unit) rfl rfl rfl rfl (fun _ => rfl))
    $$ [Hrb4 Gxg1 HO Ts15 Td3]
  · isplitr; · iexact HI
    isplitr; · iexact HR
    isplitl [Hrb4]; · iexact Hrb4
    isplitl [Gxg1]; · iexact Gxg1
    isplitl [HO]; · iexact HO
    isplitl [Ts15]; · iexact Ts15
    iexact Td3
  iintro ⟨Cs15, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  imod (close_cell (F := F) m (K (c, 1)) (dcell c rsSend0.sem)) $$ [P2] with Z2
  · isplitr; · iexact HID2
    iexact P2
  imod (close_cell (F := F) m (K (c, 2)) (dcell c rsSend1.sem)) $$ [P3] with Z3
  · isplitr; · iexact HID3
    iexact P3
  imod (close_cell (F := F) m (K (c, 3)) (dcell c rsSend2.sem)) $$ [P4] with Z4
  · isplitr; · iexact HID4
    iexact P4
  imod (close_cell (F := F) m (K (c, 4)) (dcell c rsRecv0.sem)) $$ [P5] with Z5
  · isplitr; · iexact HID5
    iexact P5
  imod (close_cell (F := F) m (K (c, 5)) (dcell c rsRecv1.sem)) $$ [P6] with Z6
  · isplitr; · iexact HID6
    iexact P6
  imod (close_cell (F := F) m (K (c, 6)) (dcell c rsRecv2.sem)) $$ [P7] with Z7
  · isplitr; · iexact HID7
    iexact P7
  imod (close_cell (F := F) m (K (c, 7)) (dcell c agSend0.sem)) $$ [P8] with Z8
  · isplitr; · iexact HID8
    iexact P8
  imod (close_cell (F := F) m (K (c, 8)) (dcell c agSend1.sem)) $$ [P9] with Z9
  · isplitr; · iexact HID9
    iexact P9
  imod (close_cell (F := F) m (K (c, 9)) (dcell c agSend2.sem)) $$ [P10] with Z10
  · isplitr; · iexact HID10
    iexact P10
  imod (close_cell (F := F) m (K (c, 10)) (dcell c agRecv0.sem)) $$ [P11] with Z11
  · isplitr; · iexact HID11
    iexact P11
  imod (close_cell (F := F) m (K (c, 11)) (dcell c agRecv1.sem)) $$ [P12] with Z12
  · isplitr; · iexact HID12
    iexact P12
  imod (close_cell (F := F) m (K (c, 12)) (dcell c agRecv2.sem)) $$ [P13] with Z13
  · isplitr; · iexact HID13
    iexact P13
  imod (close_cell (F := F) m (K (c, 13)) (dcell c xfSend0.sem)) $$ [P14] with Z14
  · isplitr; · iexact HID14
    iexact P14
  imod (close_cell (F := F) m (K (c, 14)) (dcell c xfSend1.sem)) $$ [P15] with Z15
  · isplitr; · iexact HID15
    iexact P15
  imod (close_cell (F := F) m (K (c, 15)) (dcell c xfSend2.sem)) $$ [P16] with Z16
  · isplitr; · iexact HID16
    iexact P16
  imod (close_cell (F := F) m (K (c, 16)) (dcell c xfSend3.sem)) $$ [P17] with Z17
  · isplitr; · iexact HID17
    iexact P17
  imod (close_cell (F := F) m (K (c, 17)) (dcell c xfRecv0.sem)) $$ [P18] with Z18
  · isplitr; · iexact HID18
    iexact P18
  imod (close_cell (F := F) m (K (c, 18)) (dcell c xfRecv1.sem)) $$ [P19] with Z19
  · isplitr; · iexact HID19
    iexact P19
  imod (close_cell (F := F) m (K (c, 19)) (dcell c xfRecv2.sem)) $$ [P20] with Z20
  · isplitr; · iexact HID20
    iexact P20
  imod (close_cell (F := F) m (K (c, 20)) (dcell c xfRecv3.sem)) $$ [P21] with Z21
  · isplitr; · iexact HID21
    iexact P21
  rw [wp_ret]; imodintro
  unfold bodyPost Φ₁ scratch Dat.owesAt Pipeline.owesWithin
  rw [show (dats m ρ 0 c).owed t₀.succ = 0 from rfl]
  ihave Hsbd := (aside_out (F := F) _) $$ Hsbd
  ihave Hsbr0 := (aside_out (F := F) _) $$ Hsbr0
  ihave Hsbr1 := (aside_out (F := F) _) $$ Hsbr1
  ihave Hsbr2 := (aside_out (F := F) _) $$ Hsbr2
  isplitl [Hsbd Hsbr0 Hsbr1 Hsbr2 P2_pay1 P3_pay1 P4_pay1 P5_pay1 P6_pay1 P7_pay1 Hrbd P8_pay1 P9_pay1 P10_pay1 P14_pay1 P15_pay1 P16_pay1 P17_pay1 P11_pay1 P12_pay1 P13_pay1 P18_pay1 P19_pay1 P20_pay1 P21_pay1 Z2 Z3 Z4 Z5 Z6 Z7 Z8 Z9 Z10 Z11 Z12 Z13 Z14 Z15 Z16 Z17 Z18 Z19 Z20 Z21]
  · isplitl [Hsbd Hsbr0 Hsbr1 Hsbr2 P2_pay1 P3_pay1 P4_pay1 P5_pay1 P6_pay1 P7_pay1 Hrbd P8_pay1 P9_pay1 P10_pay1 P14_pay1 P15_pay1 P16_pay1 P17_pay1 P11_pay1 P12_pay1 P13_pay1 P18_pay1 P19_pay1 P20_pay1 P21_pay1]
    ·
      isplitl [Hsbd Hsbr0 Hsbr1 Hsbr2 P2_pay1 P3_pay1 P4_pay1]
      · iapply (sb_uncut (F := F) c (sbuf m c))
        isplitl [Hsbd]; · iexact Hsbd
        isplitl [P2_pay1 Hsbr0]
        · isplitl [P2_pay1]; · iexact P2_pay1
          iexact Hsbr0
        isplitl [P3_pay1 Hsbr1]
        · isplitl [P3_pay1]; · iexact P3_pay1
          iexact Hsbr1
        isplitl [P4_pay1]; · iexact P4_pay1
        iexact Hsbr2
      isplitl [P5_pay1 P6_pay1 P7_pay1]
      · iapply (rs_join (F := F) c)
        isplitl [P5_pay1]; · iexists _; iexact P5_pay1
        isplitl [P6_pay1]; · iexists _; iexact P6_pay1
        iexists _; iexact P7_pay1
      isplitl [Hrbd P8_pay1 P9_pay1 P10_pay1 P14_pay1 P15_pay1 P16_pay1 P17_pay1]
      · iapply (rb_uncut (F := F) c (rbuf m c))
        isplitl [Hrbd]; · iexact Hrbd
        isplitl [P8_pay1]; · iexact P8_pay1
        isplitl [P9_pay1]; · iexact P9_pay1
        isplitl [P10_pay1]; · iexact P10_pay1
        isplitl [P14_pay1]; · iexact P14_pay1
        isplitl [P15_pay1]; · iexact P15_pay1
        isplitl [P16_pay1]; · iexact P16_pay1
        iexact P17_pay1
      isplitl [P11_pay1 P12_pay1 P13_pay1]
      · iapply (ag_join (F := F) c)
        isplitl [P11_pay1]; · iexists _; iexact P11_pay1
        isplitl [P12_pay1]; · iexists _; iexact P12_pay1
        iexists _; iexact P13_pay1
      iapply (xg_join (F := F) c)
      isplitl [P18_pay1]; · iexists _; iexact P18_pay1
      isplitl [P19_pay1]; · iexists _; iexact P19_pay1
      isplitl [P20_pay1]; · iexists _; iexact P20_pay1
      iexists _; iexact P21_pay1
    · iapply (ownZero_intro (F := F) c)
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      isplitl [Z17]; · iexact Z17
      isplitl [Z18]; · iexact Z18
      isplitl [Z19]; · iexact Z19
      isplitl [Z20]; · iexact Z20
      iexact Z21
  isplitl [HO]
  · iexists _
    isplitr
    swap
    · iexact HO
    · ipureintro; exact fun _ _ => Or.inl trivial
  isplitl [Hx]
  · iexists _; isplitr; · (ipureintro; rfl)
    iapply (Entails.of_eq (x_view (F := F) c fullShare _).symm); iexact Hx
  iexists (outFrom m c g1)
  isplitr; · ipureintro; exact outFrom_indep m c g1 _
  iapply (Entails.of_eq (o_view (F := F) c fullShare _).symm); iexact Hout

end Cert.KernelIdeal.Hand

end
-- ==== Proof.LaunchGhost.lean ====
/- The launch element is dealt per device: the round states of its cells at counter zero, its positions, and the tokens of its
   own cells' duties. The global step allocates every cell's invariant, chooses all names together, and deals the tokens around:
   a duty's token goes from the cell's owner to the device that pays it; each shift being a bijection of the devices, a
   conjunction over all owners is the same conjunction over all payers. -/
import proofs.«900737_g7700000000000738_dist_ar_v7x_xyz2x4x4_z_m512_n512_bf16_1_alg».proof.Proof.Ghost
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def csemIdx : SemLoc sig → ℕ
  | .reg _ => 0
  | .dma n => n.val - 1

theorem csemIdx_csem : ∀ k : Fin 21, csemIdx (csem k) = k.val
  | ⟨0, _⟩ => rfl
  | ⟨k + 1, _⟩ => by show k + 2 - 1 = k + 1; omega

theorem kcell_injective : Function.Injective (kcell : Dev nD × Fin 21 → GSem nD τ sig) := by
  rintro ⟨c, k⟩ ⟨c', k'⟩ h
  have h1 : c = c' := congrArg (fun g : GSem nD τ sig => g.1.1) h
  have h2 : csem k = csem k' := congrArg Prod.snd h
  have h3 : k = k' := Fin.ext (by rw [← csemIdx_csem k, ← csemIdx_csem k', h2])
  rw [h1, h3]

def ringCells : Finset (GSem nD τ sig) := Finset.univ.map ⟨kcell, kcell_injective⟩

abbrev tokOf : (Dev nD × Fin 7) ⊕ (Dev nD × Fin 20) → GSem nD τ sig × ℕ × Fin 7
  | .inl cj => (barCell cj.1, 0, cj.2)
  | .inr ck => (((ck.1 : Thread nD τ), osem ck.2), 0, 0)

theorem tokOf_injective : Function.Injective tokOf := by
  rintro (⟨c, j⟩ | ⟨c, k⟩) (⟨c', j'⟩ | ⟨c', k'⟩) h
  · have h1 : c = c' := congrArg (fun x : GSem nD τ sig × ℕ × Fin 7 => x.1.1.1) h
    have h2 : j = j' := congrArg (fun x : GSem nD τ sig × ℕ × Fin 7 => x.2.2) h
    rw [h1, h2]
  · exact absurd (congrArg (fun x : GSem nD τ sig × ℕ × Fin 7 => x.1.2) h) (fun h' => by cases h')
  · exact absurd (congrArg (fun x : GSem nD τ sig × ℕ × Fin 7 => x.1.2) h) (fun h' => by cases h')
  · have h1 : c = c' := congrArg (fun x : GSem nD τ sig × ℕ × Fin 7 => x.1.1.1) h
    have h2 : osem k = osem k' := congrArg (fun x : GSem nD τ sig × ℕ × Fin 7 => x.1.2) h
    have h3 : k.val + 2 - 1 = k'.val + 2 - 1 := congrArg csemIdx h2
    have h4 : k = k' := Fin.ext (by omega)
    rw [h1, h4]

def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 7 => dutyTok ER (barCell c) 0 j)
    ∗ bigSep Finset.univ fun k : Fin 20 => dutyTok ER (((c : Thread nD τ), osem k) : GSem nD τ sig) 0 (0 : Fin 7))

def G (c : Dev nD) : sProp 𝕄 :=
  iprop((bigSep Finset.univ fun k : Fin 21 => roundState ER (Rd m) (kcell (c, k)) 0)
    ∗ (bigSep Finset.univ fun k : Fin 21 => iprop(atPos ER (kcell (c, k)) 0 ∅ 0 ∗ reached ER (kcell (c, k)) 0)) ∗ toks (F := F) c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_map, bigSep_univ_sum, bigSep_univ_prod, bigSep_univ_prod, bigSep_sep']
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

theorem ownSems0_eq (c : Dev nD) : (Pipeline.ownSems0 (Ix := Unit) (Name := ℕ) (U := UU) (Lvl := ℕ) (Val := Elt F) (τ := τ) osem c : sProp 𝕄) = ownZero c := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, bigSep_fin21]
  unfold ownZero
  rw [bigSep_fin20]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 21 => iprop(∃ κ : ℕ, cellInv ER (Rd m) κ (kcell (c, k))))
          ∗ (bigSep Finset.univ fun k : Fin 21 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (Rd m) (kcell (c, k)) 0)
      ⊢ (|={Set.univ}=> bigSep Finset.univ fun k : Fin 21 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 21 → ℕ) (c : Dev nD) :
    iprop(records m K ∗ positions (F := F) c ∗ payToks (F := F) c) ⊢ G' m c := by
  unfold G' ghost
  iintro H
  iexists K
  iexact H

theorem toks_lit (c : Dev nD) :
    (toks c : sProp 𝕄) = iprop((dutyTok ER (barCell c) 0 (0 : Fin 7) ∗ dutyTok ER (barCell c) 0 (1 : Fin 7) ∗ dutyTok ER (barCell c) 0 (2 : Fin 7) ∗ dutyTok ER (barCell c) 0 (3 : Fin 7) ∗ dutyTok ER (barCell c) 0 (4 : Fin 7) ∗ dutyTok ER (barCell c) 0 (5 : Fin 7) ∗ dutyTok ER (barCell c) 0 (6 : Fin 7))
      ∗ (dutyTok ER (dcell c 2) 0 (0 : Fin 7) ∗ dutyTok ER (dcell c 3) 0 (0 : Fin 7) ∗ dutyTok ER (dcell c 4) 0 (0 : Fin 7) ∗ dutyTok ER (dcell c 5) 0 (0 : Fin 7) ∗ dutyTok ER (dcell c 6) 0 (0 : Fin 7) ∗ dutyTok ER (dcell c 7) 0 (0 : Fin 7) ∗ dutyTok ER (dcell c 8) 0 (0 : Fin 7)
        ∗ dutyTok ER (dcell c 9) 0 (0 : Fin 7) ∗ dutyTok ER (dcell c 10) 0 (0 : Fin 7) ∗ dutyTok ER (dcell c 11) 0 (0 : Fin 7) ∗ dutyTok ER (dcell c 12) 0 (0 : Fin 7) ∗ dutyTok ER (dcell c 13) 0 (0 : Fin 7) ∗ dutyTok ER (dcell c 14) 0 (0 : Fin 7) ∗ dutyTok ER (dcell c 15) 0 (0 : Fin 7)
        ∗ dutyTok ER (dcell c 16) 0 (0 : Fin 7) ∗ dutyTok ER (dcell c 17) 0 (0 : Fin 7) ∗ dutyTok ER (dcell c 18) 0 (0 : Fin 7) ∗ dutyTok ER (dcell c 19) 0 (0 : Fin 7) ∗ dutyTok ER (dcell c 20) 0 (0 : Fin 7) ∗ dutyTok ER (dcell c 21) 0 (0 : Fin 7))) := by
  unfold toks; rw [bigSep_fin7, bigSep_fin20]; rfl

/-- Over all devices, the tokens by owner are the tokens by payer, reindexed along the shift, a bijection of the devices. -/
theorem toks_around : (bigSep Finset.univ fun c : Dev nD => (toks c : sProp 𝕄)) ⊢ bigSep Finset.univ fun c : Dev nD => payToks c := by
  have hB (a : Fin 8) (j : Fin 7) : (bigSep Finset.univ fun c : Dev nD => (dutyTok ER (barCell c) 0 j : sProp 𝕄))
      ⊢ bigSep Finset.univ fun c : Dev nD => dutyTok ER (barCell (pr a c)) 0 j :=
    Entails.of_eq (bigSep_univ_equiv (prEquiv a) fun c : Dev nD => (dutyTok ER (barCell c) 0 j : sProp 𝕄))
  have hD (a : Fin 8) (n : DmaSem sig) : (bigSep Finset.univ fun c : Dev nD => (dutyTok ER (dcell c n) 0 (0 : Fin 7) : sProp 𝕄))
      ⊢ bigSep Finset.univ fun c : Dev nD => dutyTok ER (dcell (pr a c) n) 0 (0 : Fin 7) :=
    Entails.of_eq (bigSep_univ_equiv (prEquiv a) fun c : Dev nD => (dutyTok ER (dcell c n) 0 (0 : Fin 7) : sProp 𝕄))
  refine (Entails.of_eq (bigSep_congr fun c _ => toks_lit (F := F) c)).trans ?_
  unfold payToks
  simp only [bigSep_sep']
  iintro ⟨⟨B0, B1, B2, B3, B4, B5, B6⟩, D2, D3, D4, D5, D6, D7, D8, D9, D10, D11, D12, D13, D14, D15, D16, D17, D18, D19, D20, D21⟩
  isplitl [B0]; · ihave H := (hB 1 0) $$ B0; iexact H
  isplitl [B1]; · ihave H := (hB 2 1) $$ B1; iexact H
  isplitl [B2]; · ihave H := (hB 3 2) $$ B2; iexact H
  isplitl [B3]; · ihave H := (hB 5 3) $$ B3; iexact H
  isplitl [B4]; · ihave H := (hB 6 4) $$ B4; iexact H
  isplitl [B5]; · ihave H := (hB 7 5) $$ B5; iexact H
  isplitl [B6]; · ihave H := (hB 4 6) $$ B6; iexact H
  isplitl [D7]; · ihave H := (hD 1 7) $$ D7; iexact H
  isplitl [D6]; · ihave H := (hD 2 6) $$ D6; iexact H
  isplitl [D5]; · ihave H := (hD 3 5) $$ D5; iexact H
  isplitl [D18]; · ihave H := (hD 4 18) $$ D18; iexact H
  isplitl [D13]; · ihave H := (hD 1 13) $$ D13; iexact H
  isplitl [D21]; · ihave H := (hD 5 21) $$ D21; iexact H
  isplitl [D12]; · ihave H := (hD 2 12) $$ D12; iexact H
  isplitl [D20]; · ihave H := (hD 6 20) $$ D20; iexact H
  isplitl [D11]; · ihave H := (hD 3 11) $$ D11; iexact H
  isplitl [D19]; · ihave H := (hD 7 19) $$ D19; iexact H
  isplitl [D2]; · iexact D2
  isplitl [D3]; · iexact D3
  isplitl [D4]; · iexact D4
  isplitl [D8]; · iexact D8
  isplitl [D9]; · iexact D9
  isplitl [D10]; · iexact D10
  isplitl [D14]; · iexact D14
  isplitl [D15]; · iexact D15
  isplitl [D16]; · iexact D16
  iexact D17

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 21 => iprop(∃ κ : ℕ, cellInv ER (Rd m) κ (kcell (c, k))))
          ∗ (bigSep Finset.univ fun k : Fin 21 => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 21 => iprop(∃ κ : ℕ, cellInv ER (Rd m) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]
    · unfold positions; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Hand.glob' depends on axioms: [propext, Classical.choice, Quot.sound] -/
#guard_msgs in #print axioms glob
/-- info: 'Cert.KernelIdeal.Hand.hu₀' depends on axioms: [propext, Classical.choice, Quot.sound] -/
#guard_msgs in #print axioms hu₀

end Cert.KernelIdeal.Hand

end
-- ==== Proof.LaunchEnds.lean ====
/- The ends of the launch: what a device owes at launch is funded by the launch credit of the cells it pays; its entry assertion
   from what the global step deals it; its exit assertion back to the launch theorem's. -/
import proofs.«900737_g7700000000000738_dist_ar_v7x_xyz2x4x4_z_m512_n512_bf16_1_alg».proof.Proof.Ghost
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare :=
  Pipeline.Dat.share_full _ (fun _ => rfl) w

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

abbrev dueSite (d : Dev nD) (x : Fin 8 × SemLoc sig × ℕ) : GSem nD τ sig × ℕ :=
  ((((pr x.1 d : Dev nD) : Thread nD τ), x.2.1), x.2.2)

abbrev dues : List (Fin 8 × SemLoc sig × ℕ) :=
  [ (1, .reg barS, 1), (2, .reg barS, 1), (3, .reg barS, 1), (5, .reg barS, 1), (6, .reg barS, 1), (7, .reg barS, 1),
    (4, .reg barS, 1),
    (1, .dma 7, N), (2, .dma 6, N), (3, .dma 5, N),
    (4, .dma 18, N),
    (1, .dma 13, N), (5, .dma 21, N),
    (2, .dma 12, N), (6, .dma 20, N),
    (3, .dma 11, N), (7, .dma 19, N) ]

theorem O₀_eq_dues : (O₀ : Dev nD → CellTallies nD τ sig Unit) = fun d => owedFrom (dues.map (dueSite d)) :=
  funext fun d => rfl

theorem launchCred_dues (l : List (Fin 8 × SemLoc sig × ℕ)) (c : Dev nD) :
    (Pipeline.launchCred (fun d => owedFrom (l.map (dueSite d))) c : sProp 𝕄)
      ⊢ bigSepL l fun x => cred (tallyAt ((c : Thread nD τ), x.2.1) () x.2.2) := by
  induction l with
  | nil =>
    show (Pipeline.launchCred (fun _ : Dev nD => (0 : CellTallies nD τ sig Unit)) c : sProp 𝕄) ⊢ _
    rw [Pipeline.launchCred_zero]
    exact Entails.rfl
  | cons x rest ih =>
    show (Pipeline.launchCred (fun d => owedFrom (rest.map (dueSite d)) + tallyAt (dueSite d x).1 () (dueSite d x).2) c : sProp 𝕄) ⊢ _
    rw [Pipeline.launchCred_add, bigSepL_cons]
    show _ ⊢ iprop(cred (tallyAt ((c : Thread nD τ), x.2.1) () x.2.2)
      ∗ bigSepL rest fun x => cred (tallyAt ((c : Thread nD τ), x.2.1) () x.2.2))
    iintro ⟨Hrest, Hx⟩
    isplitl [Hx]
    · iapply (Pipeline.launchCred_tallyAt x.2.1 (pr x.1) (pr (inv x.1)) (inv_pr x.1) (pr_inv x.1) () x.2.2 c)
      iexact Hx
    · iapply ih
      iexact Hrest

theorem cred_succ (g : GSem nD τ sig) (n : ℕ) :
    iprop(cred (tallyAt g () 1) ∗ cred (tallyAt g () n)) ⊢ (cred (tallyAt g () (1 + n)) : sProp 𝕄) := by
  rw [← tallyAt_add]
  exact (cred_add _ _).2

theorem cred_seven (g : GSem nD τ sig) :
    iprop(cred (tallyAt g () 1) ∗ cred (tallyAt g () 1) ∗ cred (tallyAt g () 1) ∗ cred (tallyAt g () 1)
        ∗ cred (tallyAt g () 1) ∗ cred (tallyAt g () 1) ∗ cred (tallyAt g () 1))
      ⊢ (cred (tallyAt g () 7) : sProp 𝕄) := by
  iintro ⟨H1, H2, H3, H4, H5, H6, H7⟩
  iapply (cred_succ (F := F) g 6); isplitl [H1]; · iexact H1
  iapply (cred_succ (F := F) g 5); isplitl [H2]; · iexact H2
  iapply (cred_succ (F := F) g 4); isplitl [H3]; · iexact H3
  iapply (cred_succ (F := F) g 3); isplitl [H4]; · iexact H4
  iapply (cred_succ (F := F) g 2); isplitl [H5]; · iexact H5
  iapply (cred_succ (F := F) g 1); isplitl [H6]; · iexact H6
  iexact H7

theorem creds_of_launch (c : Dev nD) : (Pipeline.launchCred O₀ c : sProp 𝕄) ⊢ creds c := by
  rw [O₀_eq_dues]
  refine (launchCred_dues dues c).trans ?_
  unfold creds
  show iprop(cred (tallyAt (barCell c) () 1) ∗ cred (tallyAt (barCell c) () 1) ∗ cred (tallyAt (barCell c) () 1)
      ∗ cred (tallyAt (barCell c) () 1) ∗ cred (tallyAt (barCell c) () 1) ∗ cred (tallyAt (barCell c) () 1)
      ∗ cred (tallyAt (barCell c) () 1)
      ∗ cred (tallyAt (dcell c 7) () N) ∗ cred (tallyAt (dcell c 6) () N) ∗ cred (tallyAt (dcell c 5) () N)
      ∗ cred (tallyAt (dcell c 18) () N)
      ∗ cred (tallyAt (dcell c 13) () N) ∗ cred (tallyAt (dcell c 21) () N)
      ∗ cred (tallyAt (dcell c 12) () N) ∗ cred (tallyAt (dcell c 20) () N)
      ∗ cred (tallyAt (dcell c 11) () N) ∗ cred (tallyAt (dcell c 19) () N)) ⊢ _
  iintro ⟨B1, B2, B3, B5, B6, B7, B4, D7, D6, D5, D18, D13, D21, D12, D20, D11, D19⟩
  isplitl [B1 B2 B3 B5 B6 B7 B4]
  · iapply (cred_seven (F := F) (barCell c))
    isplitl [B1]; · iexact B1
    isplitl [B2]; · iexact B2
    isplitl [B3]; · iexact B3
    isplitl [B5]; · iexact B5
    isplitl [B6]; · iexact B6
    isplitl [B7]; · iexact B7
    iexact B4
  isplitl [D5]; · iexact D5
  isplitl [D6]; · iexact D6
  isplitl [D7]; · iexact D7
  isplitl [D11]; · iexact D11
  isplitl [D12]; · iexact D12
  isplitl [D13]; · iexact D13
  isplitl [D18]; · iexact D18
  isplitl [D19]; · iexact D19
  isplitl [D20]; · iexact D20
  iexact D21

theorem start_intro (G' : Dev nD → sProp 𝕄) (hG' : ∀ c, G' c = iprop(∃ K, ghost m K c)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start m c ∗ emp) := by
  rw [hG']
  iintro ⟨-, Hlev, Hcr, -, HG⟩
  imodintro
  unfold start
  isplitl
  · isplitl [HG]; · iexact HG
    isplitl [Hcr]
    · iapply (creds_of_launch (F := F) c); iexact Hcr
    · iexact Hlev
  · iempintro

theorem phi0_intro (c : Dev nD) :
    iprop(start m c ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]
  · iexact Hs
  · iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq,
    show (Pipeline.ownSems0 osem c : sProp 𝕄) = ownZero c from rfl]
  unfold Φ₁ scratch
  iintro ⟨Hr, Hz⟩
  isplitr
  · iempintro
  isplitl [Hz]
  · iexact Hz
  · iexact Hr

/-- info: 'Cert.KernelIdeal.Hand.creds_of_launch' depends on axioms: [propext, Classical.choice, Quot.sound] -/
#guard_msgs in #print axioms creds_of_launch
/-- info: 'Cert.KernelIdeal.Hand.start_intro' depends on axioms: [propext, Classical.choice, Quot.sound] -/
#guard_msgs in #print axioms start_intro

end Cert.KernelIdeal.Hand

end
-- ==== Proof.Launch.lean ====
/- The launch: every device's body proved, every wait below what the waiter owes, the ghost state funded; so the program runs
   to the end on all devices and each array ends as named. -/
import proofs.«900737_g7700000000000738_dist_ar_v7x_xyz2x4x4_z_m512_n512_bf16_1_alg».proof.Proof.Body
import proofs.«900737_g7700000000000738_dist_ar_v7x_xyz2x4x4_z_m512_n512_bf16_1_alg».proof.Proof.LaunchGhost
import proofs.«900737_g7700000000000738_dist_ar_v7x_xyz2x4x4_z_m512_n512_bf16_1_alg».proof.Proof.LaunchEnds
import Idealize.ShloMosaic.Lib.Pipeline.Launch
import Idealize.ShloMosaic.Lib.Pipeline.Kit

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in

theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10)
          (fun _ => bodyPost m ρ c)
  exact sound_body m ρ c

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in

theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ (G' m) (fun _ => rfl)) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.KernelIdeal.Hand

end
-- ==== Proof.Final.lean ====
/- The final arrays: the argument's array ends as at launch, the result's array as the body's output. -/
import proofs.«900737_g7700000000000738_dist_ar_v7x_xyz2x4x4_z_m512_n512_bf16_1_alg».proof.Proof.Ghost
import Idealize.ShloMosaic.Lib.Pipeline.Kit
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_x (c : Dev nD) :
    (dats m ρ 0 c).arrAt (0 : Fin 2) cfg0.N = (s₀ m ρ).mem (win0_0.arr.view.loc (c : Thread nD τ)) :=
  (dats m ρ 0 c).arrAt_in (0 : Fin 2) rfl cfg0.N

theorem finalA_out (c : Dev nD) : (dats m ρ 0 c).arrAt (1 : Fin 2) cfg0.N = outAt m c := by
  have h := (dats m ρ 0 c).arrAt_succ (1 : Fin 2) t₀
  rw [flush0_1 t₀, if_pos rfl] at h
  rw [cfg0_N]
  exact h.trans (Memref.write_access_unit_zero_univ (Elt F) main_v1
    (off := fun a => win0_1.index t₀ a * win0_1.size a) (funext fun a => Nat.zero_mul _) _ _ _)

end Cert.KernelIdeal.Hand

end
-- ==== Proof.Blocks.lean ====
/- Device c's argument buffer is row block z(c) of the whole 2048 × 512 array: element (a, b) of the block is element
   (512 z + a, b) of the whole. -/
import proofs.«900737_g7700000000000738_dist_ar_v7x_xyz2x4x4_z_m512_n512_bf16_1_alg».proof.Proof.Data
import Idealize.ShloMosaic.Lib.Layout
import Idealize.ShloMosaic.Lib.ValueIdx
import Idealize.ShloMosaic.Lib.Pipeline.Value

noncomputable section

namespace Cert.KernelIdeal.Hand

open Cert.KernelIdeal Cert.KernelIdeal.Gen
open Idealize.ShloMosaic
open Idealize.ShloMosaic.TcCoe
open Idealize.ShloMosaic.ValueIdx

variable {F : FTy → Type} [FloatOps F]

theorem xstg_eq (m : (ℓ : Loc nD τ sig) → Buf (Elt F) ℓ) (c : Dev nD) :
    (xstg m c : (cc0_stg0_0 : Ref sig .tc).ty.Contents (Elt F)) = m ((c : Thread nD τ).loc main_arg0) :=
  Memref.read_access_unit_zero (Elt F) main_arg0
    (off := fun a => win0_0.index (0 : Fin 1) a * win0_0.size a) (funext fun a => Nat.zero_mul _) _ _

theorem meshBlock_rows (e : Dev nD) : ((Layout.meshBlock [2, 4, 4] ![[2], []] e) (0 : Fin 2)).val = e.val % 4 := by
  show e.val / 1 % 4 * 1 + 0 = e.val % 4
  omega
theorem meshBlock_cols (e : Dev nD) : ((Layout.meshBlock [2, 4, 4] ![[2], []] e) (1 : Fin 2)).val = 0 := rfl

theorem hblk_of_agree (m : (ℓ : Loc nD τ sig) → Buf (Elt F) ℓ) (X : (⟨2, ![2048, 512]⟩ : Shape).Idx → Elt F .f32)
    (h : ∀ c : Dev nD, m ((c : Thread nD τ).loc main_arg0)
      = Layout.blockN ⟨2, ![512, 512]⟩ ⟨2, ![2048, 512]⟩ (Layout.meshBlock [2, 4, 4] ![[2], []] c) X)
    (e : Dev nD) (a : Fin 512) (b : Fin 512) :
    xstg m e (ix2 a b) = X (ix2 (⟨512 * (e.val % 4) + a.val, by omega⟩ : Fin 2048) b) := by
  have h1 : xstg m e (ix2 a b) = m ((e : Thread nD τ).loc main_arg0) (ix2 a b) := congrFun (xstg_eq m e) (ix2 a b)
  have h2 := congrFun (h e) (ix2 a b)
  refine h1.trans (h2.trans (congrArg X (funext fun d => Fin.ext ?_)))
  match d with
  | ⟨0, _⟩ =>
    show ((Layout.meshBlock [2, 4, 4] ![[2], []] e) (0 : Fin 2)).val * 512 + a.val = 512 * (e.val % 4) + a.val
    rw [meshBlock_rows]
    omega
  | ⟨1, _⟩ =>
    show ((Layout.meshBlock [2, 4, 4] ![[2], []] e) (1 : Fin 2)).val * 512 + b.val = b.val
    rw [meshBlock_cols]
    omega

end Cert.KernelIdeal.Hand

end
-- ==== Proof.PayIdx.lean ====
/- The body's payloads read at an index, at the ideal instance: format changes are the identity, so a stored chunk is the
   loaded one and the reduced tile is the sum of the own chunk and the three landed ones. -/
import proofs.«900737_g7700000000000738_dist_ar_v7x_xyz2x4x4_z_m512_n512_bf16_1_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

theorem pay1_apply (v : Vec Ideal S512x256 .f32) (q : Fin 4) (r : Fin 128) (l : Fin 256) :
    k0_pay1 (F := Ideal) v (ix3 q r l) = v (ix2 (⟨128 * q.val + r.val, by omega⟩ : Fin 512) l) := by
  show shapeCast S4x128x256
      (truncf (F := Ideal) .bf16 (shapeCast S4x128x256 (shapeCast S512x256 v shapeCasts_S512x256_S512x256)
        shapeCasts_S512x256_S4x128x256) bitsLt_bf16_f32) shapeCasts_S4x128x256_S4x128x256 (ix3 q r l) = _
  rw [shapeCast_self, truncf_apply, shapeCast_self]
  refine shapeCast_apply v shapeCasts_S512x256_S4x128x256 _ _ ?_
  rw [Shape.rowMajor_val_two, Shape.rowMajor_val_three]
  show (128 * q.val + r.val) * 256 + l.val = (q.val * 128 + r.val) * 256 + l.val
  omega

theorem pay2_apply (x : Vec Ideal S128x256 .f32) (a b d : Vec Ideal S1x128x256 .bf16) (r : Fin 128) (l : Fin 256) :
    (k0_pay2 (F := Ideal) x a b d (ix2 r l) : EReal) =
      x (ix2 r l) + a (ix3 (0 : Fin 1) r l) + b (ix3 (0 : Fin 1) r l) + d (ix3 (0 : Fin 1) r l) := by
  show (addf (F := Ideal) (addf (F := Ideal) (addf (F := Ideal) (shapeCast S128x256 x shapeCasts_S128x256_S128x256)
        (extf (F := Ideal) .f32 (shapeCast S128x256 a shapeCasts_S1x128x256_S128x256) bitsLt_bf16_f32))
        (extf (F := Ideal) .f32 (shapeCast S128x256 b shapeCasts_S1x128x256_S128x256) bitsLt_bf16_f32))
        (extf (F := Ideal) .f32 (shapeCast S128x256 d shapeCasts_S1x128x256_S128x256) bitsLt_bf16_f32) (ix2 r l) : EReal) = _
  rw [addf_apply, addf_apply, addf_apply, extf_apply, extf_apply, extf_apply, shapeCast_self,
    shapeCast_1ab_ab_apply a, shapeCast_1ab_ab_apply b, shapeCast_1ab_ab_apply d]

theorem pay3_apply (x : Vec Ideal S128x256 .f32) (a b d : Vec Ideal S1x128x256 .bf16) (r : Fin 128) (l : Fin 256) :
    (k0_pay3 (F := Ideal) x a b d (ix2 r l) : EReal) =
      x (ix2 r l) + a (ix3 (0 : Fin 1) r l) + b (ix3 (0 : Fin 1) r l) + d (ix3 (0 : Fin 1) r l) := by
  show (shapeCast S128x256 (truncf (F := Ideal) .bf16 (k0_pay2 (F := Ideal) x a b d) bitsLt_bf16_f32)
      shapeCasts_S128x256_S128x256 (ix2 r l) : EReal) = _
  rw [shapeCast_self, truncf_apply]
  exact pay2_apply x a b d r l

theorem pay4_apply (v : Vec Ideal S1x128x256 .bf16) (r : Fin 128) (l : Fin 256) :
    k0_pay4 (F := Ideal) v (ix2 r l) = v (ix3 (0 : Fin 1) r l) := by
  show extf (F := Ideal) .f32 (shapeCast S128x256 v shapeCasts_S1x128x256_S128x256) bitsLt_bf16_f32 (ix2 r l) = _
  rw [extf_apply]
  exact shapeCast_1ab_ab_apply v shapeCasts_S1x128x256_S128x256 r l

theorem pay5_apply (v : Vec Ideal S1x128x256 .bf16) (r : Fin 128) (l : Fin 256) :
    k0_pay5 (F := Ideal) v (ix2 r l) = v (ix3 (0 : Fin 1) r l) := by
  show extf (F := Ideal) .f32 (shapeCast S128x256 v shapeCasts_S1x128x256_S128x256) bitsLt_bf16_f32 (ix2 r l) = _
  rw [extf_apply]
  exact shapeCast_1ab_ab_apply v shapeCasts_S1x128x256_S128x256 r l

theorem pay6_apply (v : Vec Ideal S1x128x256 .bf16) (r : Fin 128) (l : Fin 256) :
    k0_pay6 (F := Ideal) v (ix2 r l) = v (ix3 (0 : Fin 1) r l) := by
  show extf (F := Ideal) .f32 (shapeCast S128x256 v shapeCasts_S1x128x256_S128x256) bitsLt_bf16_f32 (ix2 r l) = _
  rw [extf_apply]
  exact shapeCast_1ab_ab_apply v shapeCasts_S1x128x256_S128x256 r l

theorem pay7_apply (v : Vec Ideal S1x128x256 .bf16) (r : Fin 128) (l : Fin 256) :
    k0_pay7 (F := Ideal) v (ix2 r l) = v (ix3 (0 : Fin 1) r l) := by
  show extf (F := Ideal) .f32 (shapeCast S128x256 v shapeCasts_S1x128x256_S128x256) bitsLt_bf16_f32 (ix2 r l) = _
  rw [extf_apply]
  exact shapeCast_1ab_ab_apply v shapeCasts_S1x128x256_S128x256 r l

theorem pay8_apply (v : Vec Ideal S1x128x256 .bf16) (r : Fin 128) (l : Fin 256) :
    k0_pay8 (F := Ideal) v (ix2 r l) = v (ix3 (0 : Fin 1) r l) := by
  show extf (F := Ideal) .f32 (shapeCast S128x256 v shapeCasts_S1x128x256_S128x256) bitsLt_bf16_f32 (ix2 r l) = _
  rw [extf_apply]
  exact shapeCast_1ab_ab_apply v shapeCasts_S1x128x256_S128x256 r l

theorem pay9_apply (v : Vec Ideal S1x128x256 .bf16) (r : Fin 128) (l : Fin 256) :
    k0_pay9 (F := Ideal) v (ix2 r l) = v (ix3 (0 : Fin 1) r l) := by
  show extf (F := Ideal) .f32 (shapeCast S128x256 v shapeCasts_S1x128x256_S128x256) bitsLt_bf16_f32 (ix2 r l) = _
  rw [extf_apply]
  exact shapeCast_1ab_ab_apply v shapeCasts_S1x128x256_S128x256 r l

theorem pay10_apply (v : Vec Ideal S1x128x256 .bf16) (r : Fin 128) (l : Fin 256) :
    k0_pay10 (F := Ideal) v (ix2 r l) = v (ix3 (0 : Fin 1) r l) := by
  show extf (F := Ideal) .f32 (shapeCast S128x256 v shapeCasts_S1x128x256_S128x256) bitsLt_bf16_f32 (ix2 r l) = _
  rw [extf_apply]
  exact shapeCast_1ab_ab_apply v shapeCasts_S1x128x256_S128x256 r l

/-- info: 'Cert.KernelIdeal.Hand.pay2_apply' depends on axioms: [propext, Classical.choice, Quot.sound] -/
#guard_msgs in #print axioms pay2_apply

end Cert.KernelIdeal.Hand

end
-- ==== Proof.Reads.lean ====
/- Loads read at an index: a landing slot just written reads back the written payload; a tile of the device's block reads the
   block at the tile's offset plus the position inside it. -/
import proofs.«900737_g7700000000000738_dist_ar_v7x_xyz2x4x4_z_m512_n512_bf16_1_alg».proof.Proof.Data
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic
open Idealize.ShloMosaic.TcCoe
open Idealize.ShloMosaic.ValueIdx

variable {F : FTy → Type} [FloatOps F]
variable (c : Dev nD)

theorem ix3_zero_eq_cons (r : Fin 128) (l : Fin 256) :
    (ix3 (0 : Fin 1) r l : S1x128x256.Idx) = Fin.cons (⟨0, Nat.one_pos⟩ : Fin 1) (ix2 r l) := by
  funext a
  match a with
  | ⟨0, _⟩ => rfl
  | ⟨1, _⟩ => rfl
  | ⟨2, _⟩ => rfl

theorem read_slot3 (M : Memref sig .tc .vmem S3x128x256 .bf16) (off : Fin 3 → Nat)
    (h : ∀ a, off a + S1x128x256.size a ≤ S3x128x256.size a)
    (g : M.view.ty.Contents (Elt F)) (w : S128x256.Idx → Elt F .bf16) (r : Fin 128) (l : Fin 256) :
    M.view.readAt (Elt F) (Rect.unit (s := S3x128x256) off S1x128x256.size h).toLoadRect
      ((slot3 M off h).view.write (Elt F) g w Finset.univ) (ix3 (0 : Fin 1) r l) = w (ix2 r l) := by
  have h1 : (slot3 M off h).view.read (Elt F) ((slot3 M off h).view.write (Elt F) g w Finset.univ) = w :=
    View.read_write_univ (v := (slot3 M off h).view) g w
  rw [Memref.read_squeeze_slice M (Rect.unit (s := S3x128x256) off S1x128x256.size h) (fun _ => rfl)
    squeezes_S1x128x256_S128x256 shapeCasts_S1x128x256_S128x256] at h1
  have h2 := congrFun h1 (ix2 r l)
  rw [shapeCast_dropUnit_apply] at h2
  exact (congrArg (M.view.readAt (Elt F) (Rect.unit (s := S3x128x256) off S1x128x256.size h).toLoadRect
    ((slot3 M off h).view.write (Elt F) g w Finset.univ)) (ix3_zero_eq_cons r l)).trans h2

theorem read_slot4 (M : Memref sig .tc .vmem S4x128x256 .bf16) (off : Fin 3 → Nat)
    (h : ∀ a, off a + S1x128x256.size a ≤ S4x128x256.size a)
    (g : M.view.ty.Contents (Elt F)) (w : S128x256.Idx → Elt F .bf16) (r : Fin 128) (l : Fin 256) :
    M.view.readAt (Elt F) (Rect.unit (s := S4x128x256) off S1x128x256.size h).toLoadRect
      ((slot4 M off h).view.write (Elt F) g w Finset.univ) (ix3 (0 : Fin 1) r l) = w (ix2 r l) := by
  have h1 : (slot4 M off h).view.read (Elt F) ((slot4 M off h).view.write (Elt F) g w Finset.univ) = w :=
    View.read_write_univ (v := (slot4 M off h).view) g w
  rw [Memref.read_squeeze_slice M (Rect.unit (s := S4x128x256) off S1x128x256.size h) (fun _ => rfl)
    squeezes_S1x128x256_S128x256 shapeCasts_S1x128x256_S128x256] at h1
  have h2 := congrFun h1 (ix2 r l)
  rw [shapeCast_dropUnit_apply] at h2
  exact (congrArg (M.view.readAt (Elt F) (Rect.unit (s := S4x128x256) off S1x128x256.size h).toLoadRect
    ((slot4 M off h).view.write (Elt F) g w Finset.univ)) (ix3_zero_eq_cons r l)).trans h2

theorem read_sb_slot (off : Fin 3 → Nat) (h : ∀ a, off a + S1x128x256.size a ≤ S4x128x256.size a)
    (k : Nat) (hk : k < 4) (hoff : off = ![k, 0, 0])
    (f : (sbM : Memref sig .tc .vmem S4x128x256 .bf16).view.ty.Contents (Elt F)) (i : Fin 128) (l : Fin 256) :
    (slot4 sbM off h).view.read (Elt F) f (ix2 i l) = f (ix3 (⟨k, hk⟩ : Fin 4) i l) := by
  subst hoff
  have h1 := congrFun (Memref.read_squeeze_slice (Val := Elt F) sbM
    (Rect.unit (s := S4x128x256) ![k, 0, 0] S1x128x256.size h) (fun _ => rfl)
    squeezes_S1x128x256_S128x256 shapeCasts_S1x128x256_S128x256 f) (ix2 i l)
  rw [shapeCast_dropUnit_apply, View.readAt_apply] at h1
  have e : (sbM : Memref sig .tc .vmem S4x128x256 .bf16).view.read (Elt F) f = f := rfl
  rw [e] at h1
  refine h1.trans (congrArg f (funext fun a => Fin.ext ?_))
  match a with
  | ⟨0, _⟩ => show k + 1 * 0 = k; omega
  | ⟨1, _⟩ => show 0 + 1 * i.val = i.val; omega
  | ⟨2, _⟩ => show 0 + 1 * l.val = l.val; omega

theorem read_sbSrc (c : Dev nD) (r : Fin 3)
    (f : Buf (Elt F) ((sbM : Memref sig .tc .vmem S4x128x256 .bf16).view.loc (c : Thread nD τ))) (i : Fin 128) (l : Fin 256) :
    (sbSrc c r).view.read (Elt F) f (ix2 i l) = f (ix3 (⟨(c.val % 4 + 1 + r.val) % 4, by omega⟩ : Fin 4) i l) := by
  match r with
  | ⟨0, _⟩ =>
    have e : (c.val % 4 + 1) % 4 = (c.val % 4 + 1 + 0) % 4 := by omega
    exact read_sb_slot _ _ ((c.val % 4 + 1 + 0) % 4) (by omega) ((off2_eq1 c).trans (by rw [e])) f i l
  | ⟨1, _⟩ =>
    have e : (c.val % 4 + 2) % 4 = (c.val % 4 + 1 + 1) % 4 := by omega
    exact read_sb_slot _ _ ((c.val % 4 + 1 + 1) % 4) (by omega) ((off2_eq2 c).trans (by rw [e])) f i l
  | ⟨2, _⟩ =>
    have e : (c.val % 4 + 3) % 4 = (c.val % 4 + 1 + 2) % 4 := by omega
    exact read_sb_slot _ _ ((c.val % 4 + 1 + 2) % 4) (by omega) ((off2_eq3 c).trans (by rw [e])) f i l

theorem readAt_xM (off : Fin 2 → Nat) (n0 n1 : Nat) (inb : ∀ a, off a + (![n0, n1] : Fin 2 → Nat) a ≤ S512x512.size a)
    (o0 o1 : Nat) (hoff : off = ![o0, o1])
    (f : (cc0_stg0_0 : Ref sig .tc).ty.Contents (Elt F)) (i : Fin n0) (l : Fin n1)
    (h0 : o0 + i.val < 512) (h1 : o1 + l.val < 512) :
    (xM : Memref sig .tc .vmem S512x512 .f32).view.readAt (Elt F) (Rect.unit (s := S512x512) off ![n0, n1] inb).toLoadRect f (ix2 i l)
      = f (ix2 (⟨o0 + i.val, h0⟩ : Fin 512) (⟨o1 + l.val, h1⟩ : Fin 512)) := by
  subst hoff
  have e : (xM : Memref sig .tc .vmem S512x512 .f32).view.read (Elt F) f = f := rfl
  rw [View.readAt_apply, e]
  refine congrArg f (funext fun a => Fin.ext ?_)
  match a with
  | ⟨0, _⟩ => show o0 + 1 * i.val = o0 + i.val; omega
  | ⟨1, _⟩ => show o1 + 1 * l.val = o1 + l.val; omega

theorem read_half (c : Dev nD) (f : (cc0_stg0_0 : Ref sig .tc).ty.Contents (Elt F)) (i : Fin 512) (l : Fin 256) :
    (xM : Memref sig .tc .vmem S512x512 .f32).view.readAt (Elt F) (boxHalf c).toLoadRect f (ix2 i l)
      = f (ix2 i (⟨256 * (c.val / 16) + l.val, by have h : c.val < 32 := c.isLt; omega⟩ : Fin 512)) := by
  have hc : c.val < 32 := c.isLt
  have e := readAt_xM (k0_off1 c) 512 256 (k0_off1_inb c) 0 (256 * (c.val / 16)) (k0_off1_eq c) f i l
    (by have := i.isLt; omega) (by have := l.isLt; omega)
  refine e.trans (congrArg (fun t : Fin 512 => f (ix2 t (⟨256 * (c.val / 16) + l.val, by omega⟩ : Fin 512))) (Fin.ext ?_))
  show 0 + i.val = i.val
  omega

theorem read_own (c : Dev nD) (f : (cc0_stg0_0 : Ref sig .tc).ty.Contents (Elt F)) (i : Fin 128) (l : Fin 256) :
    (xM : Memref sig .tc .vmem S512x512 .f32).view.readAt (Elt F) (boxOwn c).toLoadRect f (ix2 i l)
      = f (ix2 (⟨128 * (c.val % 4) + i.val, by omega⟩ : Fin 512)
               (⟨256 * (c.val / 16) + l.val, by have h : c.val < 32 := c.isLt; omega⟩ : Fin 512)) := by
  have hc : c.val < 32 := c.isLt
  exact readAt_xM (k0_off3 c) 128 256 (k0_off3_inb c) (128 * (c.val % 4)) (256 * (c.val / 16)) (k0_off3_eq c) f i l
    (by have := i.isLt; omega) (by have := l.isLt; omega)

end Cert.KernelIdeal.Hand

end
-- ==== Proof.Value.lean ====
/- At the ideal instance every device's output is the sum of the four row blocks of the whole array. Tile (q, h) holds the
   reduced block of the device of the same y-plane with z = q and x = h; a reduced block at (i, j) is the sum, over the four
   devices of its z-ring, of their blocks at row 128 z + i, column 256 x + j; and the four devices of a z-ring hold the
   four row blocks of the whole array. -/
import proofs.«900737_g7700000000000738_dist_ar_v7x_xyz2x4x4_z_m512_n512_bf16_1_alg».proof.Proof.Tiles
import proofs.«900737_g7700000000000738_dist_ar_v7x_xyz2x4x4_z_m512_n512_bf16_1_alg».proof.Proof.PayIdx
import proofs.«900737_g7700000000000738_dist_ar_v7x_xyz2x4x4_z_m512_n512_bf16_1_alg».proof.Proof.Reads
import Idealize.ShloMosaic.Lib.ValueIdx
import Idealize.ShloMosaic.Lib.Pipeline.Value
import Mathlib.Algebra.BigOperators.Fin

noncomputable section

namespace Cert.KernelIdeal.Hand

open Cert.KernelIdeal Cert.KernelIdeal.Gen
open Idealize.ShloMosaic
open Idealize.ShloMosaic.TcCoe
open Idealize.ShloMosaic.ValueIdx
open scoped BigOperators

theorem ix2_congr {n0 n1 : Nat} {a a' : Fin n0} {b b' : Fin n1} (ha : a.val = a'.val) (hb : b.val = b'.val) :
    ix2 a b = ix2 a' b' := by
  rw [Fin.ext ha, Fin.ext hb]

theorem pr1_z : ∀ c : Dev nD, (pr 1 c).val % 4 = (c.val % 4 + 1) % 4 := by decide +kernel
theorem pr2_z : ∀ c : Dev nD, (pr 2 c).val % 4 = (c.val % 4 + 2) % 4 := by decide +kernel
theorem pr3_z : ∀ c : Dev nD, (pr 3 c).val % 4 = (c.val % 4 + 3) % 4 := by decide +kernel
theorem pr4_z : ∀ c : Dev nD, (pr 4 c).val % 4 = c.val % 4 := by decide +kernel
theorem pr5_z : ∀ c : Dev nD, (pr 5 c).val % 4 = (c.val % 4 + 1) % 4 := by decide +kernel
theorem pr6_z : ∀ c : Dev nD, (pr 6 c).val % 4 = (c.val % 4 + 2) % 4 := by decide +kernel
theorem pr7_z : ∀ c : Dev nD, (pr 7 c).val % 4 = (c.val % 4 + 3) % 4 := by decide +kernel
theorem pr1_x : ∀ c : Dev nD, (pr 1 c).val / 16 = c.val / 16 := by decide +kernel
theorem pr2_x : ∀ c : Dev nD, (pr 2 c).val / 16 = c.val / 16 := by decide +kernel
theorem pr3_x : ∀ c : Dev nD, (pr 3 c).val / 16 = c.val / 16 := by decide +kernel
theorem pr4_x : ∀ c : Dev nD, (pr 4 c).val / 16 = 1 - c.val / 16 := by decide +kernel
theorem pr5_x : ∀ c : Dev nD, (pr 5 c).val / 16 = 1 - c.val / 16 := by decide +kernel
theorem pr6_x : ∀ c : Dev nD, (pr 6 c).val / 16 = 1 - c.val / 16 := by decide +kernel
theorem pr7_x : ∀ c : Dev nD, (pr 7 c).val / 16 = 1 - c.val / 16 := by decide +kernel

theorem pr1_sb : ∀ d : Dev nD, ((pr 1 d).val % 4 + 1 + (2 : Fin 3).val) % 4 = d.val % 4 := by decide +kernel
theorem pr2_sb : ∀ d : Dev nD, ((pr 2 d).val % 4 + 1 + (1 : Fin 3).val) % 4 = d.val % 4 := by decide +kernel
theorem pr3_sb : ∀ d : Dev nD, ((pr 3 d).val % 4 + 1 + (0 : Fin 3).val) % 4 = d.val % 4 := by decide +kernel

section Landed
variable {F : FTy → Type} [FloatOps F]
variable (m : (ℓ : Loc nD τ sig) → Buf (Elt F) ℓ) (c : Dev nD) (i : Fin 128) (j : Fin 256)

theorem ag0_term : agLoad0 m c (ix3 (0 : Fin 1) i j) = rbuf m (pr 1 c) (ix2 i j) :=
  read_slot3 agM _ _ (m ((c : Thread nD τ).loc cc0_scratch3)) ((rbM : Memref sig .tc .vmem S128x256 .bf16).view.read (Elt F) (rbuf m (pr 1 c))) i j
theorem ag1_term : agLoad1 m c (ix3 (0 : Fin 1) i j) = rbuf m (pr 2 c) (ix2 i j) :=
  read_slot3 agM _ _ (m ((c : Thread nD τ).loc cc0_scratch3)) ((rbM : Memref sig .tc .vmem S128x256 .bf16).view.read (Elt F) (rbuf m (pr 2 c))) i j
theorem ag2_term : agLoad2 m c (ix3 (0 : Fin 1) i j) = rbuf m (pr 3 c) (ix2 i j) :=
  read_slot3 agM _ _ (m ((c : Thread nD τ).loc cc0_scratch3)) ((rbM : Memref sig .tc .vmem S128x256 .bf16).view.read (Elt F) (rbuf m (pr 3 c))) i j

theorem xg0_term : xgLoad0 m c (ix3 (0 : Fin 1) i j) = rbuf m (pr 4 c) (ix2 i j) :=
  read_slot4 xgM _ _ (m ((c : Thread nD τ).loc cc0_scratch4)) ((rbM : Memref sig .tc .vmem S128x256 .bf16).view.read (Elt F) (rbuf m (pr 4 c))) i j
theorem xg1_term : xgLoad1 m c (ix3 (0 : Fin 1) i j) = rbuf m (pr 5 c) (ix2 i j) :=
  read_slot4 xgM _ _ (m ((c : Thread nD τ).loc cc0_scratch4)) ((rbM : Memref sig .tc .vmem S128x256 .bf16).view.read (Elt F) (rbuf m (pr 5 c))) i j
theorem xg2_term : xgLoad2 m c (ix3 (0 : Fin 1) i j) = rbuf m (pr 6 c) (ix2 i j) :=
  read_slot4 xgM _ _ (m ((c : Thread nD τ).loc cc0_scratch4)) ((rbM : Memref sig .tc .vmem S128x256 .bf16).view.read (Elt F) (rbuf m (pr 6 c))) i j
theorem xg3_term : xgLoad3 m c (ix3 (0 : Fin 1) i j) = rbuf m (pr 7 c) (ix2 i j) :=
  read_slot4 xgM _ _ (m ((c : Thread nD τ).loc cc0_scratch4)) ((rbM : Memref sig .tc .vmem S128x256 .bf16).view.read (Elt F) (rbuf m (pr 7 c))) i j

end Landed

section AtIdeal
variable (m : (ℓ : Loc nD τ sig) → Buf (Elt Ideal) ℓ)

abbrev tIdx (d : Dev nD) (i : Fin 128) (j : Fin 256) : (⟨2, ![512, 512]⟩ : Shape).Idx :=
  ix2 (⟨128 * (d.val % 4) + i.val, by omega⟩ : Fin 512)
    (⟨256 * (d.val / 16) + j.val, by have h : d.val < 32 := d.isLt; omega⟩ : Fin 512)

abbrev xs (e : Dev nD) (y : (⟨2, ![512, 512]⟩ : Shape).Idx) : EReal := xstg m e y

theorem own_term (d : Dev nD) (i : Fin 128) (j : Fin 256) : (ownTile m d (ix2 i j) : EReal) = xs m d (tIdx d i j) :=
  read_own d (xstg m d) i j

/-- Chunk z(d) of the send buffer of a device e with d's x: e's block under position (i, j) of d's own chunk. -/
theorem sb_term (d e : Dev nD) (rr : Fin 3) (hz : (e.val % 4 + 1 + rr.val) % 4 = d.val % 4) (hx : e.val / 16 = d.val / 16)
    (i : Fin 128) (j : Fin 256) :
    ((sbSrc e rr).view.read (Elt Ideal) (sbuf m e) (ix2 i j) : EReal) = xs m e (tIdx d i j) := by
  have he : e.val < 32 := e.isLt
  refine (read_sbSrc e rr (sbuf m e) i j).trans ?_
  refine (pay1_apply ((xM : Memref sig .tc .vmem S512x512 .f32).view.readAt (Elt Ideal) (boxHalf e).toLoadRect (xstg m e))
    (⟨(e.val % 4 + 1 + rr.val) % 4, by omega⟩ : Fin 4) i j).trans ?_
  refine (read_half e (xstg m e) (⟨128 * ((e.val % 4 + 1 + rr.val) % 4) + i.val, by omega⟩ : Fin 512) j).trans ?_
  refine congrArg (xstg m e) (ix2_congr ?_ ?_)
  · show 128 * ((e.val % 4 + 1 + rr.val) % 4) + i.val = 128 * (d.val % 4) + i.val
    rw [hz]
  · show 256 * (e.val / 16) + j.val = 256 * (d.val / 16) + j.val
    rw [hx]

theorem rs0_term (d : Dev nD) (i : Fin 128) (j : Fin 256) :
    (rsLoad0 m d (ix3 (0 : Fin 1) i j) : EReal) = xs m (pr 1 d) (tIdx d i j) :=
  (read_slot3 rsM _ _ (m ((d : Thread nD τ).loc cc0_scratch1)) ((sbSrc (pr 1 d) 2).view.read (Elt Ideal) (sbuf m (pr 1 d))) i j).trans
    (sb_term m d (pr 1 d) 2 (pr1_sb d) (pr1_x d) i j)
theorem rs1_term (d : Dev nD) (i : Fin 128) (j : Fin 256) :
    (rsLoad1 m d (ix3 (0 : Fin 1) i j) : EReal) = xs m (pr 2 d) (tIdx d i j) :=
  (read_slot3 rsM _ _ (m ((d : Thread nD τ).loc cc0_scratch1)) ((sbSrc (pr 2 d) 1).view.read (Elt Ideal) (sbuf m (pr 2 d))) i j).trans
    (sb_term m d (pr 2 d) 1 (pr2_sb d) (pr2_x d) i j)
theorem rs2_term (d : Dev nD) (i : Fin 128) (j : Fin 256) :
    (rsLoad2 m d (ix3 (0 : Fin 1) i j) : EReal) = xs m (pr 3 d) (tIdx d i j) :=
  (read_slot3 rsM _ _ (m ((d : Thread nD τ).loc cc0_scratch1)) ((sbSrc (pr 3 d) 0).view.read (Elt Ideal) (sbuf m (pr 3 d))) i j).trans
    (sb_term m d (pr 3 d) 0 (pr3_sb d) (pr3_x d) i j)

/-- The reduced tile at (i, j): the sum over the device's z-ring of the blocks under that position of its own chunk. -/
theorem acc_apply (d : Dev nD) (i : Fin 128) (j : Fin 256) :
    (acc m d (ix2 i j) : EReal)
      = xs m d (tIdx d i j) + xs m (pr 1 d) (tIdx d i j) + xs m (pr 2 d) (tIdx d i j) + xs m (pr 3 d) (tIdx d i j) := by
  refine (pay2_apply (ownTile m d) (rsLoad0 m d) (rsLoad1 m d) (rsLoad2 m d) i j).trans ?_
  rw [own_term m d i j, rs0_term m d i j, rs1_term m d i j, rs2_term m d i j]

theorem rbuf_apply (d : Dev nD) (i : Fin 128) (j : Fin 256) :
    (rbuf m d (ix2 i j) : EReal)
      = xs m d (tIdx d i j) + xs m (pr 1 d) (tIdx d i j) + xs m (pr 2 d) (tIdx d i j) + xs m (pr 3 d) (tIdx d i j) := by
  refine (pay3_apply (ownTile m d) (rsLoad0 m d) (rsLoad1 m d) (rsLoad2 m d) i j).trans ?_
  rw [own_term m d i j, rs0_term m d i j, rs1_term m d i j, rs2_term m d i j]

end AtIdeal

/-- The residues z, z + 1, z + 2, z + 3 modulo 4 are 0, 1, 2, 3 in some order. -/
theorem sum_ring4 {M : Type} [AddCommMonoid M] (g : Fin 4 → M) (z : Nat) (hz : z < 4) :
    g ⟨z, hz⟩ + g ⟨(z + 1) % 4, Nat.mod_lt _ (by decide)⟩ + g ⟨(z + 2) % 4, Nat.mod_lt _ (by decide)⟩
        + g ⟨(z + 3) % 4, Nat.mod_lt _ (by decide)⟩ = ∑ k : Fin 4, g k := by
  rw [Fin.sum_univ_four]
  match z, hz with
  | 0, _ =>
    show g 0 + g 1 + g 2 + g 3 = g 0 + g 1 + g 2 + g 3
    rfl
  | 1, _ =>
    show g 1 + g 2 + g 3 + g 0 = g 0 + g 1 + g 2 + g 3
    ac_rfl
  | 2, _ =>
    show g 2 + g 3 + g 0 + g 1 = g 0 + g 1 + g 2 + g 3
    ac_rfl
  | 3, _ =>
    show g 3 + g 0 + g 1 + g 2 = g 0 + g 1 + g 2 + g 3
    ac_rfl

section Whole
variable (m : (ℓ : Loc nD τ sig) → Buf (Elt Ideal) ℓ) (X : (⟨2, ![2048, 512]⟩ : Shape).Idx → EReal)
variable (hblk : ∀ (e : Dev nD) (a : Fin 512) (b : Fin 512),
  (xstg m e (ix2 a b) : EReal) = X (ix2 (⟨512 * (e.val % 4) + a.val, by omega⟩ : Fin 2048) b))
include hblk

/-- The four blocks of a z-ring at one row and column are the four row blocks of the whole array there. -/
theorem ring_sum (d : Dev nD) (r l : Fin 512) :
    xs m d (ix2 r l) + xs m (pr 1 d) (ix2 r l) + xs m (pr 2 d) (ix2 r l) + xs m (pr 3 d) (ix2 r l)
      = ∑ k : Fin 4, X (ix2 (⟨512 * k.val + r.val, by have := k.isLt; omega⟩ : Fin 2048) l) := by
  have hz : d.val % 4 < 4 := Nat.mod_lt _ (by decide)
  have hb : ∀ e : Dev nD, xs m e (ix2 r l) = X (ix2 (⟨512 * (e.val % 4) + r.val, by omega⟩ : Fin 2048) l) := fun e => hblk e r l
  rw [hb d, hb (pr 1 d), hb (pr 2 d), hb (pr 3 d)]
  refine Eq.trans ?_ (sum_ring4 (fun k : Fin 4 => X (ix2 (⟨512 * k.val + r.val, by have := k.isLt; omega⟩ : Fin 2048) l)) (d.val % 4) hz)
  refine congrArg₂ (· + ·) (congrArg₂ (· + ·) (congrArg₂ (· + ·) rfl ?_) ?_) ?_
  · refine congrArg X (ix2_congr ?_ rfl)
    show 512 * ((pr 1 d).val % 4) + r.val = 512 * ((d.val % 4 + 1) % 4) + r.val
    rw [pr1_z]
  · refine congrArg X (ix2_congr ?_ rfl)
    show 512 * ((pr 2 d).val % 4) + r.val = 512 * ((d.val % 4 + 2) % 4) + r.val
    rw [pr2_z]
  · refine congrArg X (ix2_congr ?_ rfl)
    show 512 * ((pr 3 d).val % 4) + r.val = 512 * ((d.val % 4 + 3) % 4) + r.val
    rw [pr3_z]

theorem rbuf_X (d : Dev nD) (i : Fin 128) (j : Fin 256) (r l : Fin 512)
    (hr : r.val = 128 * (d.val % 4) + i.val) (hl : l.val = 256 * (d.val / 16) + j.val) :
    (rbuf m d (ix2 i j) : EReal) = ∑ k : Fin 4, X (ix2 (⟨512 * k.val + r.val, by have := k.isLt; omega⟩ : Fin 2048) l) := by
  have e : tIdx d i j = ix2 r l := ix2_congr hr.symm hl.symm
  rw [rbuf_apply, e]
  exact ring_sum m X hblk d r l

theorem acc_X (d : Dev nD) (i : Fin 128) (j : Fin 256) (r l : Fin 512)
    (hr : r.val = 128 * (d.val % 4) + i.val) (hl : l.val = 256 * (d.val / 16) + j.val) :
    (acc m d (ix2 i j) : EReal) = ∑ k : Fin 4, X (ix2 (⟨512 * k.val + r.val, by have := k.isLt; omega⟩ : Fin 2048) l) := by
  have e : tIdx d i j = ix2 r l := ix2_congr hr.symm hl.symm
  rw [acc_apply, e]
  exact ring_sum m X hblk d r l

/-- Every output element is the sum of the four row blocks of the whole array at its row and column. -/
theorem out_value (c : Dev nD) (r : Fin 512) (l : Fin 512) :
    (outAt m c (ix2 r l) : EReal) = ∑ k : Fin 4, X (ix2 (⟨512 * k.val + r.val, by have := k.isLt; omega⟩ : Fin 2048) l) := by
  have hc : c.val < 32 := c.isLt
  rcases cover8 c r l with ⟨i, j, hr, hl⟩ | ⟨i, j, hr, hl⟩ | ⟨i, j, hr, hl⟩ | ⟨i, j, hr, hl⟩ | ⟨i, j, hr, hl⟩
    | ⟨i, j, hr, hl⟩ | ⟨i, j, hr, hl⟩ | ⟨i, j, hr, hl⟩
  · refine (out_tile1 m c (m ((c : Thread nD τ).loc cc0_stg1_0)) r l i j hr hl).trans ?_
    exact acc_X m X hblk c i j r l hr hl
  · refine (out_tile2 m c (m ((c : Thread nD τ).loc cc0_stg1_0)) r l i j hr hl).trans ?_
    refine (pay4_apply (agLoad0 m c) i j).trans ?_
    refine (ag0_term m c i j).trans ?_
    exact rbuf_X m X hblk (pr 1 c) i j r l (by rw [pr1_z]; exact hr) (by rw [pr1_x]; exact hl)
  · refine (out_tile3 m c (m ((c : Thread nD τ).loc cc0_stg1_0)) r l i j hr hl).trans ?_
    refine (pay5_apply (agLoad1 m c) i j).trans ?_
    refine (ag1_term m c i j).trans ?_
    exact rbuf_X m X hblk (pr 2 c) i j r l (by rw [pr2_z]; exact hr) (by rw [pr2_x]; exact hl)
  · refine (out_tile4 m c (m ((c : Thread nD τ).loc cc0_stg1_0)) r l i j hr hl).trans ?_
    refine (pay6_apply (agLoad2 m c) i j).trans ?_
    refine (ag2_term m c i j).trans ?_
    exact rbuf_X m X hblk (pr 3 c) i j r l (by rw [pr3_z]; exact hr) (by rw [pr3_x]; exact hl)
  · refine (out_tile5 m c (m ((c : Thread nD τ).loc cc0_stg1_0)) r l i j hr hl).trans ?_
    refine (pay7_apply (xgLoad0 m c) i j).trans ?_
    refine (xg0_term m c i j).trans ?_
    exact rbuf_X m X hblk (pr 4 c) i j r l (by rw [pr4_z]; exact hr) (by rw [pr4_x]; omega)
  · refine (out_tile6 m c (m ((c : Thread nD τ).loc cc0_stg1_0)) r l i j hr hl).trans ?_
    refine (pay8_apply (xgLoad1 m c) i j).trans ?_
    refine (xg1_term m c i j).trans ?_
    exact rbuf_X m X hblk (pr 5 c) i j r l (by rw [pr5_z]; exact hr) (by rw [pr5_x]; omega)
  · refine (out_tile7 m c (m ((c : Thread nD τ).loc cc0_stg1_0)) r l i j hr hl).trans ?_
    refine (pay9_apply (xgLoad2 m c) i j).trans ?_
    refine (xg2_term m c i j).trans ?_
    exact rbuf_X m X hblk (pr 6 c) i j r l (by rw [pr6_z]; exact hr) (by rw [pr6_x]; omega)
  · refine (out_tile8 m c (m ((c : Thread nD τ).loc cc0_stg1_0)) r l i j hr hl).trans ?_
    refine (pay10_apply (xgLoad3 m c) i j).trans ?_
    refine (xg3_term m c i j).trans ?_
    exact rbuf_X m X hblk (pr 7 c) i j r l (by rw [pr7_z]; exact hr) (by rw [pr7_x]; omega)

end Whole

end Cert.KernelIdeal.Hand

end
-- ==== Proof.RefSum.lean ====
/- The reference reshapes the 2048 × 512 array to 4 × 512 × 512 and sums the leading axis: at (r, l) the sum over k of the whole
   array at (512 k + r, l). -/
import proofs.«900737_g7700000000000738_dist_ar_v7x_xyz2x4x4_z_m512_n512_bf16_1_alg».proof.Proof.Gen.ReferenceIdeal.Run
import proofs.«900737_g7700000000000738_dist_ar_v7x_xyz2x4x4_z_m512_n512_bf16_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal

open Cert.ReferenceIdeal.Read

theorem ref_apply (X : (⟨S2048x512, .f32⟩ : BufTy).Contents (Elt Ideal)) (r : Fin 512) (l : Fin 512) :
    val_main_v1 (F := Ideal) X (ix2 r l)
      = ∑ k : Fin 4, X (ix2 (⟨512 * k.val + r.val, by have := k.isLt; have := r.isLt; omega⟩ : Fin 2048) l) := by
  rw [val_main_v1_apply, val_main_cst_apply]
  rw [show (FloatOps.ofBits (F := Ideal) .f32 0x00000000#32 : EReal) = 0 from Ideal.ofBits_zero_f32, zero_add]
  refine Finset.sum_congr rfl fun k _ => ?_
  rw [val_main_v0_apply]
  refine congrArg X (funext fun a => Fin.ext ?_)
  have hk := k.isLt; have hr := r.isLt; have hl := l.isLt
  match a with
  | ⟨0, _⟩ => show ((k.val * 512 + r.val) * 512 + l.val) / 512 = 512 * k.val + r.val; omega
  | ⟨1, _⟩ => show ((k.val * 512 + r.val) * 512 + l.val) % 512 = l.val; omega

end Cert.ReferenceIdeal.RefValue

end
-- ==== Proof.ClaimIdeal.lean ====
/- The frames of the idealized kernel and of the reference are their runs with the results dropped. The algebraic claim: every
   device's result and the reference's are, at (r, l), the sum over the four row blocks k of the whole array at (512 k + r, l). -/
import proofs.«900737_g7700000000000738_dist_ar_v7x_xyz2x4x4_z_m512_n512_bf16_1_alg».proof.Defs
import proofs.«900737_g7700000000000738_dist_ar_v7x_xyz2x4x4_z_m512_n512_bf16_1_alg».proof.Proof.Launch
import proofs.«900737_g7700000000000738_dist_ar_v7x_xyz2x4x4_z_m512_n512_bf16_1_alg».proof.Proof.Final
import proofs.«900737_g7700000000000738_dist_ar_v7x_xyz2x4x4_z_m512_n512_bf16_1_alg».proof.Proof.Blocks
import proofs.«900737_g7700000000000738_dist_ar_v7x_xyz2x4x4_z_m512_n512_bf16_1_alg».proof.Proof.Value
import proofs.«900737_g7700000000000738_dist_ar_v7x_xyz2x4x4_z_m512_n512_bf16_1_alg».proof.Proof.RefSum
import proofs.«900737_g7700000000000738_dist_ar_v7x_xyz2x4x4_z_m512_n512_bf16_1_alg».proof.Proof.Gen.KernelIdeal
import proofs.«900737_g7700000000000738_dist_ar_v7x_xyz2x4x4_z_m512_n512_bf16_1_alg».proof.Proof.Gen.ReferenceIdeal
import proofs.«900737_g7700000000000738_dist_ar_v7x_xyz2x4x4_z_m512_n512_bf16_1_alg».proof.Proof.Gen.Pre_finite_inputs_Kernel
import proofs.«900737_g7700000000000738_dist_ar_v7x_xyz2x4x4_z_m512_n512_bf16_1_alg».proof.Proof.Gen.Pre_finite_inputs_ReferenceIdeal
import proofs.«900737_g7700000000000738_dist_ar_v7x_xyz2x4x4_z_m512_n512_bf16_1_alg».proof.Proof.Gen.ReferenceIdeal.Run
import proofs.«900737_g7700000000000738_dist_ar_v7x_xyz2x4x4_z_m512_n512_bf16_1_alg».proof.Proof.Gen.ReferenceIdeal.Read
import Idealize.ShloMosaic.Lib.ValueIdx

noncomputable section

namespace Cert.Proof.Assemble

open Idealize.ShloMosaic Idealize.SL.Sem Idealize.ShloMosaic.ValueIdx

theorem frame_ri : Cert.frame_ReferenceIdeal :=
  fun m ρ _ => (θ_run Cert.ReferenceIdeal.defs _ _).mono (fun _ h c => (h c).2)
    (Cert.ReferenceIdeal.Value.run (F := Ideal) m ρ)

theorem frame_ki : Cert.frame_KernelIdeal :=
  fun m ρ _ => (θ_run Cert.KernelIdeal.defs _ _).mono
    (fun r h c => (h c (0 : Fin 2)).trans (Cert.KernelIdeal.Hand.finalA_x m ρ c))
    (Cert.KernelIdeal.Hand.run_main (F := Ideal) m ρ)

theorem algebraic : Cert.algebraic_KernelIdeal_ReferenceIdeal := by
  intro m ρ m' ρ' _ hagree
  refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)),
    ?_, ?_⟩
  · refine (θ_run Cert.KernelIdeal.defs _ _).mono (fun r h c => ⟨?_, ?_⟩) (Cert.KernelIdeal.Hand.run_main (F := Ideal) m ρ)
    · refine (h c (1 : Fin 2)).trans ((Cert.KernelIdeal.Hand.finalA_out m ρ c).trans ?_)
      funext i
      obtain ⟨a, b, rfl⟩ : ∃ a b, i = ix2 a b := ⟨i 0, i 1, eq_ix2 i⟩
      exact (Cert.KernelIdeal.Hand.out_value m _ (Cert.KernelIdeal.Hand.hblk_of_agree m _ hagree) c a b).trans
        (Cert.ReferenceIdeal.RefValue.ref_apply _ a b).symm
    · exact (h c (0 : Fin 2)).trans (Cert.KernelIdeal.Hand.finalA_x m ρ c)
  · exact (θ_run Cert.ReferenceIdeal.defs _ _).mono (fun r h => ⟨(h 0).1, (h 0).2⟩)
      (Cert.ReferenceIdeal.Value.run (F := Ideal) m' ρ')

/-- info: 'Cert.Proof.Assemble.algebraic' depends on axioms: [propext, Classical.choice, Quot.sound] -/
#guard_msgs in #print axioms algebraic

end Cert.Proof.Assemble

end
-- ==== Proof.KMesh.lean ====
import proofs.«900737_g7700000000000738_dist_ar_v7x_xyz2x4x4_z_m512_n512_bf16_1_alg».proof.Proof.Gen.Kernel

set_option Elab.async false

namespace Cert.Kernel.Hand

open Idealize.ShloMosaic Cert.Kernel Cert.Kernel.Gen

def pr (a : Fin 8) (c : Dev nD) : Dev nD :=
  ⟨16 * ((c.val / 16 + a.val / 4) % 2) + 4 * ((c.val / 4) % 4) + (c.val % 4 + a.val % 4) % 4, by
    have h : c.val < 32 := c.isLt
    show _ < 32
    omega⟩

def inv (a : Fin 8) : Fin 8 := ⟨4 * (a.val / 4) + (4 - a.val % 4) % 4, by have := a.isLt; omega⟩

theorem pr_inv : ∀ (a : Fin 8) (c : Dev nD), pr (inv a) (pr a c) = c := by decide +kernel
theorem inv_pr : ∀ (a : Fin 8) (c : Dev nD), pr a (pr (inv a) c) = c := by decide +kernel

def prEquiv (a : Fin 8) : Dev nD ≃ Dev nD := ⟨pr a, pr (inv a), pr_inv a, inv_pr a⟩

theorem dev1_eq : ∀ c : Dev nD, (⟨k0_dev1 c, k0_dev1_lt c⟩ : Dev nD) = pr 1 c := by decide +kernel
theorem dev2_eq : ∀ c : Dev nD, (⟨k0_dev2 c, k0_dev2_lt c⟩ : Dev nD) = pr 2 c := by decide +kernel
theorem dev3_eq : ∀ c : Dev nD, (⟨k0_dev3 c, k0_dev3_lt c⟩ : Dev nD) = pr 3 c := by decide +kernel
theorem dev4_eq : ∀ c : Dev nD, (⟨k0_dev4 c, k0_dev4_lt c⟩ : Dev nD) = pr 5 c := by decide +kernel
theorem dev5_eq : ∀ c : Dev nD, (⟨k0_dev5 c, k0_dev5_lt c⟩ : Dev nD) = pr 6 c := by decide +kernel
theorem dev6_eq : ∀ c : Dev nD, (⟨k0_dev6 c, k0_dev6_lt c⟩ : Dev nD) = pr 7 c := by decide +kernel
theorem dev7_eq : ∀ c : Dev nD, (⟨k0_dev7 c, k0_dev7_lt c⟩ : Dev nD) = pr 4 c := by decide +kernel
theorem dev8_eq : ∀ c : Dev nD, (⟨k0_dev8 c, k0_dev8_lt c⟩ : Dev nD) = pr 1 c := by decide +kernel
theorem dev9_eq : ∀ c : Dev nD, (⟨k0_dev9 c, k0_dev9_lt c⟩ : Dev nD) = pr 2 c := by decide +kernel
theorem dev10_eq : ∀ c : Dev nD, (⟨k0_dev10 c, k0_dev10_lt c⟩ : Dev nD) = pr 3 c := by decide +kernel
theorem dev11_eq : ∀ c : Dev nD, (⟨k0_dev11 c, k0_dev11_lt c⟩ : Dev nD) = pr 4 c := by decide +kernel
theorem dev12_eq : ∀ c : Dev nD, (⟨k0_dev12 c, k0_dev12_lt c⟩ : Dev nD) = pr 1 c := by decide +kernel
theorem dev13_eq : ∀ c : Dev nD, (⟨k0_dev13 c, k0_dev13_lt c⟩ : Dev nD) = pr 5 c := by decide +kernel
theorem dev14_eq : ∀ c : Dev nD, (⟨k0_dev14 c, k0_dev14_lt c⟩ : Dev nD) = pr 2 c := by decide +kernel
theorem dev15_eq : ∀ c : Dev nD, (⟨k0_dev15 c, k0_dev15_lt c⟩ : Dev nD) = pr 6 c := by decide +kernel
theorem dev16_eq : ∀ c : Dev nD, (⟨k0_dev16 c, k0_dev16_lt c⟩ : Dev nD) = pr 3 c := by decide +kernel
theorem dev17_eq : ∀ c : Dev nD, (⟨k0_dev17 c, k0_dev17_lt c⟩ : Dev nD) = pr 7 c := by decide +kernel

theorem off2_eq1 : ∀ c : Dev nD, k0_off2 c 1#32 = ![(c.val % 4 + 1) % 4, 0, 0] := by decide +kernel
theorem off2_eq2 : ∀ c : Dev nD, k0_off2 c 2#32 = ![(c.val % 4 + 2) % 4, 0, 0] := by decide +kernel
theorem off2_eq3 : ∀ c : Dev nD, k0_off2 c 3#32 = ![(c.val % 4 + 3) % 4, 0, 0] := by decide +kernel
theorem off4_eq1 : ∀ c : Dev nD, k0_off4 c 1#32 = ![128 * ((c.val % 4 + 1) % 4), 256 * (c.val / 16)] := by decide +kernel
theorem off4_eq2 : ∀ c : Dev nD, k0_off4 c 2#32 = ![128 * ((c.val % 4 + 2) % 4), 256 * (c.val / 16)] := by decide +kernel
theorem off4_eq3 : ∀ c : Dev nD, k0_off4 c 3#32 = ![128 * ((c.val % 4 + 3) % 4), 256 * (c.val / 16)] := by decide +kernel
theorem off6_eq0 : ∀ c : Dev nD, k0_off6 c 0#32 = ![128 * ((c.val % 4 + 1) % 4), 256 - 256 * (c.val / 16)] := by decide +kernel
theorem off6_eq1 : ∀ c : Dev nD, k0_off6 c 1#32 = ![128 * ((c.val % 4 + 2) % 4), 256 - 256 * (c.val / 16)] := by decide +kernel
theorem off6_eq2 : ∀ c : Dev nD, k0_off6 c 2#32 = ![128 * ((c.val % 4 + 3) % 4), 256 - 256 * (c.val / 16)] := by decide +kernel

end Cert.Kernel.Hand
-- ==== Proof.KCells.lean ====
import proofs.«900737_g7700000000000738_dist_ar_v7x_xyz2x4x4_z_m512_n512_bf16_1_alg».proof.Proof.KMesh

noncomputable section

namespace Cert.Kernel.Hand

open Idealize.ShloMosaic Idealize.ShloMosaic.TcCoe Cert.Kernel Cert.Kernel.Gen

abbrev xM : Memref sig .tc .vmem S512x512 .f32 := Memref.whole cc0_stg0_0
abbrev oM : Memref sig .tc .vmem S512x512 .f32 := Memref.whole cc0_stg1_0
abbrev sbM : Memref sig .tc .vmem S4x128x256 .bf16 := Memref.whole cc0_scratch0
abbrev rsM : Memref sig .tc .vmem S3x128x256 .bf16 := Memref.whole cc0_scratch1
abbrev rbM : Memref sig .tc .vmem S128x256 .bf16 := Memref.whole cc0_scratch2
abbrev agM : Memref sig .tc .vmem S3x128x256 .bf16 := Memref.whole cc0_scratch3
abbrev xgM : Memref sig .tc .vmem S4x128x256 .bf16 := Memref.whole cc0_scratch4

abbrev slot3 (M : Memref sig .tc .vmem S3x128x256 .bf16) (off : Fin 3 → Nat) (h : ∀ a, off a + S1x128x256.size a ≤ S3x128x256.size a) :
    Memref sig .tc .vmem S128x256 .bf16 :=
  (M.slice (Rect.unit (s := S3x128x256) off S1x128x256.size h) (fun _ => rfl)).squeeze S128x256 squeezes_S1x128x256_S128x256

abbrev slot4 (M : Memref sig .tc .vmem S4x128x256 .bf16) (off : Fin 3 → Nat) (h : ∀ a, off a + S1x128x256.size a ≤ S4x128x256.size a) :
    Memref sig .tc .vmem S128x256 .bf16 :=
  (M.slice (Rect.unit (s := S4x128x256) off S1x128x256.size h) (fun _ => rfl)).squeeze S128x256 squeezes_S1x128x256_S128x256

abbrev rsSlot0 := slot3 rsM ![0, 0, 0] inb_S3x128x256_S1x128x256_0_0_0
abbrev rsSlot1 := slot3 rsM ![1, 0, 0] inb_S3x128x256_S1x128x256_1_0_0
abbrev rsSlot2 := slot3 rsM ![2, 0, 0] inb_S3x128x256_S1x128x256_2_0_0
abbrev agSlot0 := slot3 agM ![0, 0, 0] inb_S3x128x256_S1x128x256_0_0_0
abbrev agSlot1 := slot3 agM ![1, 0, 0] inb_S3x128x256_S1x128x256_1_0_0
abbrev agSlot2 := slot3 agM ![2, 0, 0] inb_S3x128x256_S1x128x256_2_0_0
abbrev xgSlot0 := slot4 xgM ![0, 0, 0] inb_S4x128x256_S1x128x256_0_0_0
abbrev xgSlot1 := slot4 xgM ![1, 0, 0] inb_S4x128x256_S1x128x256_1_0_0
abbrev xgSlot2 := slot4 xgM ![2, 0, 0] inb_S4x128x256_S1x128x256_2_0_0
abbrev xgSlot3 := slot4 xgM ![3, 0, 0] inb_S4x128x256_S1x128x256_3_0_0

abbrev sbSrc (c : Dev nD) (r : Fin 3) : Memref sig .tc .vmem S128x256 .bf16 :=
  slot4 sbM (k0_off2 c (BitVec.ofNat 32 (1 + r.val))) (k0_off2_inb c r)

abbrev sem3 (A : DmaSems sig S3) (off : Fin 1 → Nat) (h : ∀ a, off a + S1.size a ≤ S3.size a) : DmaSems sig S_ :=
  (A.slice (Rect.unit (s := S3) off S1.size h)).squeeze S_ squeezes_S1_S_
abbrev sem4 (A : DmaSems sig S4) (off : Fin 1 → Nat) (h : ∀ a, off a + S1.size a ≤ S4.size a) : DmaSems sig S_ :=
  (A.slice (Rect.unit (s := S4) off S1.size h)).squeeze S_ squeezes_S1_S_

abbrev rsSend0 := sem3 cc0_scratch5 ![0] inb_S3_S1_0
abbrev rsSend1 := sem3 cc0_scratch5 ![1] inb_S3_S1_1
abbrev rsSend2 := sem3 cc0_scratch5 ![2] inb_S3_S1_2
abbrev rsRecv0 := sem3 cc0_scratch6 ![0] inb_S3_S1_0
abbrev rsRecv1 := sem3 cc0_scratch6 ![1] inb_S3_S1_1
abbrev rsRecv2 := sem3 cc0_scratch6 ![2] inb_S3_S1_2
abbrev agSend0 := sem3 cc0_scratch7 ![0] inb_S3_S1_0
abbrev agSend1 := sem3 cc0_scratch7 ![1] inb_S3_S1_1
abbrev agSend2 := sem3 cc0_scratch7 ![2] inb_S3_S1_2
abbrev agRecv0 := sem3 cc0_scratch8 ![0] inb_S3_S1_0
abbrev agRecv1 := sem3 cc0_scratch8 ![1] inb_S3_S1_1
abbrev agRecv2 := sem3 cc0_scratch8 ![2] inb_S3_S1_2
abbrev xfSend0 := sem4 cc0_scratch9 ![0] inb_S4_S1_0
abbrev xfSend1 := sem4 cc0_scratch9 ![1] inb_S4_S1_1
abbrev xfSend2 := sem4 cc0_scratch9 ![2] inb_S4_S1_2
abbrev xfSend3 := sem4 cc0_scratch9 ![3] inb_S4_S1_3
abbrev xfRecv0 := sem4 cc0_scratch10 ![0] inb_S4_S1_0
abbrev xfRecv1 := sem4 cc0_scratch10 ![1] inb_S4_S1_1
abbrev xfRecv2 := sem4 cc0_scratch10 ![2] inb_S4_S1_2
abbrev xfRecv3 := sem4 cc0_scratch10 ![3] inb_S4_S1_3

abbrev barS : Sem sig := (SemArray.scalar (sig.barrier 0 rfl) : Sems sig S_).sem

abbrev barCell (c : Dev nD) : GSem nD τ sig := ((c : Thread nD τ), .reg barS)

abbrev dcell (c : Dev nD) (n : DmaSem sig) : GSem nD τ sig := ((c : Thread nD τ), .dma n)

abbrev osem : Fin 20 → SemLoc sig := fun k => .dma ⟨k.val + 2, by have := k.isLt; show _ < 22; omega⟩

abbrev N : ℕ := (rbM : Memref sig .tc .vmem S128x256 .bf16).view.dmaCredit
theorem N_pos : 0 < N := View.dmaCredit_pos _ (by decide)

end Cert.Kernel.Hand

end
-- ==== Proof.KData.lean ====
import proofs.«900737_g7700000000000738_dist_ar_v7x_xyz2x4x4_z_m512_n512_bf16_1_alg».proof.Proof.KCells
import proofs.«900737_g7700000000000738_dist_ar_v7x_xyz2x4x4_z_m512_n512_bf16_1_alg».proof.Proof.Gen.Kernel.Skeleton
import Idealize.ShloMosaic.Lib.Pipeline.Kit

noncomputable section

namespace Cert.Kernel.Hand

open Idealize.ShloMosaic Idealize.ShloMosaic.TcCoe Cert.Kernel Cert.Kernel.Gen

variable {F : FTy → Type} [FloatOps F]
variable (m : (ℓ : Loc nD τ sig) → Buf (Elt F) ℓ)

abbrev boxHalf (c : Dev nD) : Rect S512x512 := Rect.unit (s := S512x512) (k0_off1 c) S512x256.size (k0_off1_inb c)
abbrev boxOwn (c : Dev nD) : Rect S512x512 := Rect.unit (s := S512x512) (k0_off3 c) S128x256.size (k0_off3_inb c)
abbrev boxAg (c : Dev nD) (r : Fin 3) : Rect S512x512 := Rect.unit (s := S512x512) (k0_off4 c (BitVec.ofNat 32 (1 + r.val))) S128x256.size (k0_off4_inb c r)
abbrev boxX0 (c : Dev nD) : Rect S512x512 := Rect.unit (s := S512x512) (k0_off5 c) S128x256.size (k0_off5_inb c)
abbrev boxDg (c : Dev nD) (r : Fin 3) : Rect S512x512 := Rect.unit (s := S512x512) (k0_off6 c (BitVec.ofNat 32 r.val)) S128x256.size (k0_off6_inb c r)
abbrev box3_0 : Rect S3x128x256 := Rect.unit (s := S3x128x256) ![0, 0, 0] S1x128x256.size inb_S3x128x256_S1x128x256_0_0_0
abbrev box3_1 : Rect S3x128x256 := Rect.unit (s := S3x128x256) ![1, 0, 0] S1x128x256.size inb_S3x128x256_S1x128x256_1_0_0
abbrev box3_2 : Rect S3x128x256 := Rect.unit (s := S3x128x256) ![2, 0, 0] S1x128x256.size inb_S3x128x256_S1x128x256_2_0_0
abbrev box4_0 : Rect S4x128x256 := Rect.unit (s := S4x128x256) ![0, 0, 0] S1x128x256.size inb_S4x128x256_S1x128x256_0_0_0
abbrev box4_1 : Rect S4x128x256 := Rect.unit (s := S4x128x256) ![1, 0, 0] S1x128x256.size inb_S4x128x256_S1x128x256_1_0_0
abbrev box4_2 : Rect S4x128x256 := Rect.unit (s := S4x128x256) ![2, 0, 0] S1x128x256.size inb_S4x128x256_S1x128x256_2_0_0
abbrev box4_3 : Rect S4x128x256 := Rect.unit (s := S4x128x256) ![3, 0, 0] S1x128x256.size inb_S4x128x256_S1x128x256_3_0_0

def xstg (c : Dev nD) : (cc0_stg0_0 : Ref sig .tc).ty.Contents (Elt F) :=
  (win0_0.blk (0 : Fin 1)).view.read (Elt F) (m ((c : Thread nD τ).loc main_arg0))

def sbuf (c : Dev nD) : (cc0_scratch0 : Ref sig .tc).ty.Contents (Elt F) :=
  k0_pay1 ((xM : Memref sig .tc .vmem S512x512 .f32).view.readAt (Elt F) (boxHalf c).toLoadRect (xstg m c))

def rsLanded (c : Dev nD) : Fin 3 → Buf (Elt F) ((rsM : Memref sig .tc .vmem S3x128x256 .bf16).view.loc (c : Thread nD τ))
  | 0 => rsSlot0.view.write (Elt F) (m ((c : Thread nD τ).loc cc0_scratch1)) ((sbSrc (pr 1 c) 2).view.read (Elt F) (sbuf m (pr 1 c))) Finset.univ
  | 1 => rsSlot1.view.write (Elt F) (m ((c : Thread nD τ).loc cc0_scratch1)) ((sbSrc (pr 2 c) 1).view.read (Elt F) (sbuf m (pr 2 c))) Finset.univ
  | 2 => rsSlot2.view.write (Elt F) (m ((c : Thread nD τ).loc cc0_scratch1)) ((sbSrc (pr 3 c) 0).view.read (Elt F) (sbuf m (pr 3 c))) Finset.univ

def ownTile (c : Dev nD) : Vec F S128x256 .f32 :=
  (xM : Memref sig .tc .vmem S512x512 .f32).view.readAt (Elt F) (boxOwn c).toLoadRect (xstg m c)
def rsLoad0 (c : Dev nD) : Vec F S1x128x256 .bf16 := (rsM : Memref sig .tc .vmem S3x128x256 .bf16).view.readAt (Elt F) box3_0.toLoadRect (rsLanded m c 0)
def rsLoad1 (c : Dev nD) : Vec F S1x128x256 .bf16 := (rsM : Memref sig .tc .vmem S3x128x256 .bf16).view.readAt (Elt F) box3_1.toLoadRect (rsLanded m c 1)
def rsLoad2 (c : Dev nD) : Vec F S1x128x256 .bf16 := (rsM : Memref sig .tc .vmem S3x128x256 .bf16).view.readAt (Elt F) box3_2.toLoadRect (rsLanded m c 2)

def acc (c : Dev nD) : FVec F S128x256 .f32 := k0_pay2 (ownTile m c) (rsLoad0 m c) (rsLoad1 m c) (rsLoad2 m c)

def rbuf (c : Dev nD) : (cc0_scratch2 : Ref sig .tc).ty.Contents (Elt F) := k0_pay3 (ownTile m c) (rsLoad0 m c) (rsLoad1 m c) (rsLoad2 m c)

def agLanded (c : Dev nD) : Fin 3 → Buf (Elt F) ((agM : Memref sig .tc .vmem S3x128x256 .bf16).view.loc (c : Thread nD τ))
  | 0 => agSlot0.view.write (Elt F) (m ((c : Thread nD τ).loc cc0_scratch3)) ((rbM : Memref sig .tc .vmem S128x256 .bf16).view.read (Elt F) (rbuf m (pr 1 c))) Finset.univ
  | 1 => agSlot1.view.write (Elt F) (m ((c : Thread nD τ).loc cc0_scratch3)) ((rbM : Memref sig .tc .vmem S128x256 .bf16).view.read (Elt F) (rbuf m (pr 2 c))) Finset.univ
  | 2 => agSlot2.view.write (Elt F) (m ((c : Thread nD τ).loc cc0_scratch3)) ((rbM : Memref sig .tc .vmem S128x256 .bf16).view.read (Elt F) (rbuf m (pr 3 c))) Finset.univ

def xgLanded (c : Dev nD) : Fin 4 → Buf (Elt F) ((xgM : Memref sig .tc .vmem S4x128x256 .bf16).view.loc (c : Thread nD τ))
  | 0 => xgSlot0.view.write (Elt F) (m ((c : Thread nD τ).loc cc0_scratch4)) ((rbM : Memref sig .tc .vmem S128x256 .bf16).view.read (Elt F) (rbuf m (pr 4 c))) Finset.univ
  | 1 => xgSlot1.view.write (Elt F) (m ((c : Thread nD τ).loc cc0_scratch4)) ((rbM : Memref sig .tc .vmem S128x256 .bf16).view.read (Elt F) (rbuf m (pr 5 c))) Finset.univ
  | 2 => xgSlot2.view.write (Elt F) (m ((c : Thread nD τ).loc cc0_scratch4)) ((rbM : Memref sig .tc .vmem S128x256 .bf16).view.read (Elt F) (rbuf m (pr 6 c))) Finset.univ
  | 3 => xgSlot3.view.write (Elt F) (m ((c : Thread nD τ).loc cc0_scratch4)) ((rbM : Memref sig .tc .vmem S128x256 .bf16).view.read (Elt F) (rbuf m (pr 7 c))) Finset.univ

def agLoad0 (c : Dev nD) : Vec F S1x128x256 .bf16 := (agM : Memref sig .tc .vmem S3x128x256 .bf16).view.readAt (Elt F) box3_0.toLoadRect (agLanded m c 0)
def agLoad1 (c : Dev nD) : Vec F S1x128x256 .bf16 := (agM : Memref sig .tc .vmem S3x128x256 .bf16).view.readAt (Elt F) box3_1.toLoadRect (agLanded m c 1)
def agLoad2 (c : Dev nD) : Vec F S1x128x256 .bf16 := (agM : Memref sig .tc .vmem S3x128x256 .bf16).view.readAt (Elt F) box3_2.toLoadRect (agLanded m c 2)
def xgLoad0 (c : Dev nD) : Vec F S1x128x256 .bf16 := (xgM : Memref sig .tc .vmem S4x128x256 .bf16).view.readAt (Elt F) box4_0.toLoadRect (xgLanded m c 0)
def xgLoad1 (c : Dev nD) : Vec F S1x128x256 .bf16 := (xgM : Memref sig .tc .vmem S4x128x256 .bf16).view.readAt (Elt F) box4_1.toLoadRect (xgLanded m c 1)
def xgLoad2 (c : Dev nD) : Vec F S1x128x256 .bf16 := (xgM : Memref sig .tc .vmem S4x128x256 .bf16).view.readAt (Elt F) box4_2.toLoadRect (xgLanded m c 2)
def xgLoad3 (c : Dev nD) : Vec F S1x128x256 .bf16 := (xgM : Memref sig .tc .vmem S4x128x256 .bf16).view.readAt (Elt F) box4_3.toLoadRect (xgLanded m c 3)

def outFrom (c : Dev nD) (d : (cc0_stg1_0 : Ref sig .tc).ty.Contents (Elt F)) : (cc0_stg1_0 : Ref sig .tc).ty.Contents (Elt F) :=
  let o1 := ((oM : Memref sig .tc .vmem S512x512 .f32).access (boxOwn c) : View sig .tc _ _ _).write (Elt F) d (acc m c) Finset.univ
  let o2 := ((oM : Memref sig .tc .vmem S512x512 .f32).access (boxAg c 0) : View sig .tc _ _ _).write (Elt F) o1 (k0_pay4 (agLoad0 m c)) Finset.univ
  let o3 := ((oM : Memref sig .tc .vmem S512x512 .f32).access (boxAg c 1) : View sig .tc _ _ _).write (Elt F) o2 (k0_pay5 (agLoad1 m c)) Finset.univ
  let o4 := ((oM : Memref sig .tc .vmem S512x512 .f32).access (boxAg c 2) : View sig .tc _ _ _).write (Elt F) o3 (k0_pay6 (agLoad2 m c)) Finset.univ
  let o5 := ((oM : Memref sig .tc .vmem S512x512 .f32).access (boxX0 c) : View sig .tc _ _ _).write (Elt F) o4 (k0_pay7 (xgLoad0 m c)) Finset.univ
  let o6 := ((oM : Memref sig .tc .vmem S512x512 .f32).access (boxDg c 0) : View sig .tc _ _ _).write (Elt F) o5 (k0_pay8 (xgLoad1 m c)) Finset.univ
  let o7 := ((oM : Memref sig .tc .vmem S512x512 .f32).access (boxDg c 1) : View sig .tc _ _ _).write (Elt F) o6 (k0_pay9 (xgLoad2 m c)) Finset.univ
  ((oM : Memref sig .tc .vmem S512x512 .f32).access (boxDg c 2) : View sig .tc _ _ _).write (Elt F) o7 (k0_pay10 (xgLoad3 m c)) Finset.univ

def outAt (c : Dev nD) : (cc0_stg1_0 : Ref sig .tc).ty.Contents (Elt F) := outFrom m c (m ((c : Thread nD τ).loc cc0_stg1_0))

end Cert.Kernel.Hand

end
-- ==== Proof.KSched.lean ====
import proofs.«900737_g7700000000000738_dist_ar_v7x_xyz2x4x4_z_m512_n512_bf16_1_alg».proof.Proof.KData
import Idealize.ShloMosaic.Lib.Pipeline.Launch
import Idealize.ShloMosaic.Lib.Pipeline.Kit
import Idealize.ShloMosaic.Lib.Transfers
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev pts (c : Dev nD) (M : Memref sig .tc .vmem S128x256 .bf16) (q : PosShare TreeShare)
    (f : Buf (Elt F) (M.view.loc (c : Thread nD τ))) : sProp 𝕄 :=
  M.view.loc (c : Thread nD τ) ↦[M.view.set]{q} f

abbrev anyPts (c : Dev nD) (M : Memref sig .tc .vmem S128x256 .bf16) : sProp 𝕄 :=
  iprop(∃ f : Buf (Elt F) (M.view.loc (c : Thread nD τ)), M.view.loc (c : Thread nD τ) ↦[M.view.set]{fullShare} f)

abbrev shSb (r : Fin 3) : PosShare TreeShare := Transfers.shareTok fullShare 3 r
abbrev shRb (t : Fin 7) : PosShare TreeShare := Transfers.shareTok fullShare 7 t

def sh : Fin 7 → Fin 8 := ![1, 2, 3, 5, 6, 7, 4]
def shInv : Fin 7 → Fin 8 := ![3, 2, 1, 7, 6, 5, 4]
theorem shInv_eq : ∀ j : Fin 7, shInv j = inv (sh j) := by decide

def barGive (p : Dev nD) : Fin 7 → sProp 𝕄
  | 0 => iprop(anyPts p rsSlot0 ∗ anyPts p agSlot0)
  | 1 => iprop(anyPts p rsSlot1 ∗ anyPts p agSlot1)
  | 2 => iprop(anyPts p rsSlot2 ∗ anyPts p agSlot2)
  | 3 => anyPts p xgSlot1
  | 4 => anyPts p xgSlot2
  | 5 => anyPts p xgSlot3
  | 6 => anyPts p xgSlot0

def barPay (c : Dev nD) (j : Fin 7) : sProp 𝕄 := barGive (F := F) (pr (shInv j) c) j

def dmaPay (c : Dev nD) (n : DmaSem sig) : sProp 𝕄 :=
  match n.val with
  | 2 => pts c (sbSrc c 0) (shSb 0) (sbuf m c)
  | 3 => pts c (sbSrc c 1) (shSb 1) (sbuf m c)
  | 4 => pts c (sbSrc c 2) (shSb 2) (sbuf m c)
  | 5 => pts c rsSlot0 fullShare (rsLanded m c 0)
  | 6 => pts c rsSlot1 fullShare (rsLanded m c 1)
  | 7 => pts c rsSlot2 fullShare (rsLanded m c 2)
  | 8 => pts c rbM (shRb 0) (rbuf m c)
  | 9 => pts c rbM (shRb 1) (rbuf m c)
  | 10 => pts c rbM (shRb 2) (rbuf m c)
  | 11 => pts c agSlot0 fullShare (agLanded m c 0)
  | 12 => pts c agSlot1 fullShare (agLanded m c 1)
  | 13 => pts c agSlot2 fullShare (agLanded m c 2)
  | 14 => pts c rbM (shRb 3) (rbuf m c)
  | 15 => pts c rbM (shRb 4) (rbuf m c)
  | 16 => pts c rbM (shRb 5) (rbuf m c)
  | 17 => pts c rbM (shRb 6) (rbuf m c)
  | 18 => pts c xgSlot0 fullShare (xgLanded m c 0)
  | 19 => pts c xgSlot1 fullShare (xgLanded m c 1)
  | 20 => pts c xgSlot2 fullShare (xgLanded m c 2)
  | 21 => pts c xgSlot3 fullShare (xgLanded m c 3)
  | _ => iprop(emp)

def Rd : Rounds.Schedule (GSem nD τ sig) (Fin 7) 𝕄 where
  duties g r :=
    if r = 0 ∧ g.1.2 = .tc then
      (match g.2 with
        | .reg _ => Finset.univ
        | .dma _ => {0})
    else ∅
  unitless _ := False
  amount g _ _ := match g.2 with | .reg _ => 1 | .dma _ => N
  payload g _ d := match g.2 with | .reg _ => barPay g.1.1 d | .dma n => dmaPay m g.1.1 n
  amount_pos g _ _ _ := by
    cases g.2 with
    | reg _ => exact Nat.one_pos
    | dma _ => exact N_pos

instance barGive_storable (p : Dev nD) (j : Fin 7) : BI.Storable (upEmb : UEmb _ 𝕄) (barGive (F := F) p j) := by
  fin_cases j <;> (unfold barGive; infer_instance)

instance dmaPay_storable (c : Dev nD) (n : DmaSem sig) : BI.Storable (upEmb : UEmb _ 𝕄) (dmaPay m c n) := by
  unfold dmaPay; split <;> infer_instance

instance Rd_payload_storable (g : GSem nD τ sig) (r : ℕ) (d : Fin 7) :
    BI.Storable (upEmb : UEmb _ 𝕄) ((Rd (F := F) m).payload g r d) := by
  show BI.Storable upEmb (match g.2 with | .reg _ => barPay g.1.1 d | .dma n => dmaPay m g.1.1 n)
  cases g.2 with
  | reg _ => exact barGive_storable _ _
  | dma n => exact dmaPay_storable m _ n

section Tables
variable (c : Dev nD)

theorem duties_bar : (Rd (F := F) m).duties (barCell c) 0 = Finset.univ := by
  dsimp only [Rd]; rw [if_pos ⟨rfl, rfl⟩]
theorem duties_dma (n : DmaSem sig) : (Rd (F := F) m).duties (dcell c n) 0 = {0} := by
  dsimp only [Rd]; rw [if_pos ⟨rfl, rfl⟩]
theorem duties_later (g : GSem nD τ sig) : ∀ r, 1 ≤ r → (Rd (F := F) m).duties g r = ∅ :=
  fun r hr => by dsimp only [Rd]; exact if_neg fun h => by omega

theorem amount_bar (d : Fin 7) : (Rd (F := F) m).amount (barCell c) 0 d = 1 := rfl
theorem amount_dma (n : DmaSem sig) (d : Fin 7) : (Rd (F := F) m).amount (dcell c n) 0 d = N := rfl

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_dma (n : DmaSem sig) : (Rd (F := F) m).expect (dcell c n) 0 = N := by
  unfold Schedule.expect Schedule.amountOf; rw [duties_dma m c n, Finset.sum_singleton, amount_dma]

theorem payload_bar_from (p : Dev nD) (j : Fin 7) : (Rd (F := F) m).payload (barCell (pr (sh j) p)) 0 j = barGive p j := by
  show barGive (pr (shInv j) (pr (sh j) p)) j = barGive p j
  rw [shInv_eq, pr_inv]
end Tables

/-- A separating conjunction over a small index type, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
theorem bigSep_fin21 (Φ : Fin 21 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

end Cert.Kernel.Hand

end
-- ==== Proof.KOwed.lean ====
import proofs.«900737_g7700000000000738_dist_ar_v7x_xyz2x4x4_z_m512_n512_bf16_1_alg».proof.Proof.KSched

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def sites (c : Dev nD) : List (GSem nD τ sig × ℕ) :=
  [ (barCell (pr 1 c), 1), (barCell (pr 2 c), 1), (barCell (pr 3 c), 1), (barCell (pr 5 c), 1), (barCell (pr 6 c), 1),
    (barCell (pr 7 c), 1), (barCell (pr 4 c), 1),
    (dcell (pr 1 c) 7, N), (dcell (pr 2 c) 6, N), (dcell (pr 3 c) 5, N),
    (dcell (pr 4 c) 18, N),
    (dcell (pr 1 c) 13, N), (dcell (pr 5 c) 21, N),
    (dcell (pr 2 c) 12, N), (dcell (pr 6 c) 20, N),
    (dcell (pr 3 c) 11, N), (dcell (pr 7 c) 19, N) ]

def owedFrom : List (GSem nD τ sig × ℕ) → CellTallies nD τ sig Unit
  | [] => 0
  | s :: rest => owedFrom rest + tallyAt s.1 () s.2

def Oafter (c : Dev nD) (k : ℕ) : CellTallies nD τ sig Unit := owedFrom ((sites c).drop k)
def O₀ (c : Dev nD) : CellTallies nD τ sig Unit := Oafter c 0

theorem owedFrom_pos {l : List (GSem nD τ sig × ℕ)} {g : GSem nD τ sig} {u : Unit} (h : 0 < owedFrom l g u) : ∃ s ∈ l, g = s.1 := by
  induction l with
  | nil => exact absurd h (by simp [owedFrom])
  | cons s rest ih =>
    rcases Pipeline.add_pos_cases (D₁ := owedFrom rest) (D₂ := tallyAt s.1 () s.2) h with h1 | h2
    · obtain ⟨s', hs', rfl⟩ := ih h1
      exact ⟨s', List.mem_cons_of_mem _ hs', rfl⟩
    · exact ⟨s, List.mem_cons_self, (Pipeline.tallyAt_pos h2).1⟩

def L (g : GSem nD τ sig) : Finset Unit := if g.1.2 = .tc then {()} else ∅
def lv (g : GSem nD τ sig) (_ : Unit) : ℕ :=
  match g.2 with
  | .reg _ => 1
  | .dma n => if 5 ≤ n.val ∧ n.val ≤ 7 then 2 else if (11 ≤ n.val ∧ n.val ≤ 13) ∨ 18 ≤ n.val then 3 else 0

theorem L_of_ne (g : GSem nD τ sig) (h : g.1.2 ≠ .tc) : L g = ∅ := if_neg h
theorem L_tc (c : Dev nD) (sm : SemLoc sig) : L ((c : Thread nD τ), sm) = {()} := if_pos rfl

/-- Along the list the levels only rise: from the seventh debt on at least 2, from the tenth on 3. -/
theorem sites_lv (c : Dev nD) (k : ℕ) (s : GSem nD τ sig × ℕ) (hs : s ∈ (sites c).drop k) :
    s.1.1.2 = .tc ∧ 1 ≤ lv s.1 () ∧ (7 ≤ k → 2 ≤ lv s.1 ()) ∧ (10 ≤ k → 3 ≤ lv s.1 ()) := by
  obtain ⟨j, hm, rfl⟩ := List.mem_drop_iff_getElem.mp hs
  have key : ∀ (p : ℕ) (hp : p < (sites c).length),
      ((sites c)[p]).1.1.2 = .tc ∧ 1 ≤ lv ((sites c)[p]).1 () ∧ (7 ≤ p → 2 ≤ lv ((sites c)[p]).1 ())
        ∧ (10 ≤ p → 3 ≤ lv ((sites c)[p]).1 ()) := by
    intro p hp
    have hp' : p < 17 := hp
    have hcases : p = 0 ∨ p = 1 ∨ p = 2 ∨ p = 3 ∨ p = 4 ∨ p = 5 ∨ p = 6 ∨ p = 7 ∨ p = 8 ∨ p = 9 ∨ p = 10 ∨ p = 11 ∨ p = 12 ∨ p = 13 ∨ p = 14 ∨ p = 15 ∨ p = 16 := by omega
    rcases hcases with rfl | rfl | rfl | rfl | rfl | rfl | rfl | rfl | rfl | rfl | rfl | rfl | rfl | rfl | rfl | rfl | rfl
    all_goals first
      | exact ⟨rfl, Nat.le_refl 1, fun h => absurd h (by omega), fun h => absurd h (by omega)⟩
      | exact ⟨rfl, (by omega : 1 ≤ 2), fun _ => Nat.le_refl 2, fun h => absurd h (by omega)⟩
      | exact ⟨rfl, (by omega : 1 ≤ 3), fun _ => (by omega : 2 ≤ 3), fun _ => Nat.le_refl 3⟩
  obtain ⟨h1, h2, h3, h4⟩ := key (k + j) (by omega)
  exact ⟨h1, h2, fun h => h3 (by omega), fun h => h4 (by omega)⟩

/-- A wait is allowed on a cell whose level is below that of every cell still owed. -/
theorem mayWait_tail (c : Dev nD) (sm : SemLoc sig) (k : ℕ) (h : ∀ s ∈ (sites c).drop k, lv ((c : Thread nD τ), sm) () < lv s.1 ()) :
    (levAts L lv : sProp 𝕄) ⊢ MayWait (c : Thread nD τ) sm () (Oafter c k) := by
  refine Pipeline.mayWait_of_levAts (hι := ?_) ?_
  · rw [L_tc]; exact Finset.mem_singleton_self _
  · intro g i hpos
    obtain ⟨s, hs, rfl⟩ := owedFrom_pos hpos
    refine ⟨?_, h s hs⟩
    unfold L
    rw [if_pos (sites_lv c k s hs).1]
    exact Finset.mem_singleton_self _

theorem mayWait_bar (c : Dev nD) : (levAts L lv : sProp 𝕄) ⊢ MayWait (c : Thread nD τ) (.reg barS) () (Oafter c 7) := by
  refine mayWait_tail c (.reg barS) 7 fun s hs => ?_
  have h2 : 2 ≤ lv s.1 () := (sites_lv c 7 s hs).2.2.1 (Nat.le_refl 7)
  show 1 < lv s.1 ()
  exact h2

theorem mayWait_rs (c : Dev nD) (n : DmaSem sig) (hn : 5 ≤ n.val ∧ n.val ≤ 7) :
    (levAts L lv : sProp 𝕄) ⊢ MayWait (c : Thread nD τ) (.dma n) () (Oafter c 10) := by
  refine mayWait_tail c (.dma n) 10 fun s hs => ?_
  have h3 : 3 ≤ lv s.1 () := (sites_lv c 10 s hs).2.2.2 (Nat.le_refl 10)
  have h0 : lv ((c : Thread nD τ), SemLoc.dma n) () = 2 := by
    show (if 5 ≤ n.val ∧ n.val ≤ 7 then 2 else if (11 ≤ n.val ∧ n.val ≤ 13) ∨ 18 ≤ n.val then 3 else 0) = 2
    rw [if_pos hn]
  rw [h0]
  exact h3

theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  have h0 : lv ((c : Thread nD τ), SemLoc.dma q) () = 0 := by
    show (if 5 ≤ q.val ∧ q.val ≤ 7 then 2 else if (11 ≤ q.val ∧ q.val ≤ 13) ∨ 18 ≤ q.val then 3 else 0) = 0
    rw [if_neg (by omega), if_neg (by omega)]
  rcases hO with rfl | rfl
  · refine mayWait_tail c (.dma q) 0 fun s hs => ?_
    have h1 : 1 ≤ lv s.1 () := (sites_lv c 0 s hs).2.1
    rw [h0]
    exact h1
  · refine Pipeline.mayWait_of_levAts (hι := ?_) ?_
    · rw [L_tc]; exact Finset.mem_singleton_self _
    · intro g i hpos
      exact absurd hpos (Nat.lt_irrefl 0)

/-- info: 'Cert.Kernel.Hand.mayWait_bar' depends on axioms: [propext, Classical.choice, Quot.sound] -/
#guard_msgs in #print axioms mayWait_bar

end Cert.Kernel.Hand

end
-- ==== Proof.KGhost.lean ====
import proofs.«900737_g7700000000000738_dist_ar_v7x_xyz2x4x4_z_m512_n512_bf16_1_alg».proof.Proof.KOwed
import proofs.«900737_g7700000000000738_dist_ar_v7x_xyz2x4x4_z_m512_n512_bf16_1_alg».proof.Proof.Gen.Kernel.Launch
import proofs.«900737_g7700000000000738_dist_ar_v7x_xyz2x4x4_z_m512_n512_bf16_1_alg».proof.Proof.Gen.Kernel.Points

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev csem : Fin 21 → SemLoc sig
  | ⟨0, _⟩ => .reg barS
  | ⟨k + 1, h⟩ => .dma ⟨k + 2, by show k + 2 < 22; omega⟩
abbrev kcell (ck : Dev nD × Fin 21) : GSem nD τ sig := ((ck.1 : Thread nD τ), csem ck.2)

def records (K : Dev nD × Fin 21 → ℕ) : sProp 𝕄 :=
  iprop((bigSep Finset.univ fun ck : Dev nD × Fin 21 => cellInv ER (Rd m) (K ck) (kcell ck))
    ∗ bigSep Finset.univ fun ck : Dev nD × Fin 21 => reached ER (kcell ck) 0)

instance records_persistent (K : Dev nD × Fin 21 → ℕ) : BI.Persistent (records m K) := by unfold records; infer_instance

/-- A cell's invariant and its reached round out of the records, the cell named as the program names it. -/
theorem inv_at (K : Dev nD × Fin 21 → ℕ) (ck : Dev nD × Fin 21) (g : GSem nD τ sig) (h : kcell ck = g) :
    (bigSep Finset.univ fun ck : Dev nD × Fin 21 => (cellInv ER (Rd m) (K ck) (kcell ck) : sProp 𝕄)) ⊢ cellInv ER (Rd m) (K ck) g := by
  subst h; exact bigSep_elim (Finset.mem_univ ck)
theorem reached_at (ck : Dev nD × Fin 21) (g : GSem nD τ sig) (h : kcell ck = g) :
    (bigSep Finset.univ fun ck : Dev nD × Fin 21 => (reached ER (kcell ck) 0 : sProp 𝕄)) ⊢ reached ER g 0 := by
  subst h; exact bigSep_elim (Finset.mem_univ ck)

def positions (c : Dev nD) : sProp 𝕄 := bigSep Finset.univ fun k : Fin 21 => atPos ER (kcell (c, k)) 0 ∅ 0

def payToks (c : Dev nD) : sProp 𝕄 :=
  iprop(dutyTok ER (barCell (pr 1 c)) 0 (0 : Fin 7) ∗ dutyTok ER (barCell (pr 2 c)) 0 (1 : Fin 7) ∗ dutyTok ER (barCell (pr 3 c)) 0 (2 : Fin 7)
    ∗ dutyTok ER (barCell (pr 5 c)) 0 (3 : Fin 7) ∗ dutyTok ER (barCell (pr 6 c)) 0 (4 : Fin 7) ∗ dutyTok ER (barCell (pr 7 c)) 0 (5 : Fin 7)
    ∗ dutyTok ER (barCell (pr 4 c)) 0 (6 : Fin 7)
    ∗ dutyTok ER (dcell (pr 1 c) 7) 0 (0 : Fin 7) ∗ dutyTok ER (dcell (pr 2 c) 6) 0 (0 : Fin 7) ∗ dutyTok ER (dcell (pr 3 c) 5) 0 (0 : Fin 7)
    ∗ dutyTok ER (dcell (pr 4 c) 18) 0 (0 : Fin 7)
    ∗ dutyTok ER (dcell (pr 1 c) 13) 0 (0 : Fin 7) ∗ dutyTok ER (dcell (pr 5 c) 21) 0 (0 : Fin 7)
    ∗ dutyTok ER (dcell (pr 2 c) 12) 0 (0 : Fin 7) ∗ dutyTok ER (dcell (pr 6 c) 20) 0 (0 : Fin 7)
    ∗ dutyTok ER (dcell (pr 3 c) 11) 0 (0 : Fin 7) ∗ dutyTok ER (dcell (pr 7 c) 19) 0 (0 : Fin 7)
    ∗ dutyTok ER (dcell c 2) 0 (0 : Fin 7) ∗ dutyTok ER (dcell c 3) 0 (0 : Fin 7) ∗ dutyTok ER (dcell c 4) 0 (0 : Fin 7)
    ∗ dutyTok ER (dcell c 8) 0 (0 : Fin 7) ∗ dutyTok ER (dcell c 9) 0 (0 : Fin 7) ∗ dutyTok ER (dcell c 10) 0 (0 : Fin 7)
    ∗ dutyTok ER (dcell c 14) 0 (0 : Fin 7) ∗ dutyTok ER (dcell c 15) 0 (0 : Fin 7) ∗ dutyTok ER (dcell c 16) 0 (0 : Fin 7)
    ∗ dutyTok ER (dcell c 17) 0 (0 : Fin 7))

def ghost (K : Dev nD × Fin 21 → ℕ) (c : Dev nD) : sProp 𝕄 := iprop(records m K ∗ positions (F := F) c ∗ payToks (F := F) c)

def creds (c : Dev nD) : sProp 𝕄 :=
  iprop(cred (tallyAt (barCell c) () 7)
    ∗ cred (tallyAt (dcell c 5) () N) ∗ cred (tallyAt (dcell c 6) () N) ∗ cred (tallyAt (dcell c 7) () N)
    ∗ cred (tallyAt (dcell c 11) () N) ∗ cred (tallyAt (dcell c 12) () N) ∗ cred (tallyAt (dcell c 13) () N)
    ∗ cred (tallyAt (dcell c 18) () N) ∗ cred (tallyAt (dcell c 19) () N) ∗ cred (tallyAt (dcell c 20) () N) ∗ cred (tallyAt (dcell c 21) () N))

def start (c : Dev nD) : sProp 𝕄 := iprop((∃ K, ghost m K c) ∗ creds (F := F) c ∗ levAts L lv)

abbrev someBuf (c : Dev nD) (b : Ref sig .tc) : sProp 𝕄 :=
  iprop(∃ f : Buf (Elt F) ((c : Thread nD τ).loc b), ((c : Thread nD τ).loc b) ↦{fullShare} f)
def scratch (c : Dev nD) : sProp 𝕄 :=
  iprop(someBuf (F := F) c cc0_scratch0 ∗ someBuf c cc0_scratch1 ∗ someBuf c cc0_scratch2 ∗ someBuf c cc0_scratch3 ∗ someBuf c cc0_scratch4)

def ownZero (c : Dev nD) : sProp 𝕄 := bigSep Finset.univ fun k : Fin 20 => semVal (((c : Thread nD τ), osem k) : GSem nD τ sig) 0

def Φ₀ (c : Dev nD) : sProp 𝕄 := iprop(start m c ∗ scratch (F := F) c)
def Φ₁ (c : Dev nD) : sProp 𝕄 := iprop(scratch (F := F) c ∗ ownZero (F := F) c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m c) ∗ stg c cc0_stg1_0 (outAt m c))

end Cert.Kernel.Hand

end
-- ==== Proof.KTiles.lean ====
import proofs.«900737_g7700000000000738_dist_ar_v7x_xyz2x4x4_z_m512_n512_bf16_1_alg».proof.Proof.KData
import Idealize.ShloMosaic.Lib.ValueIdx
import Idealize.ShloMosaic.Lib.Pipeline.Value
import Idealize.ShloMosaic.Lib.WritesUnit

noncomputable section

namespace Cert.Kernel.Hand

open Cert.Kernel Cert.Kernel.Gen
open Idealize.ShloMosaic
open Idealize.ShloMosaic.TcCoe
open Idealize.ShloMosaic.ValueIdx

section Tiles
variable {F : FTy → Type} [FloatOps F]
variable (m : (ℓ : Loc nD τ sig) → Buf (Elt F) ℓ)

theorem oM_read (f : (cc0_stg1_0 : Ref sig .tc).ty.Contents (Elt F)) (y : S512x512.Idx) :
    (oM : Memref sig .tc .vmem S512x512 .f32).view.read (Elt F) f y = f y :=
  rfl

/-- An element outside a tile, by its row or by its column, reads what the buffer held before the tile's store. -/
theorem tile_miss (off : Fin 2 → Nat) (inb : ∀ a, off a + S128x256.size a ≤ S512x512.size a)
    (w : (Rect.unit (s := S512x512) off S128x256.size inb).shape.Idx → Elt F .f32)
    (g : (cc0_stg1_0 : Ref sig .tc).ty.Contents (Elt F))
    (o0 o1 : Nat) (hoff : off = ![o0, o1]) (r l : Fin 512)
    (hmiss : r.val < o0 ∨ o0 + 128 ≤ r.val ∨ l.val < o1 ∨ o1 + 256 ≤ l.val) :
    ((oM : Memref sig .tc .vmem S512x512 .f32).access (Rect.unit (s := S512x512) off S128x256.size inb) : View sig .tc _ _ _).write
        (Elt F) g w Finset.univ (ix2 r l) = g (ix2 r l) := by
  have key : ∀ (a : Fin 2), ((ix2 r l : S512x512.Idx) a).val < (![o0, o1] : Fin 2 → Nat) a
        ∨ (![o0, o1] : Fin 2 → Nat) a + S128x256.size a ≤ ((ix2 r l : S512x512.Idx) a).val →
      ((oM : Memref sig .tc .vmem S512x512 .f32).access (Rect.unit (s := S512x512) off S128x256.size inb) : View sig .tc _ _ _).write
        (Elt F) g w Finset.univ (ix2 r l) = g (ix2 r l) := by
    intro a ha
    have h := View.read_writes_cons_unit_of_not_mem (oM : Memref sig .tc .vmem S512x512 .f32).view g inb w [] (ix2 r l) hoff a ha
    rw [View.writes_singleton, View.writes_nil, oM_read, oM_read] at h
    exact h
  rcases hmiss with h | h | h | h
  · exact key (0 : Fin 2) (Or.inl h)
  · exact key (0 : Fin 2) (Or.inr h)
  · exact key (1 : Fin 2) (Or.inl h)
  · exact key (1 : Fin 2) (Or.inr h)

/-- An element at position (i, j) of a tile reads the tile's payload there. -/
theorem tile_hit (off : Fin 2 → Nat) (inb : ∀ a, off a + S128x256.size a ≤ S512x512.size a)
    (w : (Rect.unit (s := S512x512) off S128x256.size inb).shape.Idx → Elt F .f32)
    (g : (cc0_stg1_0 : Ref sig .tc).ty.Contents (Elt F))
    (o0 o1 : Nat) (hoff : off = ![o0, o1]) (r l : Fin 512) (i : Fin 128) (j : Fin 256)
    (hr : r.val = o0 + i.val) (hl : l.val = o1 + j.val) :
    ((oM : Memref sig .tc .vmem S512x512 .f32).access (Rect.unit (s := S512x512) off S128x256.size inb) : View sig .tc _ _ _).write
        (Elt F) g w Finset.univ (ix2 r l) = w (ix2 i j) := by
  have h := View.read_writes_cons_unit_of_mem (oM : Memref sig .tc .vmem S512x512 .f32).view g inb w [] (ix2 r l) (ix2 i j) hoff
    (Fin.forall_fin_two.mpr ⟨hr, hl⟩)
  rw [View.writes_singleton, oM_read] at h
  exact h

variable (c : Dev nD) (d : (cc0_stg1_0 : Ref sig .tc).ty.Contents (Elt F)) (r l : Fin 512) (i : Fin 128) (j : Fin 256)

theorem out_tile1 (hr : r.val = 128 * (c.val % 4) + i.val) (hl : l.val = 256 * (c.val / 16) + j.val) :
    outFrom m c d (ix2 r l) = acc m c (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  refine (tile_miss _ _ _ _ _ _ (off4_eq3 c) r l (by omega)).trans ?_
  refine (tile_miss _ _ _ _ _ _ (off4_eq2 c) r l (by omega)).trans ?_
  refine (tile_miss _ _ _ _ _ _ (off4_eq1 c) r l (by omega)).trans ?_
  exact tile_hit _ _ _ _ _ _ (k0_off3_eq c) r l i j hr hl

theorem out_tile2 (hr : r.val = 128 * ((c.val % 4 + 1) % 4) + i.val) (hl : l.val = 256 * (c.val / 16) + j.val) :
    outFrom m c d (ix2 r l) = k0_pay4 (agLoad0 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  refine (tile_miss _ _ _ _ _ _ (off4_eq3 c) r l (by omega)).trans ?_
  refine (tile_miss _ _ _ _ _ _ (off4_eq2 c) r l (by omega)).trans ?_
  exact tile_hit _ _ _ _ _ _ (off4_eq1 c) r l i j hr hl

theorem out_tile3 (hr : r.val = 128 * ((c.val % 4 + 2) % 4) + i.val) (hl : l.val = 256 * (c.val / 16) + j.val) :
    outFrom m c d (ix2 r l) = k0_pay5 (agLoad1 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  refine (tile_miss _ _ _ _ _ _ (off4_eq3 c) r l (by omega)).trans ?_
  exact tile_hit _ _ _ _ _ _ (off4_eq2 c) r l i j hr hl

theorem out_tile4 (hr : r.val = 128 * ((c.val % 4 + 3) % 4) + i.val) (hl : l.val = 256 * (c.val / 16) + j.val) :
    outFrom m c d (ix2 r l) = k0_pay6 (agLoad2 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  refine (tile_miss _ _ _ _ _ _ (k0_off5_eq c) r l (by omega)).trans ?_
  exact tile_hit _ _ _ _ _ _ (off4_eq3 c) r l i j hr hl

theorem out_tile5 (hr : r.val = 128 * (c.val % 4) + i.val) (hl : l.val = 256 - 256 * (c.val / 16) + j.val) :
    outFrom m c d (ix2 r l) = k0_pay7 (xgLoad0 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  refine (tile_miss _ _ _ _ _ _ (off6_eq0 c) r l (by omega)).trans ?_
  exact tile_hit _ _ _ _ _ _ (k0_off5_eq c) r l i j hr hl

theorem out_tile6 (hr : r.val = 128 * ((c.val % 4 + 1) % 4) + i.val) (hl : l.val = 256 - 256 * (c.val / 16) + j.val) :
    outFrom m c d (ix2 r l) = k0_pay8 (xgLoad1 m c) (ix2 i j) := by
  have hc : c.val < 32 := c.isLt
  unfold outFrom
  refine (tile_miss _ _ _ _ _ _ (off6_eq2 c) r l (by omega)).trans ?_
  refine (tile_miss _ _ _ _ _ _ (off6_eq1 c) r l (by omega)).trans ?_
  exact tile_hit _ _ _ _ _ _ (off6_eq0 c) r l i j hr hl

theorem out_tile7 (hr : r.val = 128 * ((c.val % 4 + 2) % 4) + i.val) (hl : l.val = 256 - 256 * (c.val / 16) + j.val) :
    outFrom m c d (ix2 r l) = k0_pay9 (xgLoad2 m c) (ix2 i j) := by
  have hc : c.val < 32 := c.isLt
  unfold outFrom
  refine (tile_miss _ _ _ _ _ _ (off6_eq2 c) r l (by omega)).trans ?_
  exact tile_hit _ _ _ _ _ _ (off6_eq1 c) r l i j hr hl

theorem out_tile8 (hr : r.val = 128 * ((c.val % 4 + 3) % 4) + i.val) (hl : l.val = 256 - 256 * (c.val / 16) + j.val) :
    outFrom m c d (ix2 r l) = k0_pay10 (xgLoad3 m c) (ix2 i j) := by
  have hc : c.val < 32 := c.isLt
  unfold outFrom
  exact tile_hit _ _ _ _ _ _ (off6_eq2 c) r l i j hr hl

end Tiles

/-- Every row and column lies at some position (i, j) of the tile its row block and column half name. -/
theorem cover8 (c : Dev nD) (r l : Fin 512) :
    (∃ (i : Fin 128) (j : Fin 256), r.val = 128 * (c.val % 4) + i.val ∧ l.val = 256 * (c.val / 16) + j.val)
    ∨ (∃ (i : Fin 128) (j : Fin 256), r.val = 128 * ((c.val % 4 + 1) % 4) + i.val ∧ l.val = 256 * (c.val / 16) + j.val)
    ∨ (∃ (i : Fin 128) (j : Fin 256), r.val = 128 * ((c.val % 4 + 2) % 4) + i.val ∧ l.val = 256 * (c.val / 16) + j.val)
    ∨ (∃ (i : Fin 128) (j : Fin 256), r.val = 128 * ((c.val % 4 + 3) % 4) + i.val ∧ l.val = 256 * (c.val / 16) + j.val)
    ∨ (∃ (i : Fin 128) (j : Fin 256), r.val = 128 * (c.val % 4) + i.val ∧ l.val = 256 - 256 * (c.val / 16) + j.val)
    ∨ (∃ (i : Fin 128) (j : Fin 256), r.val = 128 * ((c.val % 4 + 1) % 4) + i.val ∧ l.val = 256 - 256 * (c.val / 16) + j.val)
    ∨ (∃ (i : Fin 128) (j : Fin 256), r.val = 128 * ((c.val % 4 + 2) % 4) + i.val ∧ l.val = 256 - 256 * (c.val / 16) + j.val)
    ∨ (∃ (i : Fin 128) (j : Fin 256), r.val = 128 * ((c.val % 4 + 3) % 4) + i.val ∧ l.val = 256 - 256 * (c.val / 16) + j.val) := by
  have hc : c.val < 32 := c.isLt
  have hr : r.val < 512 := r.isLt
  have hl : l.val < 512 := l.isLt
  obtain ⟨i, hi⟩ : ∃ i : Fin 128, i.val = r.val % 128 := ⟨⟨r.val % 128, Nat.mod_lt _ (by decide)⟩, rfl⟩
  obtain ⟨j, hj⟩ : ∃ j : Fin 256, j.val = l.val % 256 := ⟨⟨l.val % 256, Nat.mod_lt _ (by decide)⟩, rfl⟩
  have hq : r.val / 128 = c.val % 4 ∨ r.val / 128 = (c.val % 4 + 1) % 4 ∨ r.val / 128 = (c.val % 4 + 2) % 4
      ∨ r.val / 128 = (c.val % 4 + 3) % 4 := by omega
  have hh : l.val / 256 = c.val / 16 ∨ l.val / 256 = 1 - c.val / 16 := by omega
  rcases hh with hh | hh <;> rcases hq with hq | hq | hq | hq
  · exact Or.inl ⟨i, j, by omega, by omega⟩
  · exact Or.inr (Or.inl ⟨i, j, by omega, by omega⟩)
  · exact Or.inr (Or.inr (Or.inl ⟨i, j, by omega, by omega⟩))
  · exact Or.inr (Or.inr (Or.inr (Or.inl ⟨i, j, by omega, by omega⟩)))
  · exact Or.inr (Or.inr (Or.inr (Or.inr (Or.inl ⟨i, j, by omega, by omega⟩))))
  · exact Or.inr (Or.inr (Or.inr (Or.inr (Or.inr (Or.inl ⟨i, j, by omega, by omega⟩)))))
  · exact Or.inr (Or.inr (Or.inr (Or.inr (Or.inr (Or.inr (Or.inl ⟨i, j, by omega, by omega⟩))))))
  · exact Or.inr (Or.inr (Or.inr (Or.inr (Or.inr (Or.inr (Or.inr ⟨i, j, by omega, by omega⟩))))))

/-- The eight tiles cover the buffer, so its contents before the stores do not matter. -/
theorem outFrom_indep {F : FTy → Type} [FloatOps F] (m : (ℓ : Loc nD τ sig) → Buf (Elt F) ℓ) (c : Dev nD)
    (d d' : (cc0_stg1_0 : Ref sig .tc).ty.Contents (Elt F)) : outFrom m c d = outFrom m c d' := by
  funext y
  obtain ⟨r, l, rfl⟩ : ∃ (r : Fin 512) (l : Fin 512), y = ix2 r l := ⟨y 0, y 1, eq_ix2 (n0 := 512) (n1 := 512) y⟩
  rcases cover8 c r l with ⟨i, j, hr, hl⟩ | ⟨i, j, hr, hl⟩ | ⟨i, j, hr, hl⟩ | ⟨i, j, hr, hl⟩ | ⟨i, j, hr, hl⟩
    | ⟨i, j, hr, hl⟩ | ⟨i, j, hr, hl⟩ | ⟨i, j, hr, hl⟩
  · exact (out_tile1 m c d r l i j hr hl).trans (out_tile1 m c d' r l i j hr hl).symm
  · exact (out_tile2 m c d r l i j hr hl).trans (out_tile2 m c d' r l i j hr hl).symm
  · exact (out_tile3 m c d r l i j hr hl).trans (out_tile3 m c d' r l i j hr hl).symm
  · exact (out_tile4 m c d r l i j hr hl).trans (out_tile4 m c d' r l i j hr hl).symm
  · exact (out_tile5 m c d r l i j hr hl).trans (out_tile5 m c d' r l i j hr hl).symm
  · exact (out_tile6 m c d r l i j hr hl).trans (out_tile6 m c d' r l i j hr hl).symm
  · exact (out_tile7 m c d r l i j hr hl).trans (out_tile7 m c d' r l i j hr hl).symm
  · exact (out_tile8 m c d r l i j hr hl).trans (out_tile8 m c d' r l i j hr hl).symm

end Cert.Kernel.Hand

end
-- ==== Proof.KSlots.lean ====
import proofs.«900737_g7700000000000738_dist_ar_v7x_xyz2x4x4_z_m512_n512_bf16_1_alg».proof.Proof.KSched
import Idealize.ShloMosaic.Rules.PointsTo
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An index lies in the unit-thick slab at leading offset k exactly when its leading coordinate is k. -/
theorem mem_slab {n : Nat} (k : Nat)
    (hk : ∀ a, (![k, 0, 0] : Fin 3 → Nat) a + S1x128x256.size a ≤ (⟨3, ![n, 128, 256]⟩ : Shape).size a)
    (i : (⟨3, ![n, 128, 256]⟩ : Shape).Idx) :
    i ∈ (Rect.unit (s := ⟨3, ![n, 128, 256]⟩) ![k, 0, 0] S1x128x256.size hk).set ↔ (i 0 : Nat) = k := by
  rw [Rect.mem_set_unit]
  constructor
  · intro h
    have h0 : k ≤ (i 0 : Nat) ∧ (i 0 : Nat) < k + 1 := h 0
    omega
  · intro h
    have h1 : (i 1 : Nat) < 128 := (i 1).isLt
    have h2 : (i 2 : Nat) < 256 := (i 2).isLt
    show ∀ a : Fin 3, _
    intro a
    fin_cases a
    · show k ≤ (i 0 : Nat) ∧ (i 0 : Nat) < k + 1
      omega
    · show 0 ≤ (i 1 : Nat) ∧ (i 1 : Nat) < 0 + 128
      omega
    · show 0 ≤ (i 2 : Nat) ∧ (i 2 : Nat) < 0 + 256
      omega

theorem box3_cover : (Finset.univ : Finset S3x128x256.Idx) = box3_0.set ∪ (box3_1.set ∪ box3_2.set) := by
  ext i
  have h0 : (i 0 : Nat) < 3 := (i 0).isLt
  simp only [Finset.mem_univ, Finset.mem_union, true_iff]
  rw [mem_slab (n := 3) 0, mem_slab (n := 3) 1, mem_slab (n := 3) 2]
  omega

theorem box3_disj0 : Disjoint box3_0.set (box3_1.set ∪ box3_2.set) := by
  rw [Finset.disjoint_left]
  intro i hi
  rw [mem_slab (n := 3) 0] at hi
  rw [Finset.mem_union, mem_slab (n := 3) 1, mem_slab (n := 3) 2]
  omega
theorem box3_disj12 : Disjoint box3_1.set box3_2.set := by
  rw [Finset.disjoint_left]
  intro i hi
  rw [mem_slab (n := 3) 1] at hi
  rw [mem_slab (n := 3) 2]
  omega

theorem box4_cover : (Finset.univ : Finset S4x128x256.Idx) = box4_0.set ∪ (box4_1.set ∪ (box4_2.set ∪ box4_3.set)) := by
  ext i
  have h0 : (i 0 : Nat) < 4 := (i 0).isLt
  simp only [Finset.mem_univ, Finset.mem_union, true_iff]
  rw [mem_slab (n := 4) 0, mem_slab (n := 4) 1, mem_slab (n := 4) 2, mem_slab (n := 4) 3]
  omega

theorem box4_disj0 : Disjoint box4_0.set (box4_1.set ∪ (box4_2.set ∪ box4_3.set)) := by
  rw [Finset.disjoint_left]
  intro i hi
  rw [mem_slab (n := 4) 0] at hi
  rw [Finset.mem_union, Finset.mem_union, mem_slab (n := 4) 1, mem_slab (n := 4) 2, mem_slab (n := 4) 3]
  omega
theorem box4_disj1 : Disjoint box4_1.set (box4_2.set ∪ box4_3.set) := by
  rw [Finset.disjoint_left]
  intro i hi
  rw [mem_slab (n := 4) 1] at hi
  rw [Finset.mem_union, mem_slab (n := 4) 2, mem_slab (n := 4) 3]
  omega
theorem box4_disj23 : Disjoint box4_2.set box4_3.set := by
  rw [Finset.disjoint_left]
  intro i hi
  rw [mem_slab (n := 4) 2] at hi
  rw [mem_slab (n := 4) 3]
  omega

theorem rs_slot_set (off : Fin 3 → Nat) (h : ∀ a, off a + S1x128x256.size a ≤ S3x128x256.size a) :
    (slot3 rsM off h).view.set = (Rect.unit (s := S3x128x256) off S1x128x256.size h).set := by
  show (((View.whole cc0_scratch1 : View sig .tc _ _ _).slice (Rect.unit (s := S3x128x256) off S1x128x256.size h)).reshape S128x256 _).set = _
  rw [View.set_reshape, View.set_slice_whole]
theorem ag_slot_set (off : Fin 3 → Nat) (h : ∀ a, off a + S1x128x256.size a ≤ S3x128x256.size a) :
    (slot3 agM off h).view.set = (Rect.unit (s := S3x128x256) off S1x128x256.size h).set := by
  show (((View.whole cc0_scratch3 : View sig .tc _ _ _).slice (Rect.unit (s := S3x128x256) off S1x128x256.size h)).reshape S128x256 _).set = _
  rw [View.set_reshape, View.set_slice_whole]
theorem xg_slot_set (off : Fin 3 → Nat) (h : ∀ a, off a + S1x128x256.size a ≤ S4x128x256.size a) :
    (slot4 xgM off h).view.set = (Rect.unit (s := S4x128x256) off S1x128x256.size h).set := by
  show (((View.whole cc0_scratch4 : View sig .tc _ _ _).slice (Rect.unit (s := S4x128x256) off S1x128x256.size h)).reshape S128x256 _).set = _
  rw [View.set_reshape, View.set_slice_whole]

section Cover
variable {ℓ : Loc nD τ sig} {s0 s1 s2 s3 : Finset (Idx ℓ)}

/-- Over a cover by pairwise disjoint sets, the buffer at a share is the separating conjunction of the sets at that share, -/
theorem split3 (hc : (Finset.univ : Finset (Idx ℓ)) = s0 ∪ (s1 ∪ s2)) (hd0 : Disjoint s0 (s1 ∪ s2)) (hd12 : Disjoint s1 s2)
    (q : PosShare TreeShare) (f : Buf (Elt F) ℓ) :
    (ℓ ↦{q} f : sProp 𝕄) ⊢ iprop((ℓ ↦[s0]{q} f) ∗ (ℓ ↦[s1]{q} f) ∗ ℓ ↦[s2]{q} f) := by
  rw [hc]
  exact (pointsTo_union hd0).1.trans (sep_mono_right (pointsTo_union hd12).1)

/-- and sets held at whatever contents join into the buffer at the contents that agree with each on its set. -/
theorem join3 (hc : (Finset.univ : Finset (Idx ℓ)) = s0 ∪ (s1 ∪ s2)) (hd0 : Disjoint s0 (s1 ∪ s2)) (hd12 : Disjoint s1 s2)
    (q : PosShare TreeShare) :
    iprop((∃ f : Buf (Elt F) ℓ, ℓ ↦[s0]{q} f) ∗ (∃ f : Buf (Elt F) ℓ, ℓ ↦[s1]{q} f) ∗ (∃ f : Buf (Elt F) ℓ, ℓ ↦[s2]{q} f))
      ⊢ (iprop(∃ f : Buf (Elt F) ℓ, ℓ ↦{q} f) : sProp 𝕄) := by
  have key : ∀ f0 f1 f2 : Buf (Elt F) ℓ,
      iprop((ℓ ↦[s0]{q} f0) ∗ (ℓ ↦[s1]{q} f1) ∗ ℓ ↦[s2]{q} f2)
        ⊢ (ℓ ↦{q} ((s1 ∪ s2).piecewise (s2.piecewise f2 f1) f0) : sProp 𝕄) := fun f0 f1 f2 => by
    rw [hc]
    exact (sep_mono_right (pointsTo_join hd12)).trans (pointsTo_join hd0)
  iintro ⟨⟨%f0, H0⟩, ⟨%f1, H1⟩, ⟨%f2, H2⟩⟩
  iexists ((s1 ∪ s2).piecewise (s2.piecewise f2 f1) f0)
  iapply (key f0 f1 f2)
  isplitl [H0]
  · iexact H0
  isplitl [H1]
  · iexact H1
  iexact H2

theorem split4 (hc : (Finset.univ : Finset (Idx ℓ)) = s0 ∪ (s1 ∪ (s2 ∪ s3))) (hd0 : Disjoint s0 (s1 ∪ (s2 ∪ s3)))
    (hd1 : Disjoint s1 (s2 ∪ s3)) (hd23 : Disjoint s2 s3) (q : PosShare TreeShare) (f : Buf (Elt F) ℓ) :
    (ℓ ↦{q} f : sProp 𝕄) ⊢ iprop((ℓ ↦[s0]{q} f) ∗ (ℓ ↦[s1]{q} f) ∗ (ℓ ↦[s2]{q} f) ∗ ℓ ↦[s3]{q} f) := by
  rw [hc]
  exact (pointsTo_union hd0).1.trans (sep_mono_right ((pointsTo_union hd1).1.trans (sep_mono_right (pointsTo_union hd23).1)))

theorem join4 (hc : (Finset.univ : Finset (Idx ℓ)) = s0 ∪ (s1 ∪ (s2 ∪ s3))) (hd0 : Disjoint s0 (s1 ∪ (s2 ∪ s3)))
    (hd1 : Disjoint s1 (s2 ∪ s3)) (hd23 : Disjoint s2 s3) (q : PosShare TreeShare) :
    iprop((∃ f : Buf (Elt F) ℓ, ℓ ↦[s0]{q} f) ∗ (∃ f : Buf (Elt F) ℓ, ℓ ↦[s1]{q} f) ∗ (∃ f : Buf (Elt F) ℓ, ℓ ↦[s2]{q} f)
        ∗ (∃ f : Buf (Elt F) ℓ, ℓ ↦[s3]{q} f))
      ⊢ (iprop(∃ f : Buf (Elt F) ℓ, ℓ ↦{q} f) : sProp 𝕄) := by
  have key : ∀ f0 f1 f2 f3 : Buf (Elt F) ℓ,
      iprop((ℓ ↦[s0]{q} f0) ∗ (ℓ ↦[s1]{q} f1) ∗ (ℓ ↦[s2]{q} f2) ∗ ℓ ↦[s3]{q} f3)
        ⊢ (ℓ ↦{q} ((s1 ∪ (s2 ∪ s3)).piecewise ((s2 ∪ s3).piecewise (s3.piecewise f3 f2) f1) f0) : sProp 𝕄) :=
    fun f0 f1 f2 f3 => by
    rw [hc]
    exact (sep_mono_right ((sep_mono_right (pointsTo_join hd23)).trans (pointsTo_join hd1))).trans (pointsTo_join hd0)
  iintro ⟨⟨%f0, H0⟩, ⟨%f1, H1⟩, ⟨%f2, H2⟩, ⟨%f3, H3⟩⟩
  iexists ((s1 ∪ (s2 ∪ s3)).piecewise ((s2 ∪ s3).piecewise (s3.piecewise f3 f2) f1) f0)
  iapply (key f0 f1 f2 f3)
  isplitl [H0]
  · iexact H0
  isplitl [H1]
  · iexact H1
  isplitl [H2]
  · iexact H2
  iexact H3

end Cover

section Buffers
variable (c : Dev nD)

theorem rs_cover : (Finset.univ : Finset (Idx ((c : Thread nD τ).loc cc0_scratch1)))
    = rsSlot0.view.set ∪ (rsSlot1.view.set ∪ rsSlot2.view.set) := by
  rw [rs_slot_set, rs_slot_set, rs_slot_set]; exact box3_cover
theorem rs_disj0 : Disjoint rsSlot0.view.set (rsSlot1.view.set ∪ rsSlot2.view.set) := by
  rw [rs_slot_set, rs_slot_set, rs_slot_set]; exact box3_disj0
theorem rs_disj12 : Disjoint rsSlot1.view.set rsSlot2.view.set := by
  rw [rs_slot_set, rs_slot_set]; exact box3_disj12

theorem rs_split (f : Buf (Elt F) ((c : Thread nD τ).loc cc0_scratch1)) :
    ((((c : Thread nD τ).loc cc0_scratch1) ↦{fullShare} f : sProp 𝕄))
      ⊢ iprop(pts c rsSlot0 fullShare f ∗ pts c rsSlot1 fullShare f ∗ pts c rsSlot2 fullShare f) :=
  split3 (ℓ := (c : Thread nD τ).loc cc0_scratch1) (rs_cover c) rs_disj0 rs_disj12 fullShare f

theorem rs_join : iprop(anyPts (F := F) c rsSlot0 ∗ anyPts c rsSlot1 ∗ anyPts c rsSlot2)
    ⊢ (iprop(∃ f : Buf (Elt F) ((c : Thread nD τ).loc cc0_scratch1), ((c : Thread nD τ).loc cc0_scratch1) ↦{fullShare} f) : sProp 𝕄) :=
  join3 (ℓ := (c : Thread nD τ).loc cc0_scratch1) (rs_cover c) rs_disj0 rs_disj12 fullShare

theorem ag_cover : (Finset.univ : Finset (Idx ((c : Thread nD τ).loc cc0_scratch3)))
    = agSlot0.view.set ∪ (agSlot1.view.set ∪ agSlot2.view.set) := by
  rw [ag_slot_set, ag_slot_set, ag_slot_set]; exact box3_cover
theorem ag_disj0 : Disjoint agSlot0.view.set (agSlot1.view.set ∪ agSlot2.view.set) := by
  rw [ag_slot_set, ag_slot_set, ag_slot_set]; exact box3_disj0
theorem ag_disj12 : Disjoint agSlot1.view.set agSlot2.view.set := by
  rw [ag_slot_set, ag_slot_set]; exact box3_disj12

theorem ag_split (f : Buf (Elt F) ((c : Thread nD τ).loc cc0_scratch3)) :
    ((((c : Thread nD τ).loc cc0_scratch3) ↦{fullShare} f : sProp 𝕄))
      ⊢ iprop(pts c agSlot0 fullShare f ∗ pts c agSlot1 fullShare f ∗ pts c agSlot2 fullShare f) :=
  split3 (ℓ := (c : Thread nD τ).loc cc0_scratch3) (ag_cover c) ag_disj0 ag_disj12 fullShare f

theorem ag_join : iprop(anyPts (F := F) c agSlot0 ∗ anyPts c agSlot1 ∗ anyPts c agSlot2)
    ⊢ (iprop(∃ f : Buf (Elt F) ((c : Thread nD τ).loc cc0_scratch3), ((c : Thread nD τ).loc cc0_scratch3) ↦{fullShare} f) : sProp 𝕄) :=
  join3 (ℓ := (c : Thread nD τ).loc cc0_scratch3) (ag_cover c) ag_disj0 ag_disj12 fullShare

theorem xg_cover : (Finset.univ : Finset (Idx ((c : Thread nD τ).loc cc0_scratch4)))
    = xgSlot0.view.set ∪ (xgSlot1.view.set ∪ (xgSlot2.view.set ∪ xgSlot3.view.set)) := by
  rw [xg_slot_set, xg_slot_set, xg_slot_set, xg_slot_set]; exact box4_cover
theorem xg_disj0 : Disjoint xgSlot0.view.set (xgSlot1.view.set ∪ (xgSlot2.view.set ∪ xgSlot3.view.set)) := by
  rw [xg_slot_set, xg_slot_set, xg_slot_set, xg_slot_set]; exact box4_disj0
theorem xg_disj1 : Disjoint xgSlot1.view.set (xgSlot2.view.set ∪ xgSlot3.view.set) := by
  rw [xg_slot_set, xg_slot_set, xg_slot_set]; exact box4_disj1
theorem xg_disj23 : Disjoint xgSlot2.view.set xgSlot3.view.set := by
  rw [xg_slot_set, xg_slot_set]; exact box4_disj23

theorem xg_split (f : Buf (Elt F) ((c : Thread nD τ).loc cc0_scratch4)) :
    ((((c : Thread nD τ).loc cc0_scratch4) ↦{fullShare} f : sProp 𝕄))
      ⊢ iprop(pts c xgSlot0 fullShare f ∗ pts c xgSlot1 fullShare f ∗ pts c xgSlot2 fullShare f ∗ pts c xgSlot3 fullShare f) :=
  split4 (ℓ := (c : Thread nD τ).loc cc0_scratch4) (xg_cover c) xg_disj0 xg_disj1 xg_disj23 fullShare f

theorem xg_join : iprop(anyPts (F := F) c xgSlot0 ∗ anyPts c xgSlot1 ∗ anyPts c xgSlot2 ∗ anyPts c xgSlot3)
    ⊢ (iprop(∃ f : Buf (Elt F) ((c : Thread nD τ).loc cc0_scratch4), ((c : Thread nD τ).loc cc0_scratch4) ↦{fullShare} f) : sProp 𝕄) :=
  join4 (ℓ := (c : Thread nD τ).loc cc0_scratch4) (xg_cover c) xg_disj0 xg_disj1 xg_disj23 fullShare

theorem sb_take (r : Fin 3) (q : PosShare TreeShare) (f : Buf (Elt F) ((c : Thread nD τ).loc cc0_scratch0)) :
    ((((c : Thread nD τ).loc cc0_scratch0) ↦{q} f : sProp 𝕄))
      ⊣⊢ iprop(pts c (sbSrc c r) q f ∗ (((c : Thread nD τ).loc cc0_scratch0) ↦[Finset.univ \ (sbSrc c r).view.set]{q} f)) :=
  pointsTo_split_subset (ℓ := (c : Thread nD τ).loc cc0_scratch0) (Finset.subset_univ _)

/-- Two writes of one payload through one view agree on the view's elements. -/
theorem landed_restate (S : Memref sig .tc .vmem S128x256 .bf16) (fd g : Buf (Elt F) (S.view.loc (c : Thread nD τ)))
    (w : S128x256.Idx → Elt F .bf16) :
    (pts c S fullShare (S.view.write (Elt F) fd w Finset.univ) : sProp 𝕄)
      = pts c S fullShare (S.view.write (Elt F) g w Finset.univ) := by
  refine pointsTo_congr ?_
  intro i hi
  obtain ⟨y, rfl⟩ := View.exists_emb_of_mem_set S.view hi
  rw [View.write_emb_of_mem _ _ (Finset.mem_univ y), View.write_emb_of_mem _ _ (Finset.mem_univ y)]

end Buffers

theorem rb_set : (rbM : Memref sig .tc .vmem S128x256 .bf16).view.set = Finset.univ := View.set_whole _
theorem sb_set : (sbM : Memref sig .tc .vmem S4x128x256 .bf16).view.set = Finset.univ := View.set_whole _
theorem x_set : (xM : Memref sig .tc .vmem S512x512 .f32).view.set = Finset.univ := View.set_whole _
theorem o_set : (oM : Memref sig .tc .vmem S512x512 .f32).view.set = Finset.univ := View.set_whole _

end Cert.Kernel.Hand

end
-- ==== Proof.KBody.lean ====
import proofs.«900737_g7700000000000738_dist_ar_v7x_xyz2x4x4_z_m512_n512_bf16_1_alg».proof.Proof.KGhost
import proofs.«900737_g7700000000000738_dist_ar_v7x_xyz2x4x4_z_m512_n512_bf16_1_alg».proof.Proof.KTiles
import proofs.«900737_g7700000000000738_dist_ar_v7x_xyz2x4x4_z_m512_n512_bf16_1_alg».proof.Proof.Gen.Kernel.Skeleton
import proofs.«900737_g7700000000000738_dist_ar_v7x_xyz2x4x4_z_m512_n512_bf16_1_alg».proof.Proof.KSlots
import Idealize.ShloMosaic.Lib.Tactic

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_canon] dev1_eq dev2_eq dev3_eq dev4_eq dev5_eq dev6_eq dev7_eq dev8_eq dev9_eq dev10_eq dev11_eq dev12_eq dev13_eq dev14_eq dev15_eq dev16_eq dev17_eq

theorem x_view (c : Dev nD) (q : PosShare TreeShare) (f : Buf (Elt F) ((c : Thread nD τ).loc cc0_stg0_0)) :
    ((((c : Thread nD τ).loc cc0_stg0_0) ↦{q} f : sProp 𝕄)) = ((xM : Memref sig .tc .vmem S512x512 .f32).view.loc (c : Thread nD τ) ↦[(xM : Memref sig .tc .vmem S512x512 .f32).view.set]{q} f) := by
  rw [x_set]
theorem o_view (c : Dev nD) (q : PosShare TreeShare) (f : Buf (Elt F) ((c : Thread nD τ).loc cc0_stg1_0)) :
    ((((c : Thread nD τ).loc cc0_stg1_0) ↦{q} f : sProp 𝕄)) = ((oM : Memref sig .tc .vmem S512x512 .f32).view.loc (c : Thread nD τ) ↦[(oM : Memref sig .tc .vmem S512x512 .f32).view.set]{q} f) := by
  rw [o_set]
theorem sb_view (c : Dev nD) (q : PosShare TreeShare) (f : Buf (Elt F) ((c : Thread nD τ).loc cc0_scratch0)) :
    ((((c : Thread nD τ).loc cc0_scratch0) ↦{q} f : sProp 𝕄)) = ((sbM : Memref sig .tc .vmem S4x128x256 .bf16).view.loc (c : Thread nD τ) ↦[(sbM : Memref sig .tc .vmem S4x128x256 .bf16).view.set]{q} f) := by
  rw [sb_set]
theorem rb_view (c : Dev nD) (q : PosShare TreeShare) (f : Buf (Elt F) ((c : Thread nD τ).loc cc0_scratch2)) :
    ((((c : Thread nD τ).loc cc0_scratch2) ↦{q} f : sProp 𝕄)) = ((rbM : Memref sig .tc .vmem S128x256 .bf16).view.loc (c : Thread nD τ) ↦[(rbM : Memref sig .tc .vmem S128x256 .bf16).view.set]{q} f) := by
  rw [rb_set]

section TablesX
variable (c p : Dev nD)
theorem xpay_dma2 (d : Fin 7) : (Rd (F := F) m).payload (dcell c rsSend0.sem) 0 d = (((sbSrc c 0).view.loc (c : Thread nD τ) ↦[(sbSrc c 0).view.set]{shSb 0} sbuf m c) : sProp 𝕄) := rfl
theorem xpay_dma3 (d : Fin 7) : (Rd (F := F) m).payload (dcell c rsSend1.sem) 0 d = (((sbSrc c 1).view.loc (c : Thread nD τ) ↦[(sbSrc c 1).view.set]{shSb 1} sbuf m c) : sProp 𝕄) := rfl
theorem xpay_dma4 (d : Fin 7) : (Rd (F := F) m).payload (dcell c rsSend2.sem) 0 d = (((sbSrc c 2).view.loc (c : Thread nD τ) ↦[(sbSrc c 2).view.set]{shSb 2} sbuf m c) : sProp 𝕄) := rfl
theorem xpay_dma5 (d : Fin 7) : (Rd (F := F) m).payload (dcell c rsRecv0.sem) 0 d = ((rsSlot0.view.loc (c : Thread nD τ) ↦[rsSlot0.view.set]{fullShare} rsLanded m c 0) : sProp 𝕄) := rfl
theorem xpay_dma6 (d : Fin 7) : (Rd (F := F) m).payload (dcell c rsRecv1.sem) 0 d = ((rsSlot1.view.loc (c : Thread nD τ) ↦[rsSlot1.view.set]{fullShare} rsLanded m c 1) : sProp 𝕄) := rfl
theorem xpay_dma7 (d : Fin 7) : (Rd (F := F) m).payload (dcell c rsRecv2.sem) 0 d = ((rsSlot2.view.loc (c : Thread nD τ) ↦[rsSlot2.view.set]{fullShare} rsLanded m c 2) : sProp 𝕄) := rfl
theorem xpay_dma8 (d : Fin 7) : (Rd (F := F) m).payload (dcell c agSend0.sem) 0 d = (((rbM : Memref sig .tc .vmem S128x256 .bf16).view.loc (c : Thread nD τ) ↦[(rbM : Memref sig .tc .vmem S128x256 .bf16).view.set]{shRb 0} rbuf m c) : sProp 𝕄) := rfl
theorem xpay_dma9 (d : Fin 7) : (Rd (F := F) m).payload (dcell c agSend1.sem) 0 d = (((rbM : Memref sig .tc .vmem S128x256 .bf16).view.loc (c : Thread nD τ) ↦[(rbM : Memref sig .tc .vmem S128x256 .bf16).view.set]{shRb 1} rbuf m c) : sProp 𝕄) := rfl
theorem xpay_dma10 (d : Fin 7) : (Rd (F := F) m).payload (dcell c agSend2.sem) 0 d = (((rbM : Memref sig .tc .vmem S128x256 .bf16).view.loc (c : Thread nD τ) ↦[(rbM : Memref sig .tc .vmem S128x256 .bf16).view.set]{shRb 2} rbuf m c) : sProp 𝕄) := rfl
theorem xpay_dma11 (d : Fin 7) : (Rd (F := F) m).payload (dcell c agRecv0.sem) 0 d = ((agSlot0.view.loc (c : Thread nD τ) ↦[agSlot0.view.set]{fullShare} agLanded m c 0) : sProp 𝕄) := rfl
theorem xpay_dma12 (d : Fin 7) : (Rd (F := F) m).payload (dcell c agRecv1.sem) 0 d = ((agSlot1.view.loc (c : Thread nD τ) ↦[agSlot1.view.set]{fullShare} agLanded m c 1) : sProp 𝕄) := rfl
theorem xpay_dma13 (d : Fin 7) : (Rd (F := F) m).payload (dcell c agRecv2.sem) 0 d = ((agSlot2.view.loc (c : Thread nD τ) ↦[agSlot2.view.set]{fullShare} agLanded m c 2) : sProp 𝕄) := rfl
theorem xpay_dma14 (d : Fin 7) : (Rd (F := F) m).payload (dcell c xfSend0.sem) 0 d = (((rbM : Memref sig .tc .vmem S128x256 .bf16).view.loc (c : Thread nD τ) ↦[(rbM : Memref sig .tc .vmem S128x256 .bf16).view.set]{shRb 3} rbuf m c) : sProp 𝕄) := rfl
theorem xpay_dma15 (d : Fin 7) : (Rd (F := F) m).payload (dcell c xfSend1.sem) 0 d = (((rbM : Memref sig .tc .vmem S128x256 .bf16).view.loc (c : Thread nD τ) ↦[(rbM : Memref sig .tc .vmem S128x256 .bf16).view.set]{shRb 4} rbuf m c) : sProp 𝕄) := rfl
theorem xpay_dma16 (d : Fin 7) : (Rd (F := F) m).payload (dcell c xfSend2.sem) 0 d = (((rbM : Memref sig .tc .vmem S128x256 .bf16).view.loc (c : Thread nD τ) ↦[(rbM : Memref sig .tc .vmem S128x256 .bf16).view.set]{shRb 5} rbuf m c) : sProp 𝕄) := rfl
theorem xpay_dma17 (d : Fin 7) : (Rd (F := F) m).payload (dcell c xfSend3.sem) 0 d = (((rbM : Memref sig .tc .vmem S128x256 .bf16).view.loc (c : Thread nD τ) ↦[(rbM : Memref sig .tc .vmem S128x256 .bf16).view.set]{shRb 6} rbuf m c) : sProp 𝕄) := rfl
theorem xpay_dma18 (d : Fin 7) : (Rd (F := F) m).payload (dcell c xfRecv0.sem) 0 d = ((xgSlot0.view.loc (c : Thread nD τ) ↦[xgSlot0.view.set]{fullShare} xgLanded m c 0) : sProp 𝕄) := rfl
theorem xpay_dma19 (d : Fin 7) : (Rd (F := F) m).payload (dcell c xfRecv1.sem) 0 d = ((xgSlot1.view.loc (c : Thread nD τ) ↦[xgSlot1.view.set]{fullShare} xgLanded m c 1) : sProp 𝕄) := rfl
theorem xpay_dma20 (d : Fin 7) : (Rd (F := F) m).payload (dcell c xfRecv2.sem) 0 d = ((xgSlot2.view.loc (c : Thread nD τ) ↦[xgSlot2.view.set]{fullShare} xgLanded m c 2) : sProp 𝕄) := rfl
theorem xpay_dma21 (d : Fin 7) : (Rd (F := F) m).payload (dcell c xfRecv3.sem) 0 d = ((xgSlot3.view.loc (c : Thread nD τ) ↦[xgSlot3.view.set]{fullShare} xgLanded m c 3) : sProp 𝕄) := rfl
theorem xpay_bar0 : (Rd (F := F) m).payload (barCell (pr 1 p)) 0 (0 : Fin 7) = (iprop((∃ f : Buf (Elt F) (rsSlot0.view.loc (p : Thread nD τ)), rsSlot0.view.loc (p : Thread nD τ) ↦[rsSlot0.view.set]{fullShare} f) ∗ (∃ f : Buf (Elt F) (agSlot0.view.loc (p : Thread nD τ)), agSlot0.view.loc (p : Thread nD τ) ↦[agSlot0.view.set]{fullShare} f)) : sProp 𝕄) := payload_bar_from m p 0
theorem xpay_bar1 : (Rd (F := F) m).payload (barCell (pr 2 p)) 0 (1 : Fin 7) = (iprop((∃ f : Buf (Elt F) (rsSlot1.view.loc (p : Thread nD τ)), rsSlot1.view.loc (p : Thread nD τ) ↦[rsSlot1.view.set]{fullShare} f) ∗ (∃ f : Buf (Elt F) (agSlot1.view.loc (p : Thread nD τ)), agSlot1.view.loc (p : Thread nD τ) ↦[agSlot1.view.set]{fullShare} f)) : sProp 𝕄) := payload_bar_from m p 1
theorem xpay_bar2 : (Rd (F := F) m).payload (barCell (pr 3 p)) 0 (2 : Fin 7) = (iprop((∃ f : Buf (Elt F) (rsSlot2.view.loc (p : Thread nD τ)), rsSlot2.view.loc (p : Thread nD τ) ↦[rsSlot2.view.set]{fullShare} f) ∗ (∃ f : Buf (Elt F) (agSlot2.view.loc (p : Thread nD τ)), agSlot2.view.loc (p : Thread nD τ) ↦[agSlot2.view.set]{fullShare} f)) : sProp 𝕄) := payload_bar_from m p 2
theorem xpay_bar3 : (Rd (F := F) m).payload (barCell (pr 5 p)) 0 (3 : Fin 7) = (iprop(∃ f : Buf (Elt F) (xgSlot1.view.loc (p : Thread nD τ)), xgSlot1.view.loc (p : Thread nD τ) ↦[xgSlot1.view.set]{fullShare} f) : sProp 𝕄) := payload_bar_from m p 3
theorem xpay_bar4 : (Rd (F := F) m).payload (barCell (pr 6 p)) 0 (4 : Fin 7) = (iprop(∃ f : Buf (Elt F) (xgSlot2.view.loc (p : Thread nD τ)), xgSlot2.view.loc (p : Thread nD τ) ↦[xgSlot2.view.set]{fullShare} f) : sProp 𝕄) := payload_bar_from m p 4
theorem xpay_bar5 : (Rd (F := F) m).payload (barCell (pr 7 p)) 0 (5 : Fin 7) = (iprop(∃ f : Buf (Elt F) (xgSlot3.view.loc (p : Thread nD τ)), xgSlot3.view.loc (p : Thread nD τ) ↦[xgSlot3.view.set]{fullShare} f) : sProp 𝕄) := payload_bar_from m p 5
theorem xpay_bar6 : (Rd (F := F) m).payload (barCell (pr 4 p)) 0 (6 : Fin 7) = (iprop(∃ f : Buf (Elt F) (xgSlot0.view.loc (p : Thread nD τ)), xgSlot0.view.loc (p : Thread nD τ) ↦[xgSlot0.view.set]{fullShare} f) : sProp 𝕄) := payload_bar_from m p 6
end TablesX

theorem rs_splitX (c : Dev nD) (f : Buf (Elt F) ((c : Thread nD τ).loc cc0_scratch1)) :
    ((((c : Thread nD τ).loc cc0_scratch1) ↦{fullShare} f : sProp 𝕄)) ⊢ iprop((rsSlot0.view.loc (c : Thread nD τ) ↦[rsSlot0.view.set]{fullShare} f) ∗ (rsSlot1.view.loc (c : Thread nD τ) ↦[rsSlot1.view.set]{fullShare} f) ∗ (rsSlot2.view.loc (c : Thread nD τ) ↦[rsSlot2.view.set]{fullShare} f)) := rs_split c f
theorem ag_splitX (c : Dev nD) (f : Buf (Elt F) ((c : Thread nD τ).loc cc0_scratch3)) :
    ((((c : Thread nD τ).loc cc0_scratch3) ↦{fullShare} f : sProp 𝕄)) ⊢ iprop((agSlot0.view.loc (c : Thread nD τ) ↦[agSlot0.view.set]{fullShare} f) ∗ (agSlot1.view.loc (c : Thread nD τ) ↦[agSlot1.view.set]{fullShare} f) ∗ (agSlot2.view.loc (c : Thread nD τ) ↦[agSlot2.view.set]{fullShare} f)) := ag_split c f
theorem xg_splitX (c : Dev nD) (f : Buf (Elt F) ((c : Thread nD τ).loc cc0_scratch4)) :
    ((((c : Thread nD τ).loc cc0_scratch4) ↦{fullShare} f : sProp 𝕄)) ⊢ iprop((xgSlot1.view.loc (c : Thread nD τ) ↦[xgSlot1.view.set]{fullShare} f) ∗ (xgSlot2.view.loc (c : Thread nD τ) ↦[xgSlot2.view.set]{fullShare} f) ∗ (xgSlot3.view.loc (c : Thread nD τ) ↦[xgSlot3.view.set]{fullShare} f) ∗ (xgSlot0.view.loc (c : Thread nD τ) ↦[xgSlot0.view.set]{fullShare} f)) := by
  refine (xg_split c f).trans ?_
  iintro ⟨H0, H1, H2, H3⟩
  isplitl [H1]; · iexact H1
  isplitl [H2]; · iexact H2
  isplitl [H3]; · iexact H3
  iexact H0

theorem hz3 : (![0, 0, 0] : Fin 3 → Nat) = fun _ => 0 := funext fun a => by fin_cases a <;> rfl
theorem hz2 : (![0, 0] : Fin 2 → Nat) = fun _ => 0 := funext fun a => by fin_cases a <;> rfl

theorem sb_after (c : Dev nD) (f0 : Buf (Elt F) ((c : Thread nD τ).loc cc0_scratch0)) (w : S4x128x256.Idx → Elt F .bf16) :
    (sbM : Memref sig .tc .vmem S4x128x256 .bf16).view.writes (Elt F) f0
      [⟨Rect.unit (s := S4x128x256) ![0, 0, 0] S4x128x256.size inb_S4x128x256_S4x128x256_0_0_0, w⟩] = w := by
  rw [View.writes_singleton]
  exact Memref.write_access_unit_zero_univ (Elt F) cc0_scratch0 hz3 _ f0 w

theorem rb_after (c : Dev nD) (f0 : Buf (Elt F) ((c : Thread nD τ).loc cc0_scratch2)) (w : S128x256.Idx → Elt F .bf16) :
    (rbM : Memref sig .tc .vmem S128x256 .bf16).view.writes (Elt F) f0
      [⟨Rect.unit (s := S128x256) ![0, 0] S128x256.size inb_S128x256_S128x256_0_0, w⟩] = w := by
  rw [View.writes_singleton]
  exact Memref.write_access_unit_zero_univ (Elt F) cc0_scratch2 hz2 _ f0 w

/-- The reduced block goes out on seven read shares, listed in the order its seven copies are issued. -/
theorem rb_cut (c : Dev nD) (f : Buf (Elt F) ((c : Thread nD τ).loc cc0_scratch2)) :
    (pts c rbM (fullShare) f : sProp 𝕄)
      ⊢ iprop(pts c rbM (Transfers.shareDrop fullShare 7) f ∗ pts c rbM (shRb 3) f ∗ pts c rbM (shRb 0) f ∗ pts c rbM (shRb 6) f ∗ pts c rbM (shRb 1) f ∗ pts c rbM (shRb 5) f ∗ pts c rbM (shRb 2) f ∗ pts c rbM (shRb 4) f) := by
  refine (Transfers.pointsTo_toks_split (ℓ := (rbM : Memref sig .tc .vmem S128x256 .bf16).view.loc (c : Thread nD τ)) (S := (rbM : Memref sig .tc .vmem S128x256 .bf16).view.set) (f := f) fullShare 7).trans ?_
  rw [bigSep_fin7]
  iintro ⟨Hd, H0, H1, H2, H3, H4, H5, H6⟩
  isplitl [Hd]; · iexact Hd
  isplitl [H3]; · iexact H3
  isplitl [H0]; · iexact H0
  isplitl [H6]; · iexact H6
  isplitl [H1]; · iexact H1
  isplitl [H5]; · iexact H5
  isplitl [H2]; · iexact H2
  iexact H4

/-- What the seven peers hand over with their signals: the ten slots this device copies into. -/
theorem bar_gifts (c : Dev nD) :
    (bigSep Finset.univ fun d : Fin 7 => (Rd (F := F) m).payload (barCell c) 0 d)
      = (iprop(((∃ f : Buf (Elt F) (rsSlot0.view.loc (pr 3 c : Thread nD τ)), rsSlot0.view.loc (pr 3 c : Thread nD τ) ↦[rsSlot0.view.set]{fullShare} f) ∗ (∃ f : Buf (Elt F) (agSlot0.view.loc (pr 3 c : Thread nD τ)), agSlot0.view.loc (pr 3 c : Thread nD τ) ↦[agSlot0.view.set]{fullShare} f))
          ∗ ((∃ f : Buf (Elt F) (rsSlot1.view.loc (pr 2 c : Thread nD τ)), rsSlot1.view.loc (pr 2 c : Thread nD τ) ↦[rsSlot1.view.set]{fullShare} f) ∗ (∃ f : Buf (Elt F) (agSlot1.view.loc (pr 2 c : Thread nD τ)), agSlot1.view.loc (pr 2 c : Thread nD τ) ↦[agSlot1.view.set]{fullShare} f))
          ∗ ((∃ f : Buf (Elt F) (rsSlot2.view.loc (pr 1 c : Thread nD τ)), rsSlot2.view.loc (pr 1 c : Thread nD τ) ↦[rsSlot2.view.set]{fullShare} f) ∗ (∃ f : Buf (Elt F) (agSlot2.view.loc (pr 1 c : Thread nD τ)), agSlot2.view.loc (pr 1 c : Thread nD τ) ↦[agSlot2.view.set]{fullShare} f))
          ∗ (∃ f : Buf (Elt F) (xgSlot1.view.loc (pr 7 c : Thread nD τ)), xgSlot1.view.loc (pr 7 c : Thread nD τ) ↦[xgSlot1.view.set]{fullShare} f) ∗ (∃ f : Buf (Elt F) (xgSlot2.view.loc (pr 6 c : Thread nD τ)), xgSlot2.view.loc (pr 6 c : Thread nD τ) ↦[xgSlot2.view.set]{fullShare} f) ∗ (∃ f : Buf (Elt F) (xgSlot3.view.loc (pr 5 c : Thread nD τ)), xgSlot3.view.loc (pr 5 c : Thread nD τ) ↦[xgSlot3.view.set]{fullShare} f) ∗ (∃ f : Buf (Elt F) (xgSlot0.view.loc (pr 4 c : Thread nD τ)), xgSlot0.view.loc (pr 4 c : Thread nD τ) ↦[xgSlot0.view.set]{fullShare} f)) : sProp 𝕄) := by
  rw [bigSep_fin7]
  rfl

/-- For each of the three copies, its read share of the chunk it sends beside that share of the rest of the send buffer. -/
theorem sb_cut (c : Dev nD) (f : Buf (Elt F) ((c : Thread nD τ).loc cc0_scratch0)) :
    ((sbM : Memref sig .tc .vmem S4x128x256 .bf16).view.loc (c : Thread nD τ) ↦[(sbM : Memref sig .tc .vmem S4x128x256 .bf16).view.set]{fullShare} f : sProp 𝕄)
      ⊢ iprop((((c : Thread nD τ).loc cc0_scratch0) ↦{Transfers.shareDrop fullShare 3} f)
          ∗ (pts c (slot4 sbM (k0_off2 c 1#32) (k0_off2_inb c 0)) (shSb 0) f ∗ (((c : Thread nD τ).loc cc0_scratch0) ↦[Finset.univ \ (slot4 sbM (k0_off2 c 1#32) (k0_off2_inb c 0)).view.set]{shSb 0} f))
          ∗ (pts c (slot4 sbM (k0_off2 c 2#32) (k0_off2_inb c 1)) (shSb 1) f ∗ (((c : Thread nD τ).loc cc0_scratch0) ↦[Finset.univ \ (slot4 sbM (k0_off2 c 2#32) (k0_off2_inb c 1)).view.set]{shSb 1} f))
          ∗ (pts c (slot4 sbM (k0_off2 c 3#32) (k0_off2_inb c 2)) (shSb 2) f ∗ (((c : Thread nD τ).loc cc0_scratch0) ↦[Finset.univ \ (slot4 sbM (k0_off2 c 3#32) (k0_off2_inb c 2)).view.set]{shSb 2} f))) := by
  refine (Entails.of_eq (sb_view (F := F) c fullShare f).symm).trans ?_
  refine (Transfers.pointsTo_toks_split (ℓ := ((c : Thread nD τ).loc cc0_scratch0)) (S := Finset.univ) (f := f) fullShare 3).trans ?_
  rw [bigSep_fin3]
  iintro ⟨Hd, H0, H1, H2⟩
  isplitl [Hd]; · iexact Hd
  isplitl [H0]; · iapply (sb_take (F := F) c 0 (shSb 0) f).1; iexact H0
  isplitl [H1]; · iapply (sb_take (F := F) c 1 (shSb 1) f).1; iexact H1
  iapply (sb_take (F := F) c 2 (shSb 2) f).1; iexact H2

theorem sbuf_fold (c : Dev nD) : k0_pay1 ((xM : Memref sig .tc .vmem S512x512 .f32).view.readAt (Elt F) (boxHalf c).toLoadRect (xstg m c)) = sbuf m c := rfl
theorem rbuf_fold (c : Dev nD) :
    k0_pay3 ((xM : Memref sig .tc .vmem S512x512 .f32).view.readAt (Elt F) (boxOwn c).toLoadRect (xstg m c))
      ((rsM : Memref sig .tc .vmem S3x128x256 .bf16).view.readAt (Elt F) box3_0.toLoadRect (rsLanded m c 0))
      ((rsM : Memref sig .tc .vmem S3x128x256 .bf16).view.readAt (Elt F) box3_1.toLoadRect (rsLanded m c 1))
      ((rsM : Memref sig .tc .vmem S3x128x256 .bf16).view.readAt (Elt F) box3_2.toLoadRect (rsLanded m c 2)) = rbuf m c := rfl

/-- A resource held but not looked at until it is taken out again. -/
def aside (P : sProp 𝕄) : sProp 𝕄 := P
theorem aside_in (P : sProp 𝕄) : P ⊢ aside P := BI.Entails.refl _
theorem aside_out (P : sProp 𝕄) : aside P ⊢ P := BI.Entails.refl _

/-- What the device still owes once its barrier signals are out and all but k of its ten landings are paid, in the order it pays them. -/
abbrev owe1 (c : Dev nD) : CellTallies nD τ sig Unit := (0 : CellTallies nD τ sig Unit) + tallyAt (dcell (pr 7 c) xfRecv1.sem) () N
abbrev owe2 (c : Dev nD) : CellTallies nD τ sig Unit := owe1 c + tallyAt (dcell (pr 3 c) agRecv0.sem) () N
abbrev owe3 (c : Dev nD) : CellTallies nD τ sig Unit := owe2 c + tallyAt (dcell (pr 6 c) xfRecv2.sem) () N
abbrev owe4 (c : Dev nD) : CellTallies nD τ sig Unit := owe3 c + tallyAt (dcell (pr 2 c) agRecv1.sem) () N
abbrev owe5 (c : Dev nD) : CellTallies nD τ sig Unit := owe4 c + tallyAt (dcell (pr 5 c) xfRecv3.sem) () N
abbrev owe6 (c : Dev nD) : CellTallies nD τ sig Unit := owe5 c + tallyAt (dcell (pr 1 c) agRecv2.sem) () N
abbrev owe7 (c : Dev nD) : CellTallies nD τ sig Unit := owe6 c + tallyAt (dcell (pr 4 c) xfRecv0.sem) () N
abbrev owe8 (c : Dev nD) : CellTallies nD τ sig Unit := owe7 c + tallyAt (dcell (pr 3 c) rsRecv0.sem) () N
abbrev owe9 (c : Dev nD) : CellTallies nD τ sig Unit := owe8 c + tallyAt (dcell (pr 2 c) rsRecv1.sem) () N
abbrev owe10 (c : Dev nD) : CellTallies nD τ sig Unit := owe9 c + tallyAt (dcell (pr 1 c) rsRecv2.sem) () N

/-- One remote copy. The schedule states a landing from the receiver's side, the sender being the receiver shifted by b: going to
    the peer and back returns to c, and what the slot held before never matters. -/
theorem wp_send_to (c n : Dev nD) (a b : Fin 8) (hn : n = pr a c) (hb : pr b (pr a c) = c)
    (src : Dev nD → Memref sig .tc .vmem S128x256 .bf16) (dst : Memref sig .tc .vmem S128x256 .bf16)
    (sS rS : DmaSem sig) (q : PosShare TreeShare)
    (fs : (e : Dev nD) → Buf (Elt F) ((src e).view.loc (e : Thread nD τ)))
    (g : (p : Dev nD) → Buf (Elt F) (dst.view.loc (p : Thread nD τ)))
    {hsc : (dst : Memref sig (Dev.tc n : Thread nD τ).2.kind .vmem S128x256 .bf16).view.ref.isScScratch = false}
    {hsrc : (src c).view.WordExact} {hdst : dst.view.WordExact}
    {hsem : DmaTarget.Typed .vmem (.dma rS) (.remote (Dev.tc n : Thread nD τ) dst (.dma sS) hsc)}
    {α : Type} {Q : α → sProp 𝕄} {k : PUnit → Prog (TpuEff nD τ sig (Elt F) Λ₀ .tc) α}
    (fd : Buf (Elt F) (dst.view.loc ((pr a c : Dev nD) : Thread nD τ)))
    (K : Dev nD × Fin 21 → ℕ) (k₁ k₂ : Fin 21) (O : CellTallies nD τ sig Unit) {W : Waits sig Unit}
    (hk₁ : kcell (c, k₁) = dcell c sS) (hk₂ : kcell (pr a c, k₂) = dcell (pr a c) rS)
    (hN : dst.view.amount (.dma rS) = N)
    (hpay₁ : (Rd (F := F) m).payload (dcell c sS) 0 (0 : Fin 7) = pts c (src c) q (fs c))
    (hpay₂ : ∀ p : Dev nD, (Rd (F := F) m).payload (dcell p rS) 0 (0 : Fin 7)
      = pts p dst fullShare (dst.view.write (Elt F) (g p) ((src (pr b p)).view.read (Elt F) (fs (pr b p))) Finset.univ)) :
    iprop((bigSep Finset.univ fun ck : Dev nD × Fin 21 => cellInv ER (Rd m) (K ck) (kcell ck))
        ∗ (bigSep Finset.univ fun ck : Dev nD × Fin 21 => reached ER (kcell ck) 0)
        ∗ ((src c).view.loc (c : Thread nD τ) ↦[(src c).view.set]{q} fs c) ∗ (dst.view.loc ((pr a c : Dev nD) : Thread nD τ) ↦[dst.view.set]{fullShare} fd)
        ∗ owes (c : Thread nD τ) (O + tallyAt (dcell (pr a c) rS) () N) W
        ∗ dutyTok ER (dcell c sS) 0 (0 : Fin 7) ∗ dutyTok ER (dcell (pr a c) rS) 0 (0 : Fin 7))
      ⊢ iprop(((cred (tallyAt (dcell c sS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src c) (.remote (Dev.tc n : Thread nD τ) dst (.dma sS) hsc) (.dma rS) hsrc hdst hsem) k) Q) := by
  subst hn
  have h₂ : (pts (pr a c) dst fullShare (dst.view.write (Elt F) fd ((src c).view.read (Elt F) (fs c)) Finset.univ) : sProp 𝕄)
      ⊢ (Rd (F := F) m).payload (dcell (pr a c) rS) 0 (0 : Fin 7) := by
    rw [hpay₂ (pr a c), hb]
    exact Entails.of_eq (landed_restate (pr a c) dst fd (g (pr a c)) _)
  have i₁ := inv_at m K (c, k₁) _ hk₁
  have i₂ := inv_at m K (pr a c, k₂) _ hk₂
  have r₁ := reached_at (F := F) (c, k₁) _ hk₁
  have r₂ := reached_at (F := F) (pr a c, k₂) _ hk₂
  refine BIBase.Entails.trans ?_ (Rounds.wp_send_pointsTo 𝒱₀ ER (Rd m) (c : Thread nD τ) none (κ₁ := K (c, k₁)) (κ₂ := K (pr a c, k₂))
    (r₁ := 0) (r₂ := 0) (d₁ := (0 : Fin 7)) (d₂ := (0 : Fin 7)) (fd := fd)
    (by rw [duties_dma]; exact Finset.mem_singleton_self _) (by rw [duties_dma]; exact Finset.mem_singleton_self _)
    () () N hN (amount_dma m c sS 0) (amount_dma m (pr a c) rS 0) O rfl (W := W) (Entails.of_eq hpay₁.symm) h₂)
  iintro ⟨#HI, #HR, Hs, Hd, HO, Ta, Tb⟩
  isplitr; · iapply i₁; iexact HI
  isplitr; · iapply i₂; iexact HI
  isplitl [Hs]; · iexact Hs
  isplitl [Hd]; · iexact Hd
  isplitl [HO]; · iexact HO
  isplitl [Ta]; · iexact Ta
  isplitr; · iapply r₁; iexact HR
  isplitl [Tb]; · iexact Tb
  iapply r₂; iexact HR

/-- A cell whose rounds are over gives back its counter at zero. -/
theorem close_cell (κ : ℕ) (g : GSem nD τ sig) :
    iprop(cellInv ER (Rd (F := F) m) κ g ∗ atPos ER g 1 ∅ 0) ⊢ (iprop(|={Set.univ}=> semVal g 0) : sProp 𝕄) :=
  Rounds.cell_close ER (Rd m) (Set.mem_univ κ) (fun h => h) (R := 1) (duties_later m g)

theorem sb_uncut (c : Dev nD) (f : Buf (Elt F) ((c : Thread nD τ).loc cc0_scratch0)) :
    iprop((((c : Thread nD τ).loc cc0_scratch0) ↦{Transfers.shareDrop fullShare 3} f)
          ∗ (pts c (slot4 sbM (k0_off2 c 1#32) (k0_off2_inb c 0)) (shSb 0) f ∗ (((c : Thread nD τ).loc cc0_scratch0) ↦[Finset.univ \ (slot4 sbM (k0_off2 c 1#32) (k0_off2_inb c 0)).view.set]{shSb 0} f))
          ∗ (pts c (slot4 sbM (k0_off2 c 2#32) (k0_off2_inb c 1)) (shSb 1) f ∗ (((c : Thread nD τ).loc cc0_scratch0) ↦[Finset.univ \ (slot4 sbM (k0_off2 c 2#32) (k0_off2_inb c 1)).view.set]{shSb 1} f))
          ∗ (pts c (slot4 sbM (k0_off2 c 3#32) (k0_off2_inb c 2)) (shSb 2) f ∗ (((c : Thread nD τ).loc cc0_scratch0) ↦[Finset.univ \ (slot4 sbM (k0_off2 c 3#32) (k0_off2_inb c 2)).view.set]{shSb 2} f)))
      ⊢ (someBuf (F := F) c cc0_scratch0 : sProp 𝕄) := by
  iintro ⟨Hd, H0, H1, H2⟩
  ihave H0' := (sb_take (F := F) c 0 (shSb 0) f).2 $$ H0
  ihave H1' := (sb_take (F := F) c 1 (shSb 1) f).2 $$ H1
  ihave H2' := (sb_take (F := F) c 2 (shSb 2) f).2 $$ H2
  iexists f
  iapply (Transfers.pointsTo_toks_join (ℓ := ((c : Thread nD τ).loc cc0_scratch0)) (S := Finset.univ) (f := f) fullShare 3)
  rw [bigSep_fin3]
  isplitl [Hd]; · iexact Hd
  isplitl [H0']; · iexact H0'
  isplitl [H1']; · iexact H1'
  iexact H2'

theorem rb_uncut (c : Dev nD) (f : Buf (Elt F) ((c : Thread nD τ).loc cc0_scratch2)) :
    iprop(pts c rbM (Transfers.shareDrop fullShare 7) f ∗ pts c rbM (shRb 0) f ∗ pts c rbM (shRb 1) f ∗ pts c rbM (shRb 2) f ∗ pts c rbM (shRb 3) f ∗ pts c rbM (shRb 4) f ∗ pts c rbM (shRb 5) f ∗ pts c rbM (shRb 6) f)
      ⊢ (someBuf (F := F) c cc0_scratch2 : sProp 𝕄) := by
  iintro ⟨Hd, H0, H1, H2, H3, H4, H5, H6⟩
  iexists f
  iapply (Entails.of_eq (rb_view (F := F) c fullShare f).symm)
  iapply (Transfers.pointsTo_toks_join (ℓ := (rbM : Memref sig .tc .vmem S128x256 .bf16).view.loc (c : Thread nD τ)) (S := (rbM : Memref sig .tc .vmem S128x256 .bf16).view.set) (f := f) fullShare 7)
  rw [bigSep_fin7]
  isplitl [Hd]; · iexact Hd
  isplitl [H0]; · iexact H0
  isplitl [H1]; · iexact H1
  isplitl [H2]; · iexact H2
  isplitl [H3]; · iexact H3
  isplitl [H4]; · iexact H4
  isplitl [H5]; · iexact H5
  iexact H6

theorem ownZero_intro (c : Dev nD) :
    iprop(semVal (dcell c rsSend0.sem) 0 ∗ semVal (dcell c rsSend1.sem) 0 ∗ semVal (dcell c rsSend2.sem) 0 ∗ semVal (dcell c rsRecv0.sem) 0 ∗ semVal (dcell c rsRecv1.sem) 0 ∗ semVal (dcell c rsRecv2.sem) 0 ∗ semVal (dcell c agSend0.sem) 0 ∗ semVal (dcell c agSend1.sem) 0 ∗ semVal (dcell c agSend2.sem) 0 ∗ semVal (dcell c agRecv0.sem) 0 ∗ semVal (dcell c agRecv1.sem) 0 ∗ semVal (dcell c agRecv2.sem) 0 ∗ semVal (dcell c xfSend0.sem) 0 ∗ semVal (dcell c xfSend1.sem) 0 ∗ semVal (dcell c xfSend2.sem) 0 ∗ semVal (dcell c xfSend3.sem) 0 ∗ semVal (dcell c xfRecv0.sem) 0 ∗ semVal (dcell c xfRecv1.sem) 0 ∗ semVal (dcell c xfRecv2.sem) 0 ∗ semVal (dcell c xfRecv3.sem) 0) ⊢ (ownZero (F := F) c : sProp 𝕄) := by
  unfold ownZero
  rw [bigSep_fin20]
  exact BI.Entails.refl _

theorem fetch_0 (t : Fin cfg0.N) : (cfg0.win (0 : Fin 2)).fetch t = true := fetch0_0 t

/-- The device's positions, the tokens it pays with and its credits, each cell named as the program names its semaphore. -/
theorem positions_named (c : Dev nD) : (positions c : sProp 𝕄) = iprop(atPos ER (barCell c) 0 ∅ 0 ∗ atPos ER (dcell c rsSend0.sem) 0 ∅ 0 ∗ atPos ER (dcell c rsSend1.sem) 0 ∅ 0 ∗ atPos ER (dcell c rsSend2.sem) 0 ∅ 0 ∗ atPos ER (dcell c rsRecv0.sem) 0 ∅ 0 ∗ atPos ER (dcell c rsRecv1.sem) 0 ∅ 0 ∗ atPos ER (dcell c rsRecv2.sem) 0 ∅ 0 ∗ atPos ER (dcell c agSend0.sem) 0 ∅ 0 ∗ atPos ER (dcell c agSend1.sem) 0 ∅ 0 ∗ atPos ER (dcell c agSend2.sem) 0 ∅ 0 ∗ atPos ER (dcell c agRecv0.sem) 0 ∅ 0 ∗ atPos ER (dcell c agRecv1.sem) 0 ∅ 0 ∗ atPos ER (dcell c agRecv2.sem) 0 ∅ 0 ∗ atPos ER (dcell c xfSend0.sem) 0 ∅ 0 ∗ atPos ER (dcell c xfSend1.sem) 0 ∅ 0 ∗ atPos ER (dcell c xfSend2.sem) 0 ∅ 0 ∗ atPos ER (dcell c xfSend3.sem) 0 ∅ 0 ∗ atPos ER (dcell c xfRecv0.sem) 0 ∅ 0 ∗ atPos ER (dcell c xfRecv1.sem) 0 ∅ 0 ∗ atPos ER (dcell c xfRecv2.sem) 0 ∅ 0 ∗ atPos ER (dcell c xfRecv3.sem) 0 ∅ 0) := by
  unfold positions; rw [bigSep_fin21]; rfl
theorem payToks_named (c : Dev nD) : (payToks c : sProp 𝕄) = iprop(dutyTok ER (barCell (pr 1 c)) 0 (0 : Fin 7) ∗ dutyTok ER (barCell (pr 2 c)) 0 (1 : Fin 7) ∗ dutyTok ER (barCell (pr 3 c)) 0 (2 : Fin 7) ∗ dutyTok ER (barCell (pr 5 c)) 0 (3 : Fin 7) ∗ dutyTok ER (barCell (pr 6 c)) 0 (4 : Fin 7) ∗ dutyTok ER (barCell (pr 7 c)) 0 (5 : Fin 7) ∗ dutyTok ER (barCell (pr 4 c)) 0 (6 : Fin 7) ∗ dutyTok ER (dcell (pr 1 c) rsRecv2.sem) 0 (0 : Fin 7) ∗ dutyTok ER (dcell (pr 2 c) rsRecv1.sem) 0 (0 : Fin 7) ∗ dutyTok ER (dcell (pr 3 c) rsRecv0.sem) 0 (0 : Fin 7) ∗ dutyTok ER (dcell (pr 4 c) xfRecv0.sem) 0 (0 : Fin 7) ∗ dutyTok ER (dcell (pr 1 c) agRecv2.sem) 0 (0 : Fin 7) ∗ dutyTok ER (dcell (pr 5 c) xfRecv3.sem) 0 (0 : Fin 7) ∗ dutyTok ER (dcell (pr 2 c) agRecv1.sem) 0 (0 : Fin 7) ∗ dutyTok ER (dcell (pr 6 c) xfRecv2.sem) 0 (0 : Fin 7) ∗ dutyTok ER (dcell (pr 3 c) agRecv0.sem) 0 (0 : Fin 7) ∗ dutyTok ER (dcell (pr 7 c) xfRecv1.sem) 0 (0 : Fin 7) ∗ dutyTok ER (dcell c rsSend0.sem) 0 (0 : Fin 7) ∗ dutyTok ER (dcell c rsSend1.sem) 0 (0 : Fin 7) ∗ dutyTok ER (dcell c rsSend2.sem) 0 (0 : Fin 7) ∗ dutyTok ER (dcell c agSend0.sem) 0 (0 : Fin 7) ∗ dutyTok ER (dcell c agSend1.sem) 0 (0 : Fin 7) ∗ dutyTok ER (dcell c agSend2.sem) 0 (0 : Fin 7) ∗ dutyTok ER (dcell c xfSend0.sem) 0 (0 : Fin 7) ∗ dutyTok ER (dcell c xfSend1.sem) 0 (0 : Fin 7) ∗ dutyTok ER (dcell c xfSend2.sem) 0 (0 : Fin 7) ∗ dutyTok ER (dcell c xfSend3.sem) 0 (0 : Fin 7)) := rfl
theorem creds_named (c : Dev nD) : (creds c : sProp 𝕄) = iprop(cred (tallyAt (barCell c) () 7) ∗ cred (tallyAt (dcell c rsRecv0.sem) () N) ∗ cred (tallyAt (dcell c rsRecv1.sem) () N) ∗ cred (tallyAt (dcell c rsRecv2.sem) () N) ∗ cred (tallyAt (dcell c agRecv0.sem) () N) ∗ cred (tallyAt (dcell c agRecv1.sem) () N) ∗ cred (tallyAt (dcell c agRecv2.sem) () N) ∗ cred (tallyAt (dcell c xfRecv0.sem) () N) ∗ cred (tallyAt (dcell c xfRecv1.sem) () N) ∗ cred (tallyAt (dcell c xfRecv2.sem) () N) ∗ cred (tallyAt (dcell c xfRecv3.sem) () N)) := rfl

attribute [local sl_rounds] duties_bar duties_dma amount_bar amount_dma expect_bar expect_dma
  xpay_dma2 xpay_dma3 xpay_dma4 xpay_dma5 xpay_dma6 xpay_dma7 xpay_dma8 xpay_dma9 xpay_dma10 xpay_dma11 xpay_dma12 xpay_dma13 xpay_dma14 xpay_dma15 xpay_dma16 xpay_dma17 xpay_dma18 xpay_dma19 xpay_dma20 xpay_dma21
  xpay_bar0 xpay_bar1 xpay_bar2 xpay_bar3 xpay_bar4 xpay_bar5 xpay_bar6

set_option maxHeartbeats 4000000 in
set_option maxRecDepth 65536 in
theorem sound_body (c : Dev nD) :
    bodyPre m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10)
          (fun _ => bodyPost m ρ c) := by
  unfold bodyPre Φ₀ start ghost scratch records
  rw [positions_named, payToks_named, creds_named]
  iintro ⟨⟨⟨⟨%K, ⟨#HI, #HR⟩, ⟨PB, P2, P3, P4, P5, P6, P7, P8, P9, P10, P11, P12, P13, P14, P15, P16, P17, P18, P19, P20, P21⟩, ⟨Tb0, Tb1, Tb2, Tb3, Tb4, Tb5, Tb6, Tr0, Tr1, Tr2, Tx0, Ta1, Td1, Ta2, Td2, Ta3, Td3, Ts2, Ts3, Ts4, Ts8, Ts9, Ts10, Ts14, Ts15, Ts16, Ts17⟩⟩, ⟨CB, C5, C6, C7, C11, C12, C13, C18, C19, C20, C21⟩, #Hlev⟩,
    ⟨⟨%f0, Hsb⟩, ⟨%f1, Hrs⟩, ⟨%f2, Hrb⟩, ⟨%f3, Hag⟩, ⟨%f4, Hxg⟩⟩⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [O₀, Oafter, sites, List.drop, owedFrom]
  ihave #HIB := (inv_at m K (c, 0) (barCell c) rfl) $$ HI
  ihave #HRB := (reached_at (F := F) (c, 0) (barCell c) rfl) $$ HR
  ihave #HID2 := (inv_at m K (c, 1) (dcell c rsSend0.sem) rfl) $$ HI
  ihave #HRD2 := (reached_at (F := F) (c, 1) (dcell c rsSend0.sem) rfl) $$ HR
  ihave #HID3 := (inv_at m K (c, 2) (dcell c rsSend1.sem) rfl) $$ HI
  ihave #HRD3 := (reached_at (F := F) (c, 2) (dcell c rsSend1.sem) rfl) $$ HR
  ihave #HID4 := (inv_at m K (c, 3) (dcell c rsSend2.sem) rfl) $$ HI
  ihave #HRD4 := (reached_at (F := F) (c, 3) (dcell c rsSend2.sem) rfl) $$ HR
  ihave #HID5 := (inv_at m K (c, 4) (dcell c rsRecv0.sem) rfl) $$ HI
  ihave #HRD5 := (reached_at (F := F) (c, 4) (dcell c rsRecv0.sem) rfl) $$ HR
  ihave #HID6 := (inv_at m K (c, 5) (dcell c rsRecv1.sem) rfl) $$ HI
  ihave #HRD6 := (reached_at (F := F) (c, 5) (dcell c rsRecv1.sem) rfl) $$ HR
  ihave #HID7 := (inv_at m K (c, 6) (dcell c rsRecv2.sem) rfl) $$ HI
  ihave #HRD7 := (reached_at (F := F) (c, 6) (dcell c rsRecv2.sem) rfl) $$ HR
  ihave #HID8 := (inv_at m K (c, 7) (dcell c agSend0.sem) rfl) $$ HI
  ihave #HRD8 := (reached_at (F := F) (c, 7) (dcell c agSend0.sem) rfl) $$ HR
  ihave #HID9 := (inv_at m K (c, 8) (dcell c agSend1.sem) rfl) $$ HI
  ihave #HRD9 := (reached_at (F := F) (c, 8) (dcell c agSend1.sem) rfl) $$ HR
  ihave #HID10 := (inv_at m K (c, 9) (dcell c agSend2.sem) rfl) $$ HI
  ihave #HRD10 := (reached_at (F := F) (c, 9) (dcell c agSend2.sem) rfl) $$ HR
  ihave #HID11 := (inv_at m K (c, 10) (dcell c agRecv0.sem) rfl) $$ HI
  ihave #HRD11 := (reached_at (F := F) (c, 10) (dcell c agRecv0.sem) rfl) $$ HR
  ihave #HID12 := (inv_at m K (c, 11) (dcell c agRecv1.sem) rfl) $$ HI
  ihave #HRD12 := (reached_at (F := F) (c, 11) (dcell c agRecv1.sem) rfl) $$ HR
  ihave #HID13 := (inv_at m K (c, 12) (dcell c agRecv2.sem) rfl) $$ HI
  ihave #HRD13 := (reached_at (F := F) (c, 12) (dcell c agRecv2.sem) rfl) $$ HR
  ihave #HID14 := (inv_at m K (c, 13) (dcell c xfSend0.sem) rfl) $$ HI
  ihave #HRD14 := (reached_at (F := F) (c, 13) (dcell c xfSend0.sem) rfl) $$ HR
  ihave #HID15 := (inv_at m K (c, 14) (dcell c xfSend1.sem) rfl) $$ HI
  ihave #HRD15 := (reached_at (F := F) (c, 14) (dcell c xfSend1.sem) rfl) $$ HR
  ihave #HID16 := (inv_at m K (c, 15) (dcell c xfSend2.sem) rfl) $$ HI
  ihave #HRD16 := (reached_at (F := F) (c, 15) (dcell c xfSend2.sem) rfl) $$ HR
  ihave #HID17 := (inv_at m K (c, 16) (dcell c xfSend3.sem) rfl) $$ HI
  ihave #HRD17 := (reached_at (F := F) (c, 16) (dcell c xfSend3.sem) rfl) $$ HR
  ihave #HID18 := (inv_at m K (c, 17) (dcell c xfRecv0.sem) rfl) $$ HI
  ihave #HRD18 := (reached_at (F := F) (c, 17) (dcell c xfRecv0.sem) rfl) $$ HR
  ihave #HID19 := (inv_at m K (c, 18) (dcell c xfRecv1.sem) rfl) $$ HI
  ihave #HRD19 := (reached_at (F := F) (c, 18) (dcell c xfRecv1.sem) rfl) $$ HR
  ihave #HID20 := (inv_at m K (c, 19) (dcell c xfRecv2.sem) rfl) $$ HI
  ihave #HRD20 := (reached_at (F := F) (c, 19) (dcell c xfRecv2.sem) rfl) $$ HR
  ihave #HID21 := (inv_at m K (c, 20) (dcell c xfRecv3.sem) rfl) $$ HI
  ihave #HRD21 := (reached_at (F := F) (c, 20) (dcell c xfRecv3.sem) rfl) $$ HR
  ihave #HIB_1 := (inv_at m K (pr 1 c, 0) (barCell (pr 1 c)) rfl) $$ HI
  ihave #HRB_1 := (reached_at (F := F) (pr 1 c, 0) (barCell (pr 1 c)) rfl) $$ HR
  ihave #HIB_2 := (inv_at m K (pr 2 c, 0) (barCell (pr 2 c)) rfl) $$ HI
  ihave #HRB_2 := (reached_at (F := F) (pr 2 c, 0) (barCell (pr 2 c)) rfl) $$ HR
  ihave #HIB_3 := (inv_at m K (pr 3 c, 0) (barCell (pr 3 c)) rfl) $$ HI
  ihave #HRB_3 := (reached_at (F := F) (pr 3 c, 0) (barCell (pr 3 c)) rfl) $$ HR
  ihave #HIB_5 := (inv_at m K (pr 5 c, 0) (barCell (pr 5 c)) rfl) $$ HI
  ihave #HRB_5 := (reached_at (F := F) (pr 5 c, 0) (barCell (pr 5 c)) rfl) $$ HR
  ihave #HIB_6 := (inv_at m K (pr 6 c, 0) (barCell (pr 6 c)) rfl) $$ HI
  ihave #HRB_6 := (reached_at (F := F) (pr 6 c, 0) (barCell (pr 6 c)) rfl) $$ HR
  ihave #HIB_7 := (inv_at m K (pr 7 c, 0) (barCell (pr 7 c)) rfl) $$ HI
  ihave #HRB_7 := (reached_at (F := F) (pr 7 c, 0) (barCell (pr 7 c)) rfl) $$ HR
  ihave #HIB_4 := (inv_at m K (pr 4 c, 0) (barCell (pr 4 c)) rfl) $$ HI
  ihave #HRB_4 := (reached_at (F := F) (pr 4 c, 0) (barCell (pr 4 c)) rfl) $$ HR
  ihave HO := (show (owes (c : Thread nD τ) ((((((((((((((((((0 : CellTallies nD τ sig Unit) + tallyAt (dcell (pr 7 c) 19) () N) + tallyAt (dcell (pr 3 c) 11) () N) + tallyAt (dcell (pr 6 c) 20) () N) + tallyAt (dcell (pr 2 c) 12) () N) + tallyAt (dcell (pr 5 c) 21) () N) + tallyAt (dcell (pr 1 c) 13) () N) + tallyAt (dcell (pr 4 c) 18) () N) + tallyAt (dcell (pr 3 c) 5) () N) + tallyAt (dcell (pr 2 c) 6) () N) + tallyAt (dcell (pr 1 c) 7) () N) + tallyAt (barCell (pr 4 c)) () 1) + tallyAt (barCell (pr 7 c)) () 1) + tallyAt (barCell (pr 6 c)) () 1) + tallyAt (barCell (pr 5 c)) () 1) + tallyAt (barCell (pr 3 c)) () 1) + tallyAt (barCell (pr 2 c)) () 1) + tallyAt (barCell (pr 1 c)) () 1) W : sProp 𝕄) ⊢ owes (c : Thread nD τ) ((((((((owe10 c) + tallyAt (barCell (pr 4 c)) () 1) + tallyAt (barCell (pr 7 c)) () 1) + tallyAt (barCell (pr 6 c)) () 1) + tallyAt (barCell (pr 5 c)) () 1) + tallyAt (barCell (pr 3 c)) () 1) + tallyAt (barCell (pr 2 c)) () 1) + tallyAt (barCell (pr 1 c)) () 1) W from BI.Entails.refl _) $$ HO
  ihave Hrs3 := (rs_splitX (F := F) c f1) $$ Hrs
  icases Hrs3 with ⟨Hrs0, Hrs1, Hrs2⟩
  ihave Hag3 := (ag_splitX (F := F) c f3) $$ Hag
  icases Hag3 with ⟨Hag0, Hag1, Hag2⟩
  ihave Hxg4 := (xg_splitX (F := F) c f4) $$ Hxg
  icases Hxg4 with ⟨Hxg1, Hxg2, Hxg3, Hxg0⟩
  ihave Hx := (Entails.of_eq (x_view (F := F) c fullShare (xstg m c))) $$ Hx
  ihave Hout := (Entails.of_eq (o_view (F := F) c fullShare g1)) $$ Hout
  ihave Hsb := (Entails.of_eq (sb_view (F := F) c fullShare f0)) $$ Hsb
  ihave Hrb := (Entails.of_eq (rb_view (F := F) c fullShare f2)) $$ Hrb
  have hmw_bar : (levAts L lv : sProp 𝕄) ⊢ MayWait (c : Thread nD τ) (.reg barS) () (owe10 c) := mayWait_bar (F := F) c
  have hmw_rs5 : (levAts L lv : sProp 𝕄) ⊢ MayWait (c : Thread nD τ) (.dma rsRecv0.sem) () (owe7 c) := mayWait_rs (F := F) c 5 (by decide)
  have hmw_rs6 : (levAts L lv : sProp 𝕄) ⊢ MayWait (c : Thread nD τ) (.dma rsRecv1.sem) () (owe7 c) := mayWait_rs (F := F) c 6 (by decide)
  have hmw_rs7 : (levAts L lv : sProp 𝕄) ⊢ MayWait (c : Thread nD τ) (.dma rsRecv2.sem) () (owe7 c) := mayWait_rs (F := F) c 7 (by decide)
  sl_unfold [cc0_body]
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  ihave Hg := (Entails.of_eq (bar_gifts (F := F) m c)) $$ PB_pay1
  icases Hg with ⟨⟨⟨%gr0, Grs0⟩, ⟨%ga0, Gag0⟩⟩, ⟨⟨%gr1, Grs1⟩, ⟨%ga1, Gag1⟩⟩, ⟨⟨%gr2, Grs2⟩, ⟨%ga2, Gag2⟩⟩, ⟨%gx1, Gxg1⟩, ⟨%gx2, Gxg2⟩, ⟨%gx3, Gxg3⟩, ⟨%gx0, Gxg0⟩⟩

  rw [sb_after (F := F) c, sbuf_fold (F := F) m c]
  ihave Hcut := (sb_cut (F := F) c (sbuf m c)) $$ Hsb
  icases Hcut with ⟨Hsbd, ⟨Hsb0, Hsbr0⟩, ⟨Hsb1, Hsbr1⟩, ⟨Hsb2, Hsbr2⟩⟩
  ihave Hsbd := (aside_in (F := F) _) $$ Hsbd
  ihave Hsbr0 := (aside_in (F := F) _) $$ Hsbr0
  ihave Hsbr1 := (aside_in (F := F) _) $$ Hsbr1
  ihave Hsbr2 := (aside_in (F := F) _) $$ Hsbr2
  ihave Hsb0 := (aside_in (F := F) _) $$ Hsb0
  ihave Hsb1 := (aside_in (F := F) _) $$ Hsb1
  ihave Hsb2 := (aside_in (F := F) _) $$ Hsb2

  ihave Hsb0 := (aside_out (F := F) _) $$ Hsb0
  iapply (wp_send_to (F := F) m c _ 1 3 (dev8_eq c) (pr_inv 1 c) (fun e => slot4 sbM (k0_off2 e 1#32) (k0_off2_inb e 0)) rsSlot2 rsSend0.sem rsRecv2.sem (shSb 0) (sbuf m) (fun p => m ((p : Thread nD τ).loc cc0_scratch1)) gr2
      K 1 6 (owe9 c) rfl rfl rfl rfl (fun _ => rfl))
    $$ [Hsb0 Grs2 HO Ts2 Tr0]
  · isplitr; · iexact HI
    isplitr; · iexact HR
    isplitl [Hsb0]; · iexact Hsb0
    isplitl [Grs2]; · iexact Grs2
    isplitl [HO]; · iexact HO
    isplitl [Ts2]; · iexact Ts2
    iexact Tr0
  iintro ⟨Cs2, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  ihave Hsb1 := (aside_out (F := F) _) $$ Hsb1
  iapply (wp_send_to (F := F) m c _ 2 2 (dev9_eq c) (pr_inv 2 c) (fun e => slot4 sbM (k0_off2 e 2#32) (k0_off2_inb e 1)) rsSlot1 rsSend1.sem rsRecv1.sem (shSb 1) (sbuf m) (fun p => m ((p : Thread nD τ).loc cc0_scratch1)) gr1
      K 2 5 (owe8 c) rfl rfl rfl rfl (fun _ => rfl))
    $$ [Hsb1 Grs1 HO Ts3 Tr1]
  · isplitr; · iexact HI
    isplitr; · iexact HR
    isplitl [Hsb1]; · iexact Hsb1
    isplitl [Grs1]; · iexact Grs1
    isplitl [HO]; · iexact HO
    isplitl [Ts3]; · iexact Ts3
    iexact Tr1
  iintro ⟨Cs3, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  ihave Hsb2 := (aside_out (F := F) _) $$ Hsb2
  iapply (wp_send_to (F := F) m c _ 3 1 (dev10_eq c) (pr_inv 3 c) (fun e => slot4 sbM (k0_off2 e 3#32) (k0_off2_inb e 2)) rsSlot0 rsSend2.sem rsRecv0.sem (shSb 2) (sbuf m) (fun p => m ((p : Thread nD τ).loc cc0_scratch1)) gr0
      K 3 4 (owe7 c) rfl rfl rfl rfl (fun _ => rfl))
    $$ [Hsb2 Grs0 HO Ts4 Tr2]
  · isplitr; · iexact HI
    isplitr; · iexact HR
    isplitl [Hsb2]; · iexact Hsb2
    isplitl [Grs0]; · iexact Grs0
    isplitl [HO]; · iexact HO
    isplitl [Ts4]; · iexact Ts4
    iexact Tr2
  iintro ⟨Cs4, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  rw [rb_after (F := F) c, rbuf_fold (F := F) m c]
  ihave Hrbc := (rb_cut (F := F) c (rbuf m c)) $$ Hrb
  icases Hrbc with ⟨Hrbd, Hrb3, Hrb0, Hrb6, Hrb1, Hrb5, Hrb2, Hrb4⟩

  iapply (wp_send_to (F := F) m c _ 4 4 (dev11_eq c) (pr_inv 4 c) (fun _ => (rbM : Memref sig .tc .vmem S128x256 .bf16)) xgSlot0 xfSend0.sem xfRecv0.sem (shRb 3) (rbuf m) (fun p => m ((p : Thread nD τ).loc cc0_scratch4)) gx0
      K 13 17 (owe6 c) rfl rfl rfl rfl (fun _ => rfl))
    $$ [Hrb3 Gxg0 HO Ts14 Tx0]
  · isplitr; · iexact HI
    isplitr; · iexact HR
    isplitl [Hrb3]; · iexact Hrb3
    isplitl [Gxg0]; · iexact Gxg0
    isplitl [HO]; · iexact HO
    isplitl [Ts14]; · iexact Ts14
    iexact Tx0
  iintro ⟨Cs14, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 1 3 (dev12_eq c) (pr_inv 1 c) (fun _ => (rbM : Memref sig .tc .vmem S128x256 .bf16)) agSlot2 agSend0.sem agRecv2.sem (shRb 0) (rbuf m) (fun p => m ((p : Thread nD τ).loc cc0_scratch3)) ga2
      K 7 12 (owe5 c) rfl rfl rfl rfl (fun _ => rfl))
    $$ [Hrb0 Gag2 HO Ts8 Ta1]
  · isplitr; · iexact HI
    isplitr; · iexact HR
    isplitl [Hrb0]; · iexact Hrb0
    isplitl [Gag2]; · iexact Gag2
    isplitl [HO]; · iexact HO
    isplitl [Ts8]; · iexact Ts8
    iexact Ta1
  iintro ⟨Cs8, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 5 7 (dev13_eq c) (pr_inv 5 c) (fun _ => (rbM : Memref sig .tc .vmem S128x256 .bf16)) xgSlot3 xfSend3.sem xfRecv3.sem (shRb 6) (rbuf m) (fun p => m ((p : Thread nD τ).loc cc0_scratch4)) gx3
      K 16 20 (owe4 c) rfl rfl rfl rfl (fun _ => rfl))
    $$ [Hrb6 Gxg3 HO Ts17 Td1]
  · isplitr; · iexact HI
    isplitr; · iexact HR
    isplitl [Hrb6]; · iexact Hrb6
    isplitl [Gxg3]; · iexact Gxg3
    isplitl [HO]; · iexact HO
    isplitl [Ts17]; · iexact Ts17
    iexact Td1
  iintro ⟨Cs17, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 2 2 (dev14_eq c) (pr_inv 2 c) (fun _ => (rbM : Memref sig .tc .vmem S128x256 .bf16)) agSlot1 agSend1.sem agRecv1.sem (shRb 1) (rbuf m) (fun p => m ((p : Thread nD τ).loc cc0_scratch3)) ga1
      K 8 11 (owe3 c) rfl rfl rfl rfl (fun _ => rfl))
    $$ [Hrb1 Gag1 HO Ts9 Ta2]
  · isplitr; · iexact HI
    isplitr; · iexact HR
    isplitl [Hrb1]; · iexact Hrb1
    isplitl [Gag1]; · iexact Gag1
    isplitl [HO]; · iexact HO
    isplitl [Ts9]; · iexact Ts9
    iexact Ta2
  iintro ⟨Cs9, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 6 6 (dev15_eq c) (pr_inv 6 c) (fun _ => (rbM : Memref sig .tc .vmem S128x256 .bf16)) xgSlot2 xfSend2.sem xfRecv2.sem (shRb 5) (rbuf m) (fun p => m ((p : Thread nD τ).loc cc0_scratch4)) gx2
      K 15 19 (owe2 c) rfl rfl rfl rfl (fun _ => rfl))
    $$ [Hrb5 Gxg2 HO Ts16 Td2]
  · isplitr; · iexact HI
    isplitr; · iexact HR
    isplitl [Hrb5]; · iexact Hrb5
    isplitl [Gxg2]; · iexact Gxg2
    isplitl [HO]; · iexact HO
    isplitl [Ts16]; · iexact Ts16
    iexact Td2
  iintro ⟨Cs16, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 3 1 (dev16_eq c) (pr_inv 3 c) (fun _ => (rbM : Memref sig .tc .vmem S128x256 .bf16)) agSlot0 agSend2.sem agRecv0.sem (shRb 2) (rbuf m) (fun p => m ((p : Thread nD τ).loc cc0_scratch3)) ga0
      K 9 10 (owe1 c) rfl rfl rfl rfl (fun _ => rfl))
    $$ [Hrb2 Gag0 HO Ts10 Ta3]
  · isplitr; · iexact HI
    isplitr; · iexact HR
    isplitl [Hrb2]; · iexact Hrb2
    isplitl [Gag0]; · iexact Gag0
    isplitl [HO]; · iexact HO
    isplitl [Ts10]; · iexact Ts10
    iexact Ta3
  iintro ⟨Cs10, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  iapply (wp_send_to (F := F) m c _ 7 5 (dev17_eq c) (pr_inv 7 c) (fun _ => (rbM : Memref sig .tc .vmem S128x256 .bf16)) xgSlot1 xfSend1.sem xfRecv1.sem (shRb 4) (rbuf m) (fun p => m ((p : Thread nD τ).loc cc0_scratch4)) gx1
      K 14 18 (0 : CellTallies nD τ sig Unit) rfl rfl rfl rfl (fun _ => rfl))
    $$ [Hrb4 Gxg1 HO Ts15 Td3]
  · isplitr; · iexact HI
    isplitr; · iexact HR
    isplitl [Hrb4]; · iexact Hrb4
    isplitl [Gxg1]; · iexact Gxg1
    isplitl [HO]; · iexact HO
    isplitl [Ts15]; · iexact Ts15
    iexact Td3
  iintro ⟨Cs15, HO⟩
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq])

  imod (close_cell (F := F) m (K (c, 1)) (dcell c rsSend0.sem)) $$ [P2] with Z2
  · isplitr; · iexact HID2
    iexact P2
  imod (close_cell (F := F) m (K (c, 2)) (dcell c rsSend1.sem)) $$ [P3] with Z3
  · isplitr; · iexact HID3
    iexact P3
  imod (close_cell (F := F) m (K (c, 3)) (dcell c rsSend2.sem)) $$ [P4] with Z4
  · isplitr; · iexact HID4
    iexact P4
  imod (close_cell (F := F) m (K (c, 4)) (dcell c rsRecv0.sem)) $$ [P5] with Z5
  · isplitr; · iexact HID5
    iexact P5
  imod (close_cell (F := F) m (K (c, 5)) (dcell c rsRecv1.sem)) $$ [P6] with Z6
  · isplitr; · iexact HID6
    iexact P6
  imod (close_cell (F := F) m (K (c, 6)) (dcell c rsRecv2.sem)) $$ [P7] with Z7
  · isplitr; · iexact HID7
    iexact P7
  imod (close_cell (F := F) m (K (c, 7)) (dcell c agSend0.sem)) $$ [P8] with Z8
  · isplitr; · iexact HID8
    iexact P8
  imod (close_cell (F := F) m (K (c, 8)) (dcell c agSend1.sem)) $$ [P9] with Z9
  · isplitr; · iexact HID9
    iexact P9
  imod (close_cell (F := F) m (K (c, 9)) (dcell c agSend2.sem)) $$ [P10] with Z10
  · isplitr; · iexact HID10
    iexact P10
  imod (close_cell (F := F) m (K (c, 10)) (dcell c agRecv0.sem)) $$ [P11] with Z11
  · isplitr; · iexact HID11
    iexact P11
  imod (close_cell (F := F) m (K (c, 11)) (dcell c agRecv1.sem)) $$ [P12] with Z12
  · isplitr; · iexact HID12
    iexact P12
  imod (close_cell (F := F) m (K (c, 12)) (dcell c agRecv2.sem)) $$ [P13] with Z13
  · isplitr; · iexact HID13
    iexact P13
  imod (close_cell (F := F) m (K (c, 13)) (dcell c xfSend0.sem)) $$ [P14] with Z14
  · isplitr; · iexact HID14
    iexact P14
  imod (close_cell (F := F) m (K (c, 14)) (dcell c xfSend1.sem)) $$ [P15] with Z15
  · isplitr; · iexact HID15
    iexact P15
  imod (close_cell (F := F) m (K (c, 15)) (dcell c xfSend2.sem)) $$ [P16] with Z16
  · isplitr; · iexact HID16
    iexact P16
  imod (close_cell (F := F) m (K (c, 16)) (dcell c xfSend3.sem)) $$ [P17] with Z17
  · isplitr; · iexact HID17
    iexact P17
  imod (close_cell (F := F) m (K (c, 17)) (dcell c xfRecv0.sem)) $$ [P18] with Z18
  · isplitr; · iexact HID18
    iexact P18
  imod (close_cell (F := F) m (K (c, 18)) (dcell c xfRecv1.sem)) $$ [P19] with Z19
  · isplitr; · iexact HID19
    iexact P19
  imod (close_cell (F := F) m (K (c, 19)) (dcell c xfRecv2.sem)) $$ [P20] with Z20
  · isplitr; · iexact HID20
    iexact P20
  imod (close_cell (F := F) m (K (c, 20)) (dcell c xfRecv3.sem)) $$ [P21] with Z21
  · isplitr; · iexact HID21
    iexact P21
  rw [wp_ret]; imodintro
  unfold bodyPost Φ₁ scratch Dat.owesAt Pipeline.owesWithin
  rw [show (dats m ρ 0 c).owed t₀.succ = 0 from rfl]
  ihave Hsbd := (aside_out (F := F) _) $$ Hsbd
  ihave Hsbr0 := (aside_out (F := F) _) $$ Hsbr0
  ihave Hsbr1 := (aside_out (F := F) _) $$ Hsbr1
  ihave Hsbr2 := (aside_out (F := F) _) $$ Hsbr2
  isplitl [Hsbd Hsbr0 Hsbr1 Hsbr2 P2_pay1 P3_pay1 P4_pay1 P5_pay1 P6_pay1 P7_pay1 Hrbd P8_pay1 P9_pay1 P10_pay1 P14_pay1 P15_pay1 P16_pay1 P17_pay1 P11_pay1 P12_pay1 P13_pay1 P18_pay1 P19_pay1 P20_pay1 P21_pay1 Z2 Z3 Z4 Z5 Z6 Z7 Z8 Z9 Z10 Z11 Z12 Z13 Z14 Z15 Z16 Z17 Z18 Z19 Z20 Z21]
  · isplitl [Hsbd Hsbr0 Hsbr1 Hsbr2 P2_pay1 P3_pay1 P4_pay1 P5_pay1 P6_pay1 P7_pay1 Hrbd P8_pay1 P9_pay1 P10_pay1 P14_pay1 P15_pay1 P16_pay1 P17_pay1 P11_pay1 P12_pay1 P13_pay1 P18_pay1 P19_pay1 P20_pay1 P21_pay1]
    ·
      isplitl [Hsbd Hsbr0 Hsbr1 Hsbr2 P2_pay1 P3_pay1 P4_pay1]
      · iapply (sb_uncut (F := F) c (sbuf m c))
        isplitl [Hsbd]; · iexact Hsbd
        isplitl [P2_pay1 Hsbr0]
        · isplitl [P2_pay1]; · iexact P2_pay1
          iexact Hsbr0
        isplitl [P3_pay1 Hsbr1]
        · isplitl [P3_pay1]; · iexact P3_pay1
          iexact Hsbr1
        isplitl [P4_pay1]; · iexact P4_pay1
        iexact Hsbr2
      isplitl [P5_pay1 P6_pay1 P7_pay1]
      · iapply (rs_join (F := F) c)
        isplitl [P5_pay1]; · iexists _; iexact P5_pay1
        isplitl [P6_pay1]; · iexists _; iexact P6_pay1
        iexists _; iexact P7_pay1
      isplitl [Hrbd P8_pay1 P9_pay1 P10_pay1 P14_pay1 P15_pay1 P16_pay1 P17_pay1]
      · iapply (rb_uncut (F := F) c (rbuf m c))
        isplitl [Hrbd]; · iexact Hrbd
        isplitl [P8_pay1]; · iexact P8_pay1
        isplitl [P9_pay1]; · iexact P9_pay1
        isplitl [P10_pay1]; · iexact P10_pay1
        isplitl [P14_pay1]; · iexact P14_pay1
        isplitl [P15_pay1]; · iexact P15_pay1
        isplitl [P16_pay1]; · iexact P16_pay1
        iexact P17_pay1
      isplitl [P11_pay1 P12_pay1 P13_pay1]
      · iapply (ag_join (F := F) c)
        isplitl [P11_pay1]; · iexists _; iexact P11_pay1
        isplitl [P12_pay1]; · iexists _; iexact P12_pay1
        iexists _; iexact P13_pay1
      iapply (xg_join (F := F) c)
      isplitl [P18_pay1]; · iexists _; iexact P18_pay1
      isplitl [P19_pay1]; · iexists _; iexact P19_pay1
      isplitl [P20_pay1]; · iexists _; iexact P20_pay1
      iexists _; iexact P21_pay1
    · iapply (ownZero_intro (F := F) c)
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      isplitl [Z16]; · iexact Z16
      isplitl [Z17]; · iexact Z17
      isplitl [Z18]; · iexact Z18
      isplitl [Z19]; · iexact Z19
      isplitl [Z20]; · iexact Z20
      iexact Z21
  isplitl [HO]
  · iexists _
    isplitr
    swap
    · iexact HO
    · ipureintro; exact fun _ _ => Or.inl trivial
  isplitl [Hx]
  · iexists _; isplitr; · (ipureintro; rfl)
    iapply (Entails.of_eq (x_view (F := F) c fullShare _).symm); iexact Hx
  iexists (outFrom m c g1)
  isplitr; · ipureintro; exact outFrom_indep m c g1 _
  iapply (Entails.of_eq (o_view (F := F) c fullShare _).symm); iexact Hout

end Cert.Kernel.Hand

end
-- ==== Proof.KLaunchGhost.lean ====
import proofs.«900737_g7700000000000738_dist_ar_v7x_xyz2x4x4_z_m512_n512_bf16_1_alg».proof.Proof.KGhost
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def csemIdx : SemLoc sig → ℕ
  | .reg _ => 0
  | .dma n => n.val - 1

theorem csemIdx_csem : ∀ k : Fin 21, csemIdx (csem k) = k.val
  | ⟨0, _⟩ => rfl
  | ⟨k + 1, _⟩ => by show k + 2 - 1 = k + 1; omega

theorem kcell_injective : Function.Injective (kcell : Dev nD × Fin 21 → GSem nD τ sig) := by
  rintro ⟨c, k⟩ ⟨c', k'⟩ h
  have h1 : c = c' := congrArg (fun g : GSem nD τ sig => g.1.1) h
  have h2 : csem k = csem k' := congrArg Prod.snd h
  have h3 : k = k' := Fin.ext (by rw [← csemIdx_csem k, ← csemIdx_csem k', h2])
  rw [h1, h3]

def ringCells : Finset (GSem nD τ sig) := Finset.univ.map ⟨kcell, kcell_injective⟩

abbrev tokOf : (Dev nD × Fin 7) ⊕ (Dev nD × Fin 20) → GSem nD τ sig × ℕ × Fin 7
  | .inl cj => (barCell cj.1, 0, cj.2)
  | .inr ck => (((ck.1 : Thread nD τ), osem ck.2), 0, 0)

theorem tokOf_injective : Function.Injective tokOf := by
  rintro (⟨c, j⟩ | ⟨c, k⟩) (⟨c', j'⟩ | ⟨c', k'⟩) h
  · have h1 : c = c' := congrArg (fun x : GSem nD τ sig × ℕ × Fin 7 => x.1.1.1) h
    have h2 : j = j' := congrArg (fun x : GSem nD τ sig × ℕ × Fin 7 => x.2.2) h
    rw [h1, h2]
  · exact absurd (congrArg (fun x : GSem nD τ sig × ℕ × Fin 7 => x.1.2) h) (fun h' => by cases h')
  · exact absurd (congrArg (fun x : GSem nD τ sig × ℕ × Fin 7 => x.1.2) h) (fun h' => by cases h')
  · have h1 : c = c' := congrArg (fun x : GSem nD τ sig × ℕ × Fin 7 => x.1.1.1) h
    have h2 : osem k = osem k' := congrArg (fun x : GSem nD τ sig × ℕ × Fin 7 => x.1.2) h
    have h3 : k.val + 2 - 1 = k'.val + 2 - 1 := congrArg csemIdx h2
    have h4 : k = k' := Fin.ext (by omega)
    rw [h1, h4]

def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun j : Fin 7 => dutyTok ER (barCell c) 0 j)
    ∗ bigSep Finset.univ fun k : Fin 20 => dutyTok ER (((c : Thread nD τ), osem k) : GSem nD τ sig) 0 (0 : Fin 7))

def G (c : Dev nD) : sProp 𝕄 :=
  iprop((bigSep Finset.univ fun k : Fin 21 => roundState ER (Rd m) (kcell (c, k)) 0)
    ∗ (bigSep Finset.univ fun k : Fin 21 => iprop(atPos ER (kcell (c, k)) 0 ∅ 0 ∗ reached ER (kcell (c, k)) 0)) ∗ toks (F := F) c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 21 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_map, bigSep_univ_sum, bigSep_univ_prod, bigSep_univ_prod, bigSep_sep']
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

theorem ownSems0_eq (c : Dev nD) : (Pipeline.ownSems0 (Ix := Unit) (Name := ℕ) (U := UU) (Lvl := ℕ) (Val := Elt F) (τ := τ) osem c : sProp 𝕄) = ownZero c := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, bigSep_fin21]
  unfold ownZero
  rw [bigSep_fin20]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 21 => iprop(∃ κ : ℕ, cellInv ER (Rd m) κ (kcell (c, k))))
          ∗ (bigSep Finset.univ fun k : Fin 21 => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (Rd m) (kcell (c, k)) 0)
      ⊢ (|={Set.univ}=> bigSep Finset.univ fun k : Fin 21 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 21 → ℕ) (c : Dev nD) :
    iprop(records m K ∗ positions (F := F) c ∗ payToks (F := F) c) ⊢ G' m c := by
  unfold G' ghost
  iintro H
  iexists K
  iexact H

theorem toks_lit (c : Dev nD) :
    (toks c : sProp 𝕄) = iprop((dutyTok ER (barCell c) 0 (0 : Fin 7) ∗ dutyTok ER (barCell c) 0 (1 : Fin 7) ∗ dutyTok ER (barCell c) 0 (2 : Fin 7) ∗ dutyTok ER (barCell c) 0 (3 : Fin 7) ∗ dutyTok ER (barCell c) 0 (4 : Fin 7) ∗ dutyTok ER (barCell c) 0 (5 : Fin 7) ∗ dutyTok ER (barCell c) 0 (6 : Fin 7))
      ∗ (dutyTok ER (dcell c 2) 0 (0 : Fin 7) ∗ dutyTok ER (dcell c 3) 0 (0 : Fin 7) ∗ dutyTok ER (dcell c 4) 0 (0 : Fin 7) ∗ dutyTok ER (dcell c 5) 0 (0 : Fin 7) ∗ dutyTok ER (dcell c 6) 0 (0 : Fin 7) ∗ dutyTok ER (dcell c 7) 0 (0 : Fin 7) ∗ dutyTok ER (dcell c 8) 0 (0 : Fin 7)
        ∗ dutyTok ER (dcell c 9) 0 (0 : Fin 7) ∗ dutyTok ER (dcell c 10) 0 (0 : Fin 7) ∗ dutyTok ER (dcell c 11) 0 (0 : Fin 7) ∗ dutyTok ER (dcell c 12) 0 (0 : Fin 7) ∗ dutyTok ER (dcell c 13) 0 (0 : Fin 7) ∗ dutyTok ER (dcell c 14) 0 (0 : Fin 7) ∗ dutyTok ER (dcell c 15) 0 (0 : Fin 7)
        ∗ dutyTok ER (dcell c 16) 0 (0 : Fin 7) ∗ dutyTok ER (dcell c 17) 0 (0 : Fin 7) ∗ dutyTok ER (dcell c 18) 0 (0 : Fin 7) ∗ dutyTok ER (dcell c 19) 0 (0 : Fin 7) ∗ dutyTok ER (dcell c 20) 0 (0 : Fin 7) ∗ dutyTok ER (dcell c 21) 0 (0 : Fin 7))) := by
  unfold toks; rw [bigSep_fin7, bigSep_fin20]; rfl

/-- Over all devices, the tokens by owner are the tokens by payer, reindexed along the shift, a bijection of the devices. -/
theorem toks_around : (bigSep Finset.univ fun c : Dev nD => (toks c : sProp 𝕄)) ⊢ bigSep Finset.univ fun c : Dev nD => payToks c := by
  have hB (a : Fin 8) (j : Fin 7) : (bigSep Finset.univ fun c : Dev nD => (dutyTok ER (barCell c) 0 j : sProp 𝕄))
      ⊢ bigSep Finset.univ fun c : Dev nD => dutyTok ER (barCell (pr a c)) 0 j :=
    Entails.of_eq (bigSep_univ_equiv (prEquiv a) fun c : Dev nD => (dutyTok ER (barCell c) 0 j : sProp 𝕄))
  have hD (a : Fin 8) (n : DmaSem sig) : (bigSep Finset.univ fun c : Dev nD => (dutyTok ER (dcell c n) 0 (0 : Fin 7) : sProp 𝕄))
      ⊢ bigSep Finset.univ fun c : Dev nD => dutyTok ER (dcell (pr a c) n) 0 (0 : Fin 7) :=
    Entails.of_eq (bigSep_univ_equiv (prEquiv a) fun c : Dev nD => (dutyTok ER (dcell c n) 0 (0 : Fin 7) : sProp 𝕄))
  refine (Entails.of_eq (bigSep_congr fun c _ => toks_lit (F := F) c)).trans ?_
  unfold payToks
  simp only [bigSep_sep']
  iintro ⟨⟨B0, B1, B2, B3, B4, B5, B6⟩, D2, D3, D4, D5, D6, D7, D8, D9, D10, D11, D12, D13, D14, D15, D16, D17, D18, D19, D20, D21⟩
  isplitl [B0]; · ihave H := (hB 1 0) $$ B0; iexact H
  isplitl [B1]; · ihave H := (hB 2 1) $$ B1; iexact H
  isplitl [B2]; · ihave H := (hB 3 2) $$ B2; iexact H
  isplitl [B3]; · ihave H := (hB 5 3) $$ B3; iexact H
  isplitl [B4]; · ihave H := (hB 6 4) $$ B4; iexact H
  isplitl [B5]; · ihave H := (hB 7 5) $$ B5; iexact H
  isplitl [B6]; · ihave H := (hB 4 6) $$ B6; iexact H
  isplitl [D7]; · ihave H := (hD 1 7) $$ D7; iexact H
  isplitl [D6]; · ihave H := (hD 2 6) $$ D6; iexact H
  isplitl [D5]; · ihave H := (hD 3 5) $$ D5; iexact H
  isplitl [D18]; · ihave H := (hD 4 18) $$ D18; iexact H
  isplitl [D13]; · ihave H := (hD 1 13) $$ D13; iexact H
  isplitl [D21]; · ihave H := (hD 5 21) $$ D21; iexact H
  isplitl [D12]; · ihave H := (hD 2 12) $$ D12; iexact H
  isplitl [D20]; · ihave H := (hD 6 20) $$ D20; iexact H
  isplitl [D11]; · ihave H := (hD 3 11) $$ D11; iexact H
  isplitl [D19]; · ihave H := (hD 7 19) $$ D19; iexact H
  isplitl [D2]; · iexact D2
  isplitl [D3]; · iexact D3
  isplitl [D4]; · iexact D4
  isplitl [D8]; · iexact D8
  isplitl [D9]; · iexact D9
  isplitl [D10]; · iexact D10
  isplitl [D14]; · iexact D14
  isplitl [D15]; · iexact D15
  isplitl [D16]; · iexact D16
  iexact D17

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 21 => iprop(∃ κ : ℕ, cellInv ER (Rd m) κ (kcell (c, k))))
          ∗ (bigSep Finset.univ fun k : Fin 21 => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 21 => iprop(∃ κ : ℕ, cellInv ER (Rd m) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]
    · unfold positions; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Hand.glob' depends on axioms: [propext, Classical.choice, Quot.sound] -/
#guard_msgs in #print axioms glob
/-- info: 'Cert.Kernel.Hand.hu₀' depends on axioms: [propext, Classical.choice, Quot.sound] -/
#guard_msgs in #print axioms hu₀

end Cert.Kernel.Hand

end
-- ==== Proof.KLaunchEnds.lean ====
import proofs.«900737_g7700000000000738_dist_ar_v7x_xyz2x4x4_z_m512_n512_bf16_1_alg».proof.Proof.KGhost
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare :=
  Pipeline.Dat.share_full _ (fun _ => rfl) w

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

abbrev dueSite (d : Dev nD) (x : Fin 8 × SemLoc sig × ℕ) : GSem nD τ sig × ℕ :=
  ((((pr x.1 d : Dev nD) : Thread nD τ), x.2.1), x.2.2)

abbrev dues : List (Fin 8 × SemLoc sig × ℕ) :=
  [ (1, .reg barS, 1), (2, .reg barS, 1), (3, .reg barS, 1), (5, .reg barS, 1), (6, .reg barS, 1), (7, .reg barS, 1),
    (4, .reg barS, 1),
    (1, .dma 7, N), (2, .dma 6, N), (3, .dma 5, N),
    (4, .dma 18, N),
    (1, .dma 13, N), (5, .dma 21, N),
    (2, .dma 12, N), (6, .dma 20, N),
    (3, .dma 11, N), (7, .dma 19, N) ]

theorem O₀_eq_dues : (O₀ : Dev nD → CellTallies nD τ sig Unit) = fun d => owedFrom (dues.map (dueSite d)) :=
  funext fun d => rfl

theorem launchCred_dues (l : List (Fin 8 × SemLoc sig × ℕ)) (c : Dev nD) :
    (Pipeline.launchCred (fun d => owedFrom (l.map (dueSite d))) c : sProp 𝕄)
      ⊢ bigSepL l fun x => cred (tallyAt ((c : Thread nD τ), x.2.1) () x.2.2) := by
  induction l with
  | nil =>
    show (Pipeline.launchCred (fun _ : Dev nD => (0 : CellTallies nD τ sig Unit)) c : sProp 𝕄) ⊢ _
    rw [Pipeline.launchCred_zero]
    exact Entails.rfl
  | cons x rest ih =>
    show (Pipeline.launchCred (fun d => owedFrom (rest.map (dueSite d)) + tallyAt (dueSite d x).1 () (dueSite d x).2) c : sProp 𝕄) ⊢ _
    rw [Pipeline.launchCred_add, bigSepL_cons]
    show _ ⊢ iprop(cred (tallyAt ((c : Thread nD τ), x.2.1) () x.2.2)
      ∗ bigSepL rest fun x => cred (tallyAt ((c : Thread nD τ), x.2.1) () x.2.2))
    iintro ⟨Hrest, Hx⟩
    isplitl [Hx]
    · iapply (Pipeline.launchCred_tallyAt x.2.1 (pr x.1) (pr (inv x.1)) (inv_pr x.1) (pr_inv x.1) () x.2.2 c)
      iexact Hx
    · iapply ih
      iexact Hrest

theorem cred_succ (g : GSem nD τ sig) (n : ℕ) :
    iprop(cred (tallyAt g () 1) ∗ cred (tallyAt g () n)) ⊢ (cred (tallyAt g () (1 + n)) : sProp 𝕄) := by
  rw [← tallyAt_add]
  exact (cred_add _ _).2

theorem cred_seven (g : GSem nD τ sig) :
    iprop(cred (tallyAt g () 1) ∗ cred (tallyAt g () 1) ∗ cred (tallyAt g () 1) ∗ cred (tallyAt g () 1)
        ∗ cred (tallyAt g () 1) ∗ cred (tallyAt g () 1) ∗ cred (tallyAt g () 1))
      ⊢ (cred (tallyAt g () 7) : sProp 𝕄) := by
  iintro ⟨H1, H2, H3, H4, H5, H6, H7⟩
  iapply (cred_succ (F := F) g 6); isplitl [H1]; · iexact H1
  iapply (cred_succ (F := F) g 5); isplitl [H2]; · iexact H2
  iapply (cred_succ (F := F) g 4); isplitl [H3]; · iexact H3
  iapply (cred_succ (F := F) g 3); isplitl [H4]; · iexact H4
  iapply (cred_succ (F := F) g 2); isplitl [H5]; · iexact H5
  iapply (cred_succ (F := F) g 1); isplitl [H6]; · iexact H6
  iexact H7

theorem creds_of_launch (c : Dev nD) : (Pipeline.launchCred O₀ c : sProp 𝕄) ⊢ creds c := by
  rw [O₀_eq_dues]
  refine (launchCred_dues dues c).trans ?_
  unfold creds
  show iprop(cred (tallyAt (barCell c) () 1) ∗ cred (tallyAt (barCell c) () 1) ∗ cred (tallyAt (barCell c) () 1)
      ∗ cred (tallyAt (barCell c) () 1) ∗ cred (tallyAt (barCell c) () 1) ∗ cred (tallyAt (barCell c) () 1)
      ∗ cred (tallyAt (barCell c) () 1)
      ∗ cred (tallyAt (dcell c 7) () N) ∗ cred (tallyAt (dcell c 6) () N) ∗ cred (tallyAt (dcell c 5) () N)
      ∗ cred (tallyAt (dcell c 18) () N)
      ∗ cred (tallyAt (dcell c 13) () N) ∗ cred (tallyAt (dcell c 21) () N)
      ∗ cred (tallyAt (dcell c 12) () N) ∗ cred (tallyAt (dcell c 20) () N)
      ∗ cred (tallyAt (dcell c 11) () N) ∗ cred (tallyAt (dcell c 19) () N)) ⊢ _
  iintro ⟨B1, B2, B3, B5, B6, B7, B4, D7, D6, D5, D18, D13, D21, D12, D20, D11, D19⟩
  isplitl [B1 B2 B3 B5 B6 B7 B4]
  · iapply (cred_seven (F := F) (barCell c))
    isplitl [B1]; · iexact B1
    isplitl [B2]; · iexact B2
    isplitl [B3]; · iexact B3
    isplitl [B5]; · iexact B5
    isplitl [B6]; · iexact B6
    isplitl [B7]; · iexact B7
    iexact B4
  isplitl [D5]; · iexact D5
  isplitl [D6]; · iexact D6
  isplitl [D7]; · iexact D7
  isplitl [D11]; · iexact D11
  isplitl [D12]; · iexact D12
  isplitl [D13]; · iexact D13
  isplitl [D18]; · iexact D18
  isplitl [D19]; · iexact D19
  isplitl [D20]; · iexact D20
  iexact D21

theorem start_intro (G' : Dev nD → sProp 𝕄) (hG' : ∀ c, G' c = iprop(∃ K, ghost m K c)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' c)
      ⊢ |={Set.univ}=> iprop(start m c ∗ emp) := by
  rw [hG']
  iintro ⟨-, Hlev, Hcr, -, HG⟩
  imodintro
  unfold start
  isplitl
  · isplitl [HG]; · iexact HG
    isplitl [Hcr]
    · iapply (creds_of_launch (F := F) c); iexact Hcr
    · iexact Hlev
  · iempintro

theorem phi0_intro (c : Dev nD) :
    iprop(start m c ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]
  · iexact Hs
  · iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq,
    show (Pipeline.ownSems0 osem c : sProp 𝕄) = ownZero c from rfl]
  unfold Φ₁ scratch
  iintro ⟨Hr, Hz⟩
  isplitr
  · iempintro
  isplitl [Hz]
  · iexact Hz
  · iexact Hr

/-- info: 'Cert.Kernel.Hand.creds_of_launch' depends on axioms: [propext, Classical.choice, Quot.sound] -/
#guard_msgs in #print axioms creds_of_launch
/-- info: 'Cert.Kernel.Hand.start_intro' depends on axioms: [propext, Classical.choice, Quot.sound] -/
#guard_msgs in #print axioms start_intro

end Cert.Kernel.Hand

end
-- ==== Proof.KLaunch.lean ====
import proofs.«900737_g7700000000000738_dist_ar_v7x_xyz2x4x4_z_m512_n512_bf16_1_alg».proof.Proof.KBody
import proofs.«900737_g7700000000000738_dist_ar_v7x_xyz2x4x4_z_m512_n512_bf16_1_alg».proof.Proof.KLaunchGhost
import proofs.«900737_g7700000000000738_dist_ar_v7x_xyz2x4x4_z_m512_n512_bf16_1_alg».proof.Proof.KLaunchEnds
import Idealize.ShloMosaic.Lib.Pipeline.Launch
import Idealize.ShloMosaic.Lib.Pipeline.Kit

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in

theorem body_obligation (c : Dev nD) : BodyObligation (dats (F := F) m ρ 0 c) (defs₀ (F := F)) 𝒱₀ () Set.univ := fun t => by
  rw [fin_N t]
  rw [Gen.bigSep_W0, Gen.bigSep_W0]
  simp only [owns_whole_eq]
  show bodyPre m ρ c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10)
          (fun _ => bodyPost m ρ c)
  exact sound_body m ρ c

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in

theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ (G' m) (fun _ => rfl)) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

end Cert.Kernel.Hand

end
-- ==== Proof.KFinal.lean ====
import proofs.«900737_g7700000000000738_dist_ar_v7x_xyz2x4x4_z_m512_n512_bf16_1_alg».proof.Proof.KGhost
import Idealize.ShloMosaic.Lib.Pipeline.Kit
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_x (c : Dev nD) :
    (dats m ρ 0 c).arrAt (0 : Fin 2) cfg0.N = (s₀ m ρ).mem (win0_0.arr.view.loc (c : Thread nD τ)) :=
  (dats m ρ 0 c).arrAt_in (0 : Fin 2) rfl cfg0.N

theorem finalA_out (c : Dev nD) : (dats m ρ 0 c).arrAt (1 : Fin 2) cfg0.N = outAt m c := by
  have h := (dats m ρ 0 c).arrAt_succ (1 : Fin 2) t₀
  rw [flush0_1 t₀, if_pos rfl] at h
  rw [cfg0_N]
  exact h.trans (Memref.write_access_unit_zero_univ (Elt F) main_v1
    (off := fun a => win0_1.index t₀ a * win0_1.size a) (funext fun a => Nat.zero_mul _) _ _ _)

end Cert.Kernel.Hand

end
-- ==== Proof.ClaimKernel.lean ====
/- The frame of the kernel as printed: its run with the results dropped. -/
import proofs.«900737_g7700000000000738_dist_ar_v7x_xyz2x4x4_z_m512_n512_bf16_1_alg».proof.Defs
import proofs.«900737_g7700000000000738_dist_ar_v7x_xyz2x4x4_z_m512_n512_bf16_1_alg».proof.Proof.KLaunch
import proofs.«900737_g7700000000000738_dist_ar_v7x_xyz2x4x4_z_m512_n512_bf16_1_alg».proof.Proof.KFinal
import proofs.«900737_g7700000000000738_dist_ar_v7x_xyz2x4x4_z_m512_n512_bf16_1_alg».proof.Proof.Gen.Kernel
import proofs.«900737_g7700000000000738_dist_ar_v7x_xyz2x4x4_z_m512_n512_bf16_1_alg».proof.Proof.Gen.Pre_finite_inputs_Kernel

noncomputable section

namespace Cert.Proof.Assemble

open Idealize.ShloMosaic Idealize.SL.Sem

theorem frame_k : Cert.frame_Kernel :=
  fun m ρ _ => (θ_run Cert.Kernel.defs _ _).mono
    (fun r h c => (h c (0 : Fin 2)).trans (Cert.Kernel.Hand.finalA_x m ρ c))
    (Cert.Kernel.Hand.run_main (F := Bits) m ρ)

/-- info: 'Cert.Proof.Assemble.frame_k' depends on axioms: [propext, Classical.choice, Quot.sound] -/
#guard_msgs in #print axioms frame_k

end Cert.Proof.Assemble

end
-- ==== Proof.lean ====
/- The all-reduce of a [2048, 512] array over the z axis of a 2 × 4 × 4 mesh, against the one-device sum of its four row blocks.
   Device (x, y, z) holds row block z. The eight devices of a y-plane handshake, each signalling the seven others and waiting for
   seven. Each device then reduce-scatters its own column half over its z ring (chunk q goes to z = q, which adds its own chunk and
   the three it receives) and gathers: it sends its reduced chunk to the three other devices of its z ring and to the four of the
   other x half, so every device ends with all four chunks of both halves. At the ideal instance a change of float format is the
   identity and the sum over z is a sum of extended reals in some order. Every wait is on a cell strictly below everything the
   waiter still owes, every landing slot is written by exactly one copy whose issuer owns it from the handshake on, and each
   source is read on its own share. The idealization rewrote nothing, so the preservation claim is trivial. -/
import proofs.«900737_g7700000000000738_dist_ar_v7x_xyz2x4x4_z_m512_n512_bf16_1_alg».proof.Defs
import proofs.«900737_g7700000000000738_dist_ar_v7x_xyz2x4x4_z_m512_n512_bf16_1_alg».proof.Proof.ClaimIdeal
import proofs.«900737_g7700000000000738_dist_ar_v7x_xyz2x4x4_z_m512_n512_bf16_1_alg».proof.Proof.ClaimKernel
import proofs.«900737_g7700000000000738_dist_ar_v7x_xyz2x4x4_z_m512_n512_bf16_1_alg».proof.Proof.Gen.Kernel
import proofs.«900737_g7700000000000738_dist_ar_v7x_xyz2x4x4_z_m512_n512_bf16_1_alg».proof.Proof.Gen.KernelIdeal
import proofs.«900737_g7700000000000738_dist_ar_v7x_xyz2x4x4_z_m512_n512_bf16_1_alg».proof.Proof.Gen.ReferenceIdeal
import proofs.«900737_g7700000000000738_dist_ar_v7x_xyz2x4x4_z_m512_n512_bf16_1_alg».proof.Proof.Gen.Pre_finite_inputs_Kernel
import proofs.«900737_g7700000000000738_dist_ar_v7x_xyz2x4x4_z_m512_n512_bf16_1_alg».proof.Proof.Gen.Pre_finite_inputs_ReferenceIdeal
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.Assemble.frame_k, Cert.Proof.Assemble.frame_ki, Cert.Proof.Assemble.frame_ri, trivial, Cert.Proof.Assemble.algebraic⟩

end Cert.Proof

end
